-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S2048x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S3x64x64 : Shape := ⟨3, ![3, 64, 64]⟩
abbrev S_ : Shape := ⟨0, ![]⟩
abbrev S1x800000 : Shape := ⟨2, ![1, 800000]⟩
abbrev S800000 : Shape := ⟨1, ![800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part1 {F : FTy → Type} [FloatOps F] (main_v14 : IVec S_ 1) (main_v16 : IVec S800000 32) (main_c_4 : IVec S_ 32) : IVec S_ 1 :=
  let main_v17 : IVec S800000 32 := broadcastInDim S800000 ![] bcast_S_S800000 main_c_4
  let main_v18 : IVec S800000 1 := cmpi .slt main_v16 main_v17
  let main_c_5 : IVec S_ 1 := constantI S_ 1 1#1
  let main_v19 : IVec S_ 1 := (fun x v => Host.reduce IntOp.andi x v reducesTo_S800000_S_d0 h_S_) main_v18 main_c_5
  let main_v20 : IVec S_ 1 := andi main_v14 main_v19
  main_v20

def fn {F : FTy → Type} [FloatOps F] (main_arg0 : FVec F S50000x64 .f32) (main_arg1 : IVec S2x800000 32) (main_arg2 : FVec F S3x64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S3x64x64 .f32 := Host.absf main_arg2
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : IVec S1x800000 32 := (extractStridedSlice S1x800000 ![0, 0] · slices_S2x800000_S1x800000_0_0) main_arg1
  let main_v10 : IVec S800000 32 := shapeCast S800000 main_v9 shapeCasts_S1x800000_S800000
  let main_c_2 : IVec S_ 32 := constantI S_ 32 0#32
  let main_v11 : IVec S800000 32 := broadcastInDim S800000 ![] bcast_S_S800000 main_c_2
  let main_v12 : IVec S800000 1 := cmpi .sge main_v10 main_v11
  let main_c_3 : IVec S_ 1 := constantI S_ 1 1#1
  let main_v13 : IVec S_ 1 := (fun x v => Host.reduce IntOp.andi x v reducesTo_S800000_S_d0 h_S_) main_v12 main_c_3
  let main_v14 : IVec S_ 1 := andi main_v8 main_v13
  let main_v15 : IVec S1x800000 32 := (extractStridedSlice S1x800000 ![0, 0] · slices_S2x800000_S1x800000_0_0) main_arg1
  let main_v16 : IVec S800000 32 := shapeCast S800000 main_v15 shapeCasts_S1x800000_S800000
  let main_c_4 : IVec S_ 32 := constantI S_ 32 50000#32
  fn_part1 (F := F) main_v14 main_v16 main_c_4
-- ==== Kernel.lean ====
abbrev S50000x64 : Shape := ⟨2, ![50000, 64]⟩
abbrev S2x800000 : Shape := ⟨2, ![2, 800000]⟩
abbrev S3x64x64 : Shape := ⟨3, ![3, 64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S851968 : Shape := ⟨1, ![851968]⟩
abbrev S51200x64 : Shape := ⟨2, ![51200, 64]⟩
abbrev S1x64x64 : Shape := ⟨3, ![1, 64, 64]⟩
abbrev S64x64 : Shape := ⟨2, ![64, 64]⟩
abbrev S2048x64 : Shape := ⟨2, ![2048, 64]⟩
abbrev S851968x64 : Shape := ⟨2, ![851968, 64]⟩
abbrev S4096 : Shape := ⟨1, ![4096]⟩
abbrev S4096x64 : Shape := ⟨2, ![4096, 64]⟩
abbrev S1x512 : Shape := ⟨2, ![1, 512]⟩
abbrev S4096x1 : Shape := ⟨2, ![4096, 1]⟩
abbrev S4096x512 : Shape := ⟨2, ![4096, 512]⟩
abbrev S512x64 : Shape := ⟨2, ![512, 64]⟩
abbrev S51200x1 : Shape := ⟨2, ![51200, 1]⟩
abbrev S1024x64 : Shape := ⟨2, ![1024, 64]⟩
abbrev S1024 : Shape := ⟨1, ![1024]⟩
abbrev S2048x1 : Shape := ⟨2, ![2048, 1]⟩
abbrev S1x1024 : Shape := ⟨2, ![1, 1024]⟩
abbrev S2048x1024 : Shape := ⟨2, ![2048, 1024]⟩
abbrev S2048 : Shape := ⟨1, ![2048]⟩

abbrev nBuf : Space → Nat
  | .hbm => 34
  | .vmem => 53
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S3x64x64, .f32⟩
  | .hbm, ⟨3, _⟩ => ⟨S50000, .i32⟩
  | .hbm, ⟨4, _⟩ => ⟨S1x800000, .i32⟩
  | .hbm, ⟨5, _⟩ => ⟨S800000, .i32⟩
  | .hbm, ⟨6, _⟩ => ⟨S850000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S_, .i32⟩
  | .hbm, ⟨11, _⟩ => ⟨S_, .i32⟩
  | .hbm, ⟨12, _⟩ => ⟨S851968, .i32⟩
  | .hbm, ⟨13, _⟩ => ⟨S_, .i32⟩
  | .hbm, ⟨14, _⟩ => ⟨S_, .i32⟩
  | .hbm, ⟨15, _⟩ => ⟨S851968, .i32⟩
  | .hbm, ⟨16, _⟩ => ⟨S_, .f32⟩
  | .hbm, ⟨17, _⟩ => ⟨S_, .f32⟩
  | .hbm, ⟨18, _⟩ => ⟨S51200x64, .f32⟩
  | .hbm, ⟨19, _⟩ => ⟨S1x64x64, .f32⟩
  | .hbm, ⟨20, _⟩ => ⟨S64x64, .f32⟩
  | .hbm, ⟨21, _⟩ => ⟨S51200x64, .bf16⟩
  | .hbm, ⟨22, _⟩ => ⟨S851968x64, .bf16⟩
  | .hbm, ⟨23, _⟩ => ⟨S1x64x64, .f32⟩
  | .hbm, ⟨24, _⟩ => ⟨S64x64, .f32⟩
  | .hbm, ⟨25, _⟩ => ⟨S51200x64, .bf16⟩
  | .hbm, ⟨26, _⟩ => ⟨S51200x1, .f32⟩
  | .hbm, ⟨27, _⟩ => ⟨S851968x64, .bf16⟩
  | .hbm, ⟨28, _⟩ => ⟨S1x64x64, .f32⟩
  | .hbm, ⟨29, _⟩ => ⟨S64x64, .f32⟩
  | .hbm, ⟨30, _⟩ => ⟨S51200x64, .bf16⟩
  | .hbm, ⟨31, _⟩ => ⟨S851968x64, .bf16⟩
  | .hbm, ⟨32, _⟩ => ⟨S51200x64, .f32⟩
  | .hbm, ⟨33, _⟩ => ⟨S50000x64, .f32⟩
  | .local _ .vmem, ⟨0, _⟩ => ⟨S2048x64, .f32⟩
  | .local _ .vmem, ⟨1, _⟩ => ⟨S2048x64, .f32⟩
  | .local _ .vmem, ⟨2, _⟩ => ⟨S64x64, .f32⟩
  | .local _ .vmem, ⟨3, _⟩ => ⟨S2048x64, .bf16⟩
  | .local _ .vmem, ⟨4, _⟩ => ⟨S2048x64, .bf16⟩
  | .local _ .vmem, ⟨5, _⟩ => ⟨S4096, .i32⟩
  | .local _ .vmem, ⟨6, _⟩ => ⟨S4096, .i32⟩
  | .local _ .vmem, ⟨7, _⟩ => ⟨S51200x64, .bf16⟩
  | .local _ .vmem, ⟨8, _⟩ => ⟨S4096x64, .bf16⟩
  | .local _ .vmem, ⟨9, _⟩ => ⟨S4096x64, .bf16⟩
  | .local _ .vmem, ⟨10, _⟩ => ⟨S4096x64, .f32⟩
  | .local _ .vmem, ⟨11, _⟩ => ⟨S1024x64, .bf16⟩
  | .local _ .vmem, ⟨12, _⟩ => ⟨S1024x64, .bf16⟩
  | .local _ .vmem, ⟨13, _⟩ => ⟨S1024, .i32⟩
  | .local _ .vmem, ⟨14, _⟩ => ⟨S1024, .i32⟩
  | .local _ .vmem, ⟨15, _⟩ => ⟨S64x64, .f32⟩
  | .local _ .vmem, ⟨16, _⟩ => ⟨S2048x64, .bf16⟩
  | .local _ .vmem, ⟨17, _⟩ => ⟨S2048x64, .bf16⟩
  | .local _ .vmem, ⟨18, _⟩ => ⟨S2048x1, .f32⟩
  | .local _ .vmem, ⟨19, _⟩ => ⟨S2048x1, .f32⟩
  | .local _ .vmem, ⟨20, _⟩ => ⟨S2048x64, .f32⟩
  | .local _ .vmem, ⟨21, _⟩ => ⟨S2048x1, .f32⟩
  | .local _ .vmem, ⟨22, _⟩ => ⟨S4096, .i32⟩
  | .local _ .vmem, ⟨23, _⟩ => ⟨S4096, .i32⟩
  | .local _ .vmem, ⟨24, _⟩ => ⟨S51200x64, .bf16⟩
  | .local _ .vmem, ⟨25, _⟩ => ⟨S4096x64, .bf16⟩
  | .local _ .vmem, ⟨26, _⟩ => ⟨S4096x64, .bf16⟩
  | .local _ .vmem, ⟨27, _⟩ => ⟨S4096x64, .f32⟩
  | .local _ .vmem, ⟨28, _⟩ => ⟨S1024x64, .bf16⟩
  | .local _ .vmem, ⟨29, _⟩ => ⟨S1024x64, .bf16⟩
  | .local _ .vmem, ⟨30, _⟩ => ⟨S1024, .i32⟩
  | .local _ .vmem, ⟨31, _⟩ => ⟨S1024, .i32⟩
  | .local _ .vmem, ⟨32, _⟩ => ⟨S2048x1, .f32⟩
  | .local _ .vmem, ⟨33, _⟩ => ⟨S2048x1, .f32⟩
  | .local _ .vmem, ⟨34, _⟩ => ⟨S64x64, .f32⟩
  | .local _ .vmem, ⟨35, _⟩ => ⟨S2048x64, .bf16⟩
  | .local _ .vmem, ⟨36, _⟩ => ⟨S2048x64, .bf16⟩
  | .local _ .vmem, ⟨37, _⟩ => ⟨S2048x64, .f32⟩
  | .local _ .vmem, ⟨38, _⟩ => ⟨S4096, .i32⟩
  | .local _ .vmem, ⟨39, _⟩ => ⟨S4096, .i32⟩
  | .local _ .vmem, ⟨40, _⟩ => ⟨S51200x64, .bf16⟩
  | .local _ .vmem, ⟨41, _⟩ => ⟨S4096x64, .bf16⟩
  | .local _ .vmem, ⟨42, _⟩ => ⟨S4096x64, .bf16⟩
  | .local _ .vmem, ⟨43, _⟩ => ⟨S4096x64, .f32⟩
  | .local _ .vmem, ⟨44, _⟩ => ⟨S1024x64, .bf16⟩
  | .local _ .vmem, ⟨45, _⟩ => ⟨S1024x64, .bf16⟩
  | .local _ .vmem, ⟨46, _⟩ => ⟨S1024, .i32⟩
  | .local _ .vmem, ⟨47, _⟩ => ⟨S1024, .i32⟩
  | .local _ .vmem, ⟨48, _⟩ => ⟨S2048x1, .f32⟩
  | .local _ .vmem, ⟨49, _⟩ => ⟨S2048x1, .f32⟩
  | .local _ .vmem, ⟨50, _⟩ => ⟨S2048x64, .f32⟩
  | .local _ .vmem, ⟨51, _⟩ => ⟨S2048x64, .f32⟩
  | .local _ .vmem, ⟨52, _⟩ => ⟨S2048x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_c_0 : Ref sig .tc := ⟨.hbm, 13, rfl⟩
abbrev main_call1_v0 : Ref sig .tc := ⟨.hbm, 14, rfl⟩
abbrev main_v8 : Ref sig .tc := ⟨.hbm, 15, rfl⟩
abbrev main_cst : Ref sig .tc := ⟨.hbm, 16, rfl⟩
abbrev main_call2_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_scratch0 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc2_scratch1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc3_scratch0 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg4_0 : Ref sig .tc := ⟨.vmem, 35, rfl⟩
abbrev cc4_stg4_1 : Ref sig .tc := ⟨.vmem, 36, rfl⟩
abbrev cc4_scratch0 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc6_scratch0 : Ref sig .tc := ⟨.vmem, 52, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem4_0 : DmaSem sig := 31
abbrev cc4_sem4_1 : DmaSem sig := 32
abbrev cc5_sem0_0 : DmaSem sig := 33
abbrev cc5_sem0_1 : DmaSem sig := 34
abbrev cc5_sem1_0 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![208, 100], ![false, false]⟩

def k1_mult1 (i : grid1.Coords) : BitVec 32 :=
  let arg1 : BitVec 32 := BitVec.ofNat 32 (i 1).val
  let c512_i32_1 : BitVec 32 := 512#32
  let v16 : BitVec 32 := Scalar.muli arg1 c512_i32_1
  v16
def k1_off1 (i : grid1.Coords) : Fin 2 → Nat :=
  let arg1 : BitVec 32 := BitVec.ofNat 32 (i 1).val
  let c512_i32_1 : BitVec 32 := 512#32
  let v16 : BitVec 32 := Scalar.muli arg1 c512_i32_1
  let v17 : BitVec 32 := v16
  let v18 : Index := Scalar.indexCast v17
  let c0_2 : Index := 0#32
  ![v18.toNat, 0]
def k1_cond2 (i : grid1.Coords) : BitVec 1 :=
  let arg1 : BitVec 32 := BitVec.ofNat 32 (i 1).val
  let c99_i32 : BitVec 32 := 99#32
  let v27 : BitVec 1 := Scalar.cmpi .eq arg1 c99_i32
  let v28 : BitVec 32 := Scalar.extui v27
  let c0_i32_7 : BitVec 32 := 0#32
  let v29 : BitVec 1 := Scalar.cmpi .ne v28 c0_i32_7
  v29

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S51200x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨2, ![25, 832], ![false, false]⟩

def k2_cond2 (i : grid2.Coords) : BitVec 1 :=
  let arg1 : BitVec 32 := BitVec.ofNat 32 (i 1).val
  let c831_i32 : BitVec 32 := 831#32
  let v32 : BitVec 1 := Scalar.cmpi .eq arg1 c831_i32
  let v33 : BitVec 32 := Scalar.extui v32
  let c0_i32_12 : BitVec 32 := 0#32
  let v34 : BitVec 1 := Scalar.cmpi .ne v33 c0_i32_12
  v34

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S2048x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨2, ![208, 100], ![false, false]⟩

def k3_mult1 (i : grid3.Coords) : BitVec 32 :=
  let arg1 : BitVec 32 := BitVec.ofNat 32 (i 1).val
  let c512_i32_1 : BitVec 32 := 512#32
  let v16 : BitVec 32 := Scalar.muli arg1 c512_i32_1
  v16
def k3_off1 (i : grid3.Coords) : Fin 2 → Nat :=
  let arg1 : BitVec 32 := BitVec.ofNat 32 (i 1).val
  let c512_i32_1 : BitVec 32 := 512#32
  let v16 : BitVec 32 := Scalar.muli arg1 c512_i32_1
  let v17 : BitVec 32 := v16
  let v18 : Index := Scalar.indexCast v17
  let c0_2 : Index := 0#32
  ![v18.toNat, 0]
def k3_cond2 (i : grid3.Coords) : BitVec 1 :=
  let arg1 : BitVec 32 := BitVec.ofNat 32 (i 1).val
  let c99_i32 : BitVec 32 := 99#32
  let v27 : BitVec 1 := Scalar.cmpi .eq arg1 c99_i32
  let v28 : BitVec 32 := Scalar.extui v27
  let c0_i32_7 : BitVec 32 := 0#32
  let v29 : BitVec 1 := Scalar.cmpi .ne v28 c0_i32_7
  v29

def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  ![arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S4096 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S51200x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S4096x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev grid4 : Pipeline.Grid := ⟨2, ![25, 832], ![false, false]⟩

def k4_cond2 (i : grid4.Coords) : BitVec 1 :=
  let arg1 : BitVec 32 := BitVec.ofNat 32 (i 1).val
  let c831_i32 : BitVec 32 := 831#32
  let v24 : BitVec 1 := Scalar.cmpi .eq arg1 c831_i32
  let v25 : BitVec 32 := Scalar.extui v24
  let c0_i32_7 : BitVec 32 := 0#32
  let v26 : BitVec 1 := Scalar.cmpi .ne v25 c0_i32_7
  v26

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S2048x64 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev grid5 : Pipeline.Grid := ⟨2, ![208, 100], ![false, false]⟩

def k5_mult1 (i : grid5.Coords) : BitVec 32 :=
  let arg1 : BitVec 32 := BitVec.ofNat 32 (i 1).val
  let c512_i32_1 : BitVec 32 := 512#32
  let v16 : BitVec 32 := Scalar.muli arg1 c512_i32_1
  v16
def k5_off1 (i : grid5.Coords) : Fin 2 → Nat :=
  let arg1 : BitVec 32 := BitVec.ofNat 32 (i 1).val
  let c512_i32_1 : BitVec 32 := 512#32
  let v16 : BitVec 32 := Scalar.muli arg1 c512_i32_1
  let v17 : BitVec 32 := v16
  let v18 : Index := Scalar.indexCast v17
  let c0_2 : Index := 0#32
  ![v18.toNat, 0]
def k5_cond2 (i : grid5.Coords) : BitVec 1 :=
  let arg1 : BitVec 32 := BitVec.ofNat 32 (i 1).val
  let c99_i32 : BitVec 32 := 99#32
  let v27 : BitVec 1 := Scalar.cmpi .eq arg1 c99_i32
  let v28 : BitVec 32 := Scalar.extui v27
  let c0_i32_7 : BitVec 32 := 0#32
  let v29 : BitVec 1 := Scalar.cmpi .ne v28 c0_i32_7
  v29

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S4096 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 1 → Memref sig .tc .vmem S51200x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 2 → Memref sig .tc .vmem S4096x64 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev grid6 : Pipeline.Grid := ⟨2, ![25, 832], ![false, false]⟩

def k6_cond2 (i : grid6.Coords) : BitVec 1 :=
  let arg1 : BitVec 32 := BitVec.ofNat 32 (i 1).val
  let c831_i32 : BitVec 32 := 831#32
  let v24 : BitVec 1 := Scalar.cmpi .eq arg1 c831_i32
  let v25 : BitVec 32 := Scalar.extui v24
  let c0_i32_7 : BitVec 32 := 0#32
  let v26 : BitVec 1 := Scalar.cmpi .ne v25 c0_i32_7
  v26

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_1 (i : grid6.Coords) : Fin 1 → Nat :=
  let arg0 : BitVec 32 := BitVec.ofNat 32 (i 0).val
  let arg1 : BitVec 32 := BitVec.ofNat 32 (i 1).val
  let c0_i32 : BitVec 32 := 0#32
  ![arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S1024x64 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true]

abbrev stage6_1 : Fin 2 → Memref sig .tc .vmem S1024 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S2048x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  pads_S850000_S851968_019680 : S850000.Pads (![0] : Fin 1 → Nat) ![1968] ![0] S851968
  h_S_ : 0 < S_.numel
  pads_S50000x64_S51200x64_012000_000 : S50000x64.Pads (![0, 0] : Fin 2 → Nat) ![1200, 0] ![0, 0] S51200x64
  slices_S3x64x64_S1x64x64_0_0_0 : S3x64x64.Slices ![0, 0, 0] S1x64x64
  shapeCasts_S1x64x64_S64x64 : S1x64x64.ShapeCasts S64x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  packedbf16_S2048x64_S2048x64_0_0 : (Rect.unit (s := S2048x64) ![0, 0] S2048x64.size inb_S2048x64_S2048x64_0_0).PackedRows (EltTy.packing .bf16)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  iota_S1x512_d1_w32 : S1x512.Iotas .tc 32 [1]
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x512 : S4096x1.Broadcasts S4096x512
  broadcasts_S1x512_S4096x512 : S1x512.Broadcasts S4096x512
  natLt_1_32 : 1 < 32
  h_S512x64 : 0 < S512x64.numel
  shapeCasts_S512x64_S512x64 : S512x64.ShapeCasts S512x64
  packedbf16_S4096x64_S4096x64_0_0 : (Rect.unit (s := S4096x64) ![0, 0] S4096x64.size inb_S4096x64_S4096x64_0_0).PackedRows (EltTy.packing .bf16)
  slices_S3x64x64_S1x64x64_1_0_0 : S3x64x64.Slices ![1, 0, 0] S1x64x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x1_d0_w32 : S2048x1.Iotas .tc 32 [0]
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S2048x1_S2048x1024 : S2048x1.Broadcasts S2048x1024
  broadcasts_S1x1024_S2048x1024 : S1x1024.Broadcasts S2048x1024
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S2048x1024_S2048 : S2048x1024.Reduces [1] S2048
  shapeCasts_S2048_S2048x1 : S2048.ShapeCasts S2048x1
  broadcasts_S2048x1_S2048x64 : S2048x1.Broadcasts S2048x64
  slices_S3x64x64_S1x64x64_2_0_0 : S3x64x64.Slices ![2, 0, 0] S1x64x64
  slices_S51200x64_S50000x64_0_0 : S51200x64.Slices ![0, 0] S50000x64
  dot_S2048x64_S64x64_S2048x64_1_0_0_1_n_n_wf : DotDims.WF S2048x64 S64x64 S2048x64 [1] [0] [0] [1] [] []
  dot_S4096x512_S512x64_S4096x64_1_0_0_1_n_n_wf : DotDims.WF S4096x512 S512x64 S4096x64 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S51200x64.size a
  hwx0_0 : ∀ i : grid0.Coords, EltTy.bits .f32 = 32 ∨ (Rect.block (s := S51200x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S51200x64.size a
  hwx0_2 : ∀ i : grid0.Coords, EltTy.bits .bf16 = 32 ∨ (Rect.block (s := S51200x64) S2048x64.size (cc0_transform_2 i) (hinb0_2 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x64.size a ≤ S51200x64.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096.size a ≤ S851968.size a
  hwx1_0 : ∀ i : grid1.Coords, EltTy.bits .i32 = 32 ∨ (Rect.block (s := S851968) S4096.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S51200x64.size a ≤ S51200x64.size a
  hwx1_1 : ∀ i : grid1.Coords, EltTy.bits .bf16 = 32 ∨ (Rect.block (s := S51200x64) S51200x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x64.size a ≤ S851968x64.size a
  hwx1_2 : ∀ i : grid1.Coords, EltTy.bits .bf16 = 32 ∨ (Rect.block (s := S851968x64) S4096x64.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S851968x64.size a
  hwx2_0 : ∀ i : grid2.Coords, EltTy.bits .bf16 = 32 ∨ (Rect.block (s := S851968x64) S1024x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024.size a ≤ S851968.size a
  hwx2_1 : ∀ i : grid2.Coords, EltTy.bits .i32 = 32 ∨ (Rect.block (s := S851968) S1024.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x64.size a ≤ S51200x64.size a
  hwx2_3 : ∀ i : grid2.Coords, EltTy.bits .bf16 = 32 ∨ (Rect.block (s := S51200x64) S2048x64.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S51200x1.size a
  hwx2_4 : ∀ i : grid2.Coords, EltTy.bits .f32 = 32 ∨ (Rect.block (s := S51200x1) S2048x1.size (cc2_transform_4 i) (hinb2_4 i)).WholeWords (EltTy.packing .f32)
  hrank3 : 0 < grid3.rank
  k3_mult1_dvd : ∀ i : grid3.Coords, 512 ∣ (k3_mult1 i).toNat
  k3_off1_inb : ∀ i : grid3.Coords, ∀ a, (k3_off1 i) a + S512x64.size a ≤ S51200x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096.size a ≤ S851968.size a
  hwx3_0 : ∀ i : grid3.Coords, EltTy.bits .i32 = 32 ∨ (Rect.block (s := S851968) S4096.size (cc3_transform_0 i) (hinb3_0 i)).WholeWords (EltTy.packing .i32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S51200x64.size a ≤ S51200x64.size a
  hwx3_1 : ∀ i : grid3.Coords, EltTy.bits .bf16 = 32 ∨ (Rect.block (s := S51200x64) S51200x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x64.size a ≤ S851968x64.size a
  hwx3_2 : ∀ i : grid3.Coords, EltTy.bits .bf16 = 32 ∨ (Rect.block (s := S851968x64) S4096x64.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x64.size a ≤ S851968x64.size a
  hwx4_0 : ∀ i : grid4.Coords, EltTy.bits .bf16 = 32 ∨ (Rect.block (s := S851968x64) S1024x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024.size a ≤ S851968.size a
  hwx4_1 : ∀ i : grid4.Coords, EltTy.bits .i32 = 32 ∨ (Rect.block (s := S851968) S1024.size (cc4_transform_1 i) (hinb4_1 i)).WholeWords (EltTy.packing .i32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S51200x1.size a
  hwx4_2 : ∀ i : grid4.Coords, EltTy.bits .f32 = 32 ∨ (Rect.block (s := S51200x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2048x64.size a ≤ S51200x64.size a
  hwx4_4 : ∀ i : grid4.Coords, EltTy.bits .bf16 = 32 ∨ (Rect.block (s := S51200x64) S2048x64.size (cc4_transform_4 i) (hinb4_4 i)).WholeWords (EltTy.packing .bf16)
  hrank5 : 0 < grid5.rank
  k5_mult1_dvd : ∀ i : grid5.Coords, 512 ∣ (k5_mult1 i).toNat
  k5_off1_inb : ∀ i : grid5.Coords, ∀ a, (k5_off1 i) a + S512x64.size a ≤ S51200x64.size a
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096.size a ≤ S851968.size a
  hwx5_0 : ∀ i : grid5.Coords, EltTy.bits .i32 = 32 ∨ (Rect.block (s := S851968) S4096.size (cc5_transform_0 i) (hinb5_0 i)).WholeWords (EltTy.packing .i32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S51200x64.size a ≤ S51200x64.size a
  hwx5_1 : ∀ i : grid5.Coords, EltTy.bits .bf16 = 32 ∨ (Rect.block (s := S51200x64) S51200x64.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4096x64.size a ≤ S851968x64.size a
  hwx5_2 : ∀ i : grid5.Coords, EltTy.bits .bf16 = 32 ∨ (Rect.block (s := S851968x64) S4096x64.size (cc5_transform_2 i) (hinb5_2 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x64.size a ≤ S851968x64.size a
  hwx6_0 : ∀ i : grid6.Coords, EltTy.bits .bf16 = 32 ∨ (Rect.block (s := S851968x64) S1024x64.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024.size a ≤ S851968.size a
  hwx6_1 : ∀ i : grid6.Coords, EltTy.bits .i32 = 32 ∨ (Rect.block (s := S851968) S1024.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2048x1.size a ≤ S51200x1.size a
  hwx6_2 : ∀ i : grid6.Coords, EltTy.bits .f32 = 32 ∨ (Rect.block (s := S51200x1) S2048x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x64.size a ≤ S51200x64.size a
  hwx6_3 : ∀ i : grid6.Coords, EltTy.bits .f32 = 32 ∨ (Rect.block (s := S51200x64) S2048x64.size (cc6_transform_3 i) (hinb6_3 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S4096x512_S512x64_S4096x64_1_0_0_1_n_n : DotDims S4096x512 S512x64 S4096x64 where
  lhsContracting := [1]
  rhsContracting := [0]
  lhsNonContracting := [0]
  rhsNonContracting := [1]
  lhsBatch := []
  rhsBatch := []
  wf := dot_S4096x512_S512x64_S4096x64_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v9) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S51200x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S4096x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v13) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v16_0) S2048x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v16_1) S2048x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun i => !(k2_cond2 i == 1#1) | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v7) S4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16_0) S51200x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v17) S4096x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v17) S1024x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v16_1) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v19) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v20) S2048x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

abbrev win5_0 : Pipeline.Window sig grid5 :=
  Pipeline.Window.ofSpec (Memref.whole main_v7) S4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v20) S51200x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v21) S4096x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

abbrev win6_0 : Pipeline.Window sig grid6 :=
  Pipeline.Window.ofSpec (Memref.whole main_v21) S1024x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v8) S1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v16_1) S2048x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v22) S2048x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

class Facts : Prop extends Facts₀ where

variable [Facts]
-- ==== ReferenceIdeal.lean ====
abbrev S50000x64 : Shape := ⟨2, ![50000, 64]⟩
abbrev S2x800000 : Shape := ⟨2, ![2, 800000]⟩
abbrev S3x64x64 : Shape := ⟨3, ![3, 64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S850000x64 : Shape := ⟨2, ![850000, 64]⟩
abbrev S1x64x64 : Shape := ⟨3, ![1, 64, 64]⟩
abbrev S64x64 : Shape := ⟨2, ![64, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S3x64x64, .f32⟩
  | .hbm, ⟨3, _⟩ => ⟨S50000, .i32⟩
  | .hbm, ⟨4, _⟩ => ⟨S1x800000, .i32⟩
  | .hbm, ⟨5, _⟩ => ⟨S800000, .i32⟩
  | .hbm, ⟨6, _⟩ => ⟨S850000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S_, .f32⟩
  | .hbm, ⟨11, _⟩ => ⟨S850000, .f32⟩
  | .hbm, ⟨12, _⟩ => ⟨S_, .f32⟩
  | .hbm, ⟨13, _⟩ => ⟨S50000, .f32⟩
  | .hbm, ⟨14, _⟩ => ⟨S850000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S_, .i32⟩
  | .hbm, ⟨24, _⟩ => ⟨S850000, .i32⟩
  | .hbm, ⟨25, _⟩ => ⟨S850000, .i1⟩
  | .hbm, ⟨26, _⟩ => ⟨S_, .i32⟩
  | .hbm, ⟨27, _⟩ => ⟨S850000, .i32⟩
  | .hbm, ⟨28, _⟩ => ⟨S850000, .i32⟩
  | .hbm, ⟨29, _⟩ => ⟨S850000, .i32⟩
  | .hbm, ⟨30, _⟩ => ⟨S850000x1, .i32⟩
  | .hbm, ⟨31, _⟩ => ⟨S850000x64, .f32⟩
  | .hbm, ⟨32, _⟩ => ⟨S_, .f32⟩
  | .hbm, ⟨33, _⟩ => ⟨S50000x64, .f32⟩
  | .hbm, ⟨34, _⟩ => ⟨S850000x1, .i32⟩
  | .hbm, ⟨35, _⟩ => ⟨S50000x64, .f32⟩
  | .hbm, ⟨36, _⟩ => ⟨S50000x64, .f32⟩
  | .hbm, ⟨37, _⟩ => ⟨S50000x64, .f32⟩
  | .hbm, ⟨38, _⟩ => ⟨S1x64x64, .f32⟩
  | .hbm, ⟨39, _⟩ => ⟨S64x64, .f32⟩
  | .hbm, ⟨40, _⟩ => ⟨S64x64, .f32⟩
  | .hbm, ⟨41, _⟩ => ⟨S50000x64, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x64, .f32⟩
  | .hbm, ⟨51, _⟩ => ⟨S_, .f32⟩
  | .hbm, ⟨52, _⟩ => ⟨S50000x64, .f32⟩
  | .hbm, ⟨53, _⟩ => ⟨S850000x1, .i32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S1x64x64, .f32⟩
  | .hbm, ⟨58, _⟩ => ⟨S64x64, .f32⟩
  | .hbm, ⟨59, _⟩ => ⟨S64x64, .f32⟩
  | .hbm, ⟨60, _⟩ => ⟨S50000x64, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x64, .f32⟩
  | .hbm, ⟨70, _⟩ => ⟨S_, .f32⟩
  | .hbm, ⟨71, _⟩ => ⟨S50000x64, .f32⟩
  | .hbm, ⟨72, _⟩ => ⟨S850000x1, .i32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S1x64x64, .f32⟩
  | .hbm, ⟨77, _⟩ => ⟨S64x64, .f32⟩
  | .hbm, ⟨78, _⟩ => ⟨S64x64, .f32⟩
  | .hbm, ⟨79, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_c_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  slices_S3x64x64_S1x64x64_0_0_0 : S3x64x64.Slices ![0, 0, 0] S1x64x64
  shapeCasts_S1x64x64_S64x64 : S1x64x64.ShapeCasts S64x64
  transposes_S64x64_S64x64_1_0 : S64x64.Transposes [1, 0] S64x64
  slices_S3x64x64_S1x64x64_1_0_0 : S3x64x64.Slices ![1, 0, 0] S1x64x64
  slices_S3x64x64_S1x64x64_2_0_0 : S3x64x64.Slices ![2, 0, 0] S1x64x64
  scatter_S50000_S850000x1_S850000_n_0_0_1_wf : ScatterDims.WF S50000 S850000x1 S850000 [] [0] [0] 1
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.K.RegionProof.lean ====
import proofs.«427573_j12068858102168_3_alg».proof.Proof.Gen.Kernel.Launch
import proofs.«427573_j12068858102168_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

abbrev Vals (F : FTy → Type) : Type := (c : Dev nD) → (b : Ref sig .tc) → Buf (Elt F) ((c : Thread nD τ).loc b)

abbrev specOf (cfg : Pipeline.Cfg sig Λ₀) : Fin cfg.W → Pipeline.WinSpec sig cfg.grid.rank := fun w => (cfg.win w).toWinSpec

structure RegionProof (F : FTy → Type) [FloatOps F] (cfg : Pipeline.Cfg sig Λ₀) where

  dat : Vals F → (c : Dev nD) → Dat τ (Elt F) Unit ℕ (UR sig nD τ) ℕ cfg c

  A_eq : ∀ (V : Vals F) (c : Dev nD) (w : Fin cfg.W), (dat V c).A w = V c (Pipeline.arrRef (specOf cfg) w)

  q_eq : ∀ (V : Vals F) (c : Dev nD) (w : Fin cfg.W), (dat V c).q w = fullShare

  owed_eq : ∀ (V : Vals F) (c : Dev nD) (t : Fin (cfg.N + 1)), (dat V c).owed t = 0

  rec_eq : ∀ (V : Vals F) (c : Dev nD) (t : Fin (cfg.N + 1)), (dat V c).recorded t = Set.univ

  body : ∀ (V : Vals F) (c : Dev nD), BodyObligation (dat V c) (defs₀ (F := F)) Variants.none () Set.univ

  hin : ∀ (V : Vals F) (c : Dev nD),
    (Pipeline.ΦA (U := UR sig nD τ) (specOf cfg) c : sProp (MT nD τ sig Unit (Elt F) ℕ (UR sig nD τ) ℕ)) ⊢ (dat V c).Φ 0

  hout : ∀ (V : Vals F) (c : Dev nD),
    (dat V c).Φ (Fin.last cfg.N) ⊢ (Pipeline.ΦA (U := UR sig nD τ) (specOf cfg) c : sProp (MT nD τ sig Unit (Elt F) ℕ (UR sig nD τ) ℕ))

end Cert.Kernel.Hand

end
-- ==== Proof.K.Chain.lean ====
import proofs.«427573_j12068858102168_3_alg».proof.Proof.K.RegionProof
import proofs.«427573_j12068858102168_3_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev Regions (F : FTy → Type) [FloatOps F] := (p : Fin 7) → RegionProof F (cfgs p)

@[reducible] def regions (r0 : RegionProof F cfg0) (r1 : RegionProof F cfg1) (r2 : RegionProof F cfg2) (r3 : RegionProof F cfg3)
    (r4 : RegionProof F cfg4) (r5 : RegionProof F cfg5) (r6 : RegionProof F cfg6) : Regions F
  | 0 => r0 | 1 => r1 | 2 => r2 | 3 => r3 | 4 => r4 | 5 => r5 | 6 => r6

theorem launch : ∀ p : Fin 7, Pipeline.LaunchFacts (nD := nD) (τ := τ) cfgs p
  | 0 => launch0 | 1 => launch1 | 2 => launch2 | 3 => launch3 | 4 => launch4 | 5 => launch5 | 6 => launch6

abbrev Conts (F : FTy → Type) := Dev nD → Valuation τ sig (Elt F)

abbrev atTc (W : Conts F) : Vals F := fun c b => W c (Proc.devRef .tc b)

variable (m : (ℓ : Loc nD τ sig) → Buf (Elt F) ℓ) (ρ : Dev nD → PrngReg) (rps : Regions F)

def exitW (p : Fin 7) (W : Conts F) (c : Dev nD) : Valuation τ sig (Elt F) :=
  Pipeline.withArrays (cfgs p).spec c (W c) fun w => ((rps p).dat (atTc W) c).arrAt w (cfgs p).N

section
variable {rps} (p : Fin 7) {W : Conts F} (c : Dev nD)

theorem exitW_arr (w : Fin (cfgs p).W) :
    exitW rps p W c (Proc.devRef .tc (Pipeline.arrRef (cfgs p).spec w)) = ((rps p).dat (atTc W) c).arrAt w (cfgs p).N :=
  Pipeline.withArrays_arr _ (launch p).win.arr_inj c _ _ w

variable {p} in
theorem exitW_of_ne (b : Ref sig .tc) (hb : ∀ w, Pipeline.arrRef (cfgs p).spec w ≠ b) :
    exitW rps p W c (Proc.devRef .tc b) = W c (Proc.devRef .tc b) :=
  Pipeline.withArrays_of_ne _ c _ _ b hb

end

section
variable {V : Valuation τ sig (Elt F)} {r : Ref sig .tc}

theorem ops2_of (h : r ∉ hostOps2_W) : StableHlo.after hostOps2 V (Proc.devRef .tc r) = V (Proc.devRef .tc r) :=
  StableHlo.after_of_writes_sub _ _ hostOps2_writes h
theorem ops4_of (h : r ∉ hostOps4_W) : StableHlo.after hostOps4 V (Proc.devRef .tc r) = V (Proc.devRef .tc r) :=
  StableHlo.after_of_writes_sub _ _ hostOps4_writes h
theorem ops7_of (h : r ∉ hostOps7_W) : StableHlo.after hostOps7 V (Proc.devRef .tc r) = V (Proc.devRef .tc r) :=
  StableHlo.after_of_writes_sub _ _ hostOps7_writes h

end

abbrev W8 : Conts F := exitW rps 0 (Gen.V7 m)
abbrev W9 : Conts F := exitW rps 1 (W8 m rps)
abbrev W10 : Conts F := fun c => StableHlo.after hostOps2 (W9 m rps c)
abbrev W11 : Conts F := exitW rps 2 (W10 m rps)
abbrev W12 : Conts F := exitW rps 3 (W11 m rps)
abbrev W13 : Conts F := fun c => StableHlo.after hostOps4 (W12 m rps c)
abbrev W14 : Conts F := exitW rps 4 (W13 m rps)
abbrev W15 : Conts F := exitW rps 5 (W14 m rps)
abbrev W16 : Conts F := exitW rps 6 (W15 m rps)
abbrev W17 : Conts F := fun c => StableHlo.after hostOps7 (W16 m rps c)

abbrev V7 : Vals F := atTc (Gen.V7 m)
theorem W17_kept (c : Dev nD) (r : Ref sig .tc)
    (h : (r ∉ hostOps0_W ∧ r ∉ hostOps0_1_W ∧ r ∉ hostOps0_2_W ∧ r ∉ hostOps0_3_W ∧ r ∉ hostOps0_4_W ∧ r ∉ hostOps0_5_W
      ∧ r ∉ hostOps0_6_W ∧ r ∉ hostOps2_W ∧ r ∉ hostOps4_W ∧ r ∉ hostOps7_W) ∧ ∀ p w, Pipeline.arrRef (cfgs p).spec w ≠ r) :
    W17 m rps c (Proc.devRef .tc r) = m ((c : Thread nD τ).loc r) :=
  let ⟨⟨h0, h1, h2, h3, h4, h5, h6, h9, h12, h16⟩, ha⟩ := h
  (ops7_of h16).trans <| (exitW_of_ne c r (ha 6)).trans <| (exitW_of_ne c r (ha 5)).trans <| (exitW_of_ne c r (ha 4)).trans <|
  (ops4_of h12).trans <| (exitW_of_ne c r (ha 3)).trans <| (exitW_of_ne c r (ha 2)).trans <| (ops2_of h9).trans <|
  (exitW_of_ne c r (ha 1)).trans <| (exitW_of_ne c r (ha 0)).trans <| (V7_of m c r h6).trans <| (V6_of m c r h5).trans <|
  (V5_of m c r h4).trans <| (V4_of m c r h3).trans <| (V3_of m c r h2).trans <| (V2_of m c r h1).trans <| (V1_of m c r h0).trans rfl

def Win : Fin 7 → Conts F
  | 0 => Gen.V7 m | 1 => W8 m rps | 2 => W10 m rps | 3 => W11 m rps | 4 => W13 m rps | 5 => W14 m rps | 6 => W15 m rps

abbrev pdats (p : Fin 7) (c : Dev nD) : Dat τ (Elt F) Unit ℕ (UR sig nD τ) ℕ (Pipeline.pin (pcfgs (F := F)) adm p) c :=
  (rps p).dat (atTc (Win m rps p)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Conts F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m rps c) ∗ ∃ r, prngReg c r)

set_option backward.isDefEq.respectTransparency.types false in
def reg (p : Fin 7) : Pipeline.RegionSeg (pcfgs (F := F)) adm (pdats m rps) () defs₀ 𝒱₀ L lv p where
  win := (launch p).win.to₀
  block_pos := (launch p).block_pos
  stage_whole := (launch p).stage_whole
  K := PEmpty
  osem k := k.elim
  ho := Pipeline.OwnSemFacts.none _
  hbody c := ((rps p).body _ c).loose
  hwaits := Pipeline.hwaits_of_owed_zero _ _ _ _ L lv p fun c t => (rps p).owed_eq _ c t
  pre c := iprop(StableHlo.held (c : Thread nD τ) (Pipeline.ucRefs τ sig) (Win m rps p c) ∗ R c)
  post c := iprop(StableHlo.held (c : Thread nD τ) (Pipeline.ucRefs τ sig) (exitW rps p (Win m rps p) c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc (Win m rps p) c)
  hentry c := by
    rw [Pipeline.ownSems0_none]
    have hsplit := Pipeline.arrays_of_unscopedBufs (p := p) (pcfgs (F := F)) adm (pdats m rps) (launch p).win (launch p).arr_whole c
      ((pdats m rps p c).share_full ((rps p).q_eq _ c)) (atTc (Win m rps p) c) ((rps p).A_eq _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _
        have hx : x ∈ (pdats m rps p c).recorded 0 := by rw [(rps p).rec_eq]; exact Set.mem_univ x
        exact Or.inl hx
      have ho : (pdats m rps p c).owed 0 = 0 := (rps p).owed_eq _ c 0
      rw [ho]
      iexact HO
    isplitl [Hp]; · iexact Hp
    iexact Hrest
  hin c := by
    iintro ⟨Hp, -, Hr⟩
    iapply ((rps p).hin _ c)
    unfold Pipeline.ΦA
    isplitl [Hr]; · iexact Hr
    iexact Hp
  hout c := by
    rw [Pipeline.ownSems0_none]
    iintro H
    ihave H' := ((rps p).hout _ c) $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      (launch p).win (launch p).arr_whole c (pdats m rps) ((pdats m rps p c).share_full ((rps p).q_eq _ c))
      (atTc (Win m rps p) c) (atTc (exitW rps p (Win m rps p)) c) ((pdats m rps p c).arrAt · (cfgs p).N) (fun w => (exitW_arr p c w).symm)
      (fun b hb => exitW_of_ne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : (pdats m rps p c).owed (Fin.last (Pipeline.pin (pcfgs (F := F)) adm p).N) = 0 := (rps p).owed_eq _ c _
    rw [ho]
    icases HO with ⟨%W, -, HO⟩; iexists W; iexact HO

abbrev segs : List (Pipeline.Seg (pcfgs (F := F)) adm (pdats m rps) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .region (reg m rps 0), .region (reg m rps 1),
    .host (hseg hostOps2 hostOps2_sub hostOps2_fresh (W9 m rps)),
    .region (reg m rps 2), .region (reg m rps 3),
    .host (hseg hostOps4 hostOps4_sub hostOps4_fresh (W12 m rps)),
    .region (reg m rps 4), .region (reg m rps 5), .region (reg m rps 6),
    .host (hseg hostOps7 hostOps7_sub hostOps7_fresh (W16 m rps)) ]
theorem main_run (c : Dev nD) : main (F := F) c = Pipeline.Seg.run (segs m rps) := (main_chain c).trans (by chain_rfl)

set_option backward.isDefEq.respectTransparency.types false in
theorem run_main : θ_run defs (onTc (τ := τ) (main (F := F))) ⟨m, fun _ => 0, ρ⟩ (fun r => ∀ c : Dev nD, ∀ b ∈ Pipeline.ucRefs τ sig,
      r.2.mem ((c : Thread nD τ).1, b) = W17 m rps c b) :=
  Pipeline.θ_run_regions_kit (pcfgs (F := F)) adm (pdats m rps) () cellOf_inj emb₁ defs₀ 𝒱₀ L lv m ρ main (segs m rps)
    (fun c Q => by rw [main_run m rps c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m rps)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m rps c b)
    (hfin := fun c s' => by
      iintro ⟨⟨Hh, -⟩, HSI⟩
      unfold StableHlo.held
      imodintro
      iapply (pointsTo_read_all (Pipeline.ucRefs τ sig) (fun b => (((c : Thread nD τ)).1, b)) (W17 m rps c) s')
      isplitl [Hh] <;> iassumption)
    (hQ := fun s h => h)

include rps in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W17_kept m rps c main_arg0 (by decide)),
     (h c _ (mem_uc main_arg1 (by decide))).trans (W17_kept m rps c main_arg1 (by decide)),
     (h c _ (mem_uc main_arg2 (by decide))).trans (W17_kept m rps c main_arg2 (by decide))⟩) (run_main m ρ rps)

end Cert.Kernel.Hand

end
-- ==== Proof.K.R0Data.lean ====
import proofs.«427573_j12068858102168_3_alg».proof.Proof.K.RegionProof
import proofs.«427573_j12068858102168_3_alg».proof.Proof.Gen.Kernel.Launch
import proofs.«427573_j12068858102168_3_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : Vals F)

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2048x64 := Rect.unit (s := S2048x64) ![0, 0] S2048x64.size inb_S2048x64_S2048x64_0_0
abbrev r0_w : Rect S64x64 := Rect.unit (s := S64x64) ![0, 0] S64x64.size inb_S64x64_S64x64_0_0

def out0_2 (x0 : Vec F S2048x64 .f32) (x1 : Vec F S64x64 .f32) : Vec F S2048x64 .bf16 :=
  View.canon [⟨r0_x, k0_pay1 (View.ld x0 r0_x) (View.ld x1 r0_w)⟩]

theorem cover0_2 (p0 : Vec F S2048x64 .bf16) (y : S2048x64.Idx) :
    ∃ pc ∈ ([⟨r0_x, p0⟩] : List (View.Piece (Elt F) S2048x64 .bf16)), y ∈ pc.1.set :=
  View.cover_of_tiled [⟨r0_x, p0⟩] S2048x64.size (by rfl) y

set_option maxHeartbeats 1000000 in
theorem sound_kernel0 (c : Dev nD) (E : Set ℕ) (i : grid0.Coords) (arg1 : Memref sig .tc .vmem S2048x64 .f32) (harg1 : arg1.IsWhole)
    (arg2 : Memref sig .tc .vmem S64x64 .f32) (harg2 : arg2.IsWhole) (arg3 : Memref sig .tc .vmem S2048x64 .bf16) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Region0

end Cert.Kernel.Hand

end
-- ==== Proof.K.R0.lean ====
import proofs.«427573_j12068858102168_3_alg».proof.Proof.K.RegionProof
import proofs.«427573_j12068858102168_3_alg».proof.Proof.K.R0Data
import proofs.«427573_j12068858102168_3_alg».proof.Proof.Gen.Kernel.Launch
import proofs.«427573_j12068858102168_3_alg».proof.Proof.Gen.Kernel.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev stg0_0 (t : Fin cfg0.N) := (cfg0.win 0).stage (cfg0.slots t 0)
abbrev stg0_1 (t : Fin cfg0.N) := (cfg0.win 1).stage (cfg0.slots t 1)
abbrev stg0_2 (t : Fin cfg0.N) := (cfg0.win 2).stage (cfg0.slots t 2)

abbrev body0 (t : Fin cfg0.N) : Prog (TpuEff nD τ sig (Elt F) Λ₀ .tc) PUnit :=
  cc0_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

section Region0
variable (V : Vals F)

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t))

theorem sound_body0 (c : Dev nD) (t : Fin cfg0.N) :
    bodyPre0 V c t ⊢ wp frame (wpE (defs₀ (F := F)) Variants.none c none) Set.univ (body0 t) (fun _ => bodyPost0 V c t) := by
  unfold bodyPre0 bodyPost0 body0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

def rp0 : RegionProof F cfg0 where
  dat := dat0
  A_eq V c w := A_eq0 V c w
  q_eq _ _ _ := rfl
  owed_eq _ _ _ := rfl
  rec_eq _ _ _ := rfl
  body V c := body_obligation0 V c
  hin _ _ := .rfl
  hout _ _ := .rfl

end Cert.Kernel.Hand

end
-- ==== Proof.K.R1Runs.lean ====
import proofs.«427573_j12068858102168_3_alg».proof.Proof.K.RegionProof

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

noncomputable def iblk1 (V : Vals F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem liveAt1_0 (i : grid1.Coords) : cfg1.idle 0 i = false := rfl
theorem liveAt1_1 (i : grid1.Coords) : cfg1.idle 1 i = false := rfl

theorem idleAt1_2 (i : grid1.Coords) (h : ¬cond1_1 i) : cfg1.idle 2 i = true := by
  show (!(k1_cond2 i == 1#1)) = true
  rw [Bool.not_eq_true', beq_eq_false_iff_ne]; exact h

theorem liveAt1_2 (i : grid1.Coords) (h : cond1_1 i) : cfg1.idle 2 i = false := by
  show (!(k1_cond2 i == 1#1)) = false
  rw [Bool.not_eq_false', beq_iff_eq]; exact h

abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S51200x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .bf16 := win1_2.stage (cfg1.slots t 2)
abbrev hs1_2 (t : Fin cfg1.N) : (ms1_2 t).IsWhole := hstage1_2 ((cfg1.slots t 2).cast nbuf1_2)

abbrev scM1_0 : Memref sig .tc .vmem S4096x64 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA (U := UR sig nD τ) spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

end Cert.Kernel.Hand

end
-- ==== Proof.K.R1Run.lean ====
import proofs.«427573_j12068858102168_3_alg».proof.Proof.K.R1Runs
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

theorem hzm1 : (![0, 0] : Fin S4096x64.rank → Nat) = fun _ => 0 := by
  funext a; fin_cases a <;> rfl
theorem hzv1 : (![0] : Fin S4096.rank → Nat) = fun _ => 0 := by
  funext a; fin_cases a; rfl

abbrev gstep (i : grid1.Coords) (x0 : Vec F S4096 .i32) (xf : Vec F S51200x64 .bf16) (acc : Vec F S4096x64 .f32) : Vec F S4096x64 .f32 :=
  k1_pay2 i x0 (View.ld xf (Rect.unit (s := S51200x64) (k1_off1 i) S512x64.size (k1_off1_inb i))) acc

section
variable {c : Dev nD} {i : grid1.Coords} {arg2 : Memref sig .tc .vmem S4096 .i32} {harg2 : arg2.IsWhole} {arg3 : Memref sig .tc .vmem S51200x64 .bf16} {harg3 : arg3.IsWhole} {arg4 : Memref sig .tc .vmem S4096x64 .bf16} {harg4 : arg4.IsWhole} {arg5 : Memref sig .tc .vmem S4096x64 .f32} {harg5 : arg5.IsWhole}
  {x0 : Vec F S4096 .i32} {xf : Vec F S51200x64 .bf16} {xs0 : Vec F S4096x64 .f32}
  {D0 D1 D2 : Type} {g : D2 → Vec F S4096x64 .bf16} {R G O : sProp (MT nD τ sig Unit (Elt F) ℕ (UR sig nD τ) ℕ)} {a : Vec F S4096x64 .f32}

theorem step1_A (hcA : cond1_0 i) (hcB : ¬cond1_1 i) (ha : a = gstep i x0 xf (k1_pay1 (F := F))) :
    iprop(iprop(iprop((∃ d, owns (c : Thread nD τ) arg5 fullShare d) ∗ R) ∗ G) ∗ O ∗ (∃ d : D0, owns (c : Thread nD τ) arg2 fullShare x0) ∗ (∃ d : D1, owns (c : Thread nD τ) arg3 fullShare xf) ∗ (∃ d : D2, owns (c : Thread nD τ) arg4 fullShare (g d)))
      ⊢ wp frame (wpE (defs₀ (F := F)) Variants.none c none) Set.univ (cc1_kernel i arg2 harg2 arg3 harg3 arg4 harg4 arg5 harg5) (fun _ => iprop(iprop(iprop(owns (c : Thread nD τ) arg5 fullShare a ∗ R) ∗ G) ∗ O ∗ owns (c : Thread nD τ) arg2 fullShare x0 ∗ owns (c : Thread nD τ) arg3 fullShare xf ∗ (∃ d : D2, owns (c : Thread nD τ) arg4 fullShare (g d)))) := by
  subst ha
  simp only [cc1_kernel_eq_skeleton]; unfold cc1_kernel_skel
  unfold owns
  iintro ⟨⟨⟨⟨%ds0, %fs0, -, HS0⟩, Hr⟩, Hg⟩, Ho, ⟨%d0, %f0, %hf0, H0⟩, ⟨%df, %ff, %hff, Hf⟩, ⟨%d2, %f2, %hf2, H2⟩⟩
  obtain rfl := harg2.eq_unread hf0; obtain rfl := harg3.eq_unread hff; obtain rfl := harg4.eq_unread hf2
  sl_exec (disch := first | exact hcA | exact hcB)
  sl_step
  iframe Hr Hg Ho
  isplitl [HS0]
  · iexists _; isplitr
    swap; · iexact HS0
    ipureintro
    refine (View.read_writes_eq_canon _ _ _ (View.cover_of_tiledL _ S4096x64.size ?_)).trans ?_
    · sl_kernel_rfl
    sl_unfold_words
    rw [View.canon_cons_unit_zero (S := S4096x64) hzm1, View.readCov_unit_zero (S := S4096x64) _ hzm1]
    simp only [View.readAt_eq_ld, harg2.read_unread, harg3.read_unread, View.ld_unit_zero (S := S4096) hzv1]
    try rfl
  isplitl [H0]
  · iexists _; isplitr; · ipureintro; exact harg2.read_unread _
    iexact H0
  isplitl [Hf]
  · iexists _; isplitr; · ipureintro; exact harg3.read_unread _
    iexact Hf
  iexists d2, _; isplitr; · ipureintro; exact harg4.read_unread _
  iexact H2

theorem step1_B (hcA : ¬cond1_0 i) (hcB : ¬cond1_1 i) (ha : a = gstep i x0 xf xs0) :
    iprop(iprop(iprop(owns (c : Thread nD τ) arg5 fullShare xs0 ∗ R) ∗ G) ∗ O ∗ (∃ d : D0, owns (c : Thread nD τ) arg2 fullShare x0) ∗ (∃ d : D1, owns (c : Thread nD τ) arg3 fullShare xf) ∗ (∃ d : D2, owns (c : Thread nD τ) arg4 fullShare (g d)))
      ⊢ wp frame (wpE (defs₀ (F := F)) Variants.none c none) Set.univ (cc1_kernel i arg2 harg2 arg3 harg3 arg4 harg4 arg5 harg5) (fun _ => iprop(iprop(iprop(owns (c : Thread nD τ) arg5 fullShare a ∗ R) ∗ G) ∗ O ∗ owns (c : Thread nD τ) arg2 fullShare x0 ∗ owns (c : Thread nD τ) arg3 fullShare xf ∗ (∃ d : D2, owns (c : Thread nD τ) arg4 fullShare (g d)))) := by
  subst ha
  simp only [cc1_kernel_eq_skeleton]; unfold cc1_kernel_skel
  unfold owns
  iintro ⟨⟨⟨⟨%fs0, %hfs0, HS0⟩, Hr⟩, Hg⟩, Ho, ⟨%d0, %f0, %hf0, H0⟩, ⟨%df, %ff, %hff, Hf⟩, ⟨%d2, %f2, %hf2, H2⟩⟩
  obtain rfl := harg2.eq_unread hf0; obtain rfl := harg3.eq_unread hff; obtain rfl := harg4.eq_unread hf2; obtain rfl := harg5.eq_unread hfs0
  sl_exec (disch := first | exact hcA | exact hcB)
  sl_step
  iframe Hr Hg Ho
  isplitl [HS0]
  · iexists _; isplitr
    swap; · iexact HS0
    ipureintro
    refine (View.read_writes_eq_canon _ _ _ (View.cover_of_tiledL _ S4096x64.size ?_)).trans ?_
    · sl_kernel_rfl
    sl_unfold_words
    rw [View.canon_unit_zero (S := S4096x64) hzm1]
    simp only [View.readAt_eq_ld, harg2.read_unread, harg3.read_unread, harg5.read_unread, View.ld_unit_zero (S := S4096) hzv1, View.ld_unit_zero (S := S4096x64) hzm1]
    try rfl
  isplitl [H0]
  · iexists _; isplitr; · ipureintro; exact harg2.read_unread _
    iexact H0
  isplitl [Hf]
  · iexists _; isplitr; · ipureintro; exact harg3.read_unread _
    iexact Hf
  iexists d2, _; isplitr; · ipureintro; exact harg4.read_unread _
  iexact H2

theorem step1_C (hcA : ¬cond1_0 i) (hcB : cond1_1 i) (ha : a = gstep i x0 xf xs0) :
    iprop(iprop(iprop(owns (c : Thread nD τ) arg5 fullShare xs0 ∗ R) ∗ G) ∗ O ∗ (∃ d : D0, owns (c : Thread nD τ) arg2 fullShare x0) ∗ (∃ d : D1, owns (c : Thread nD τ) arg3 fullShare xf) ∗ (∃ d : D2, owns (c : Thread nD τ) arg4 fullShare (g d)))
      ⊢ wp frame (wpE (defs₀ (F := F)) Variants.none c none) Set.univ (cc1_kernel i arg2 harg2 arg3 harg3 arg4 harg4 arg5 harg5) (fun _ => iprop(iprop(iprop(owns (c : Thread nD τ) arg5 fullShare a ∗ R) ∗ G) ∗ O ∗ owns (c : Thread nD τ) arg2 fullShare x0 ∗ owns (c : Thread nD τ) arg3 fullShare xf ∗ owns (c : Thread nD τ) arg4 fullShare (k1_pay3 a))) := by
  subst ha
  simp only [cc1_kernel_eq_skeleton]; unfold cc1_kernel_skel
  unfold owns
  iintro ⟨⟨⟨⟨%fs0, %hfs0, HS0⟩, Hr⟩, Hg⟩, Ho, ⟨%d0, %f0, %hf0, H0⟩, ⟨%df, %ff, %hff, Hf⟩, ⟨%d2, %f2, -, H2⟩⟩
  obtain rfl := harg2.eq_unread hf0; obtain rfl := harg3.eq_unread hff; obtain rfl := harg5.eq_unread hfs0
  sl_exec (disch := first | exact hcA | exact hcB)
  sl_step
  iframe Hr Hg Ho
  isplitl [HS0]
  · iexists _; isplitr
    swap; · iexact HS0
    ipureintro
    refine (View.read_writes_eq_canon _ _ _ (View.cover_of_tiledL _ S4096x64.size ?_)).trans ?_
    · sl_kernel_rfl
    sl_unfold_words
    rw [View.canon_unit_zero (S := S4096x64) hzm1]
    simp only [View.readAt_eq_ld, harg2.read_unread, harg3.read_unread, harg5.read_unread, View.ld_unit_zero (S := S4096) hzv1, View.ld_unit_zero (S := S4096x64) hzm1]
    try rfl
  isplitl [H0]
  · iexists _; isplitr; · ipureintro; exact harg2.read_unread _
    iexact H0
  isplitl [Hf]
  · iexists _; isplitr; · ipureintro; exact harg3.read_unread _
    iexact Hf
  iexists _; isplitr
  swap; · iexact H2
  ipureintro
  refine (View.read_writes_eq_canon _ _ _ (View.cover_of_tiledL _ S4096x64.size ?_)).trans ?_
  · sl_kernel_rfl
  sl_unfold_words
  rw [View.canon_unit_zero (S := S4096x64) hzm1, View.readCov_unit_zero (S := S4096x64) _ hzm1]
  simp only [View.readAt_eq_ld, harg2.read_unread, harg3.read_unread, harg5.read_unread, View.ld_unit_zero (S := S4096) hzv1, View.ld_unit_zero (S := S4096x64) hzm1]
  try rfl

end

theorem leaves_live {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) : dat.leavesExact w t = owns (c : Thread nD τ) ((cfg.win w).stage (cfg.slots t w)) fullShare (dat.after w t) := by
  unfold Dat.leavesExact; rw [hi]

def gacc (x0 : Fin grid1.N → Vec F S4096 .i32) (xf : Fin grid1.N → Vec F S51200x64 .bf16) : (n : ℕ) → n < grid1.N → Vec F S4096x64 .f32
  | 0, hn => gstep (grid1.coords ⟨0, hn⟩) (x0 ⟨0, hn⟩) (xf ⟨0, hn⟩) (k1_pay1 (F := F))
  | n + 1, hn => gstep (grid1.coords ⟨n + 1, hn⟩) (x0 ⟨n + 1, hn⟩) (xf ⟨n + 1, hn⟩)
      (if (n + 1) % 100 = 0 then k1_pay1 (F := F) else gacc x0 xf n (Nat.lt_of_succ_lt hn))

section
variable (x0 : Fin grid1.N → Vec F S4096 .i32) (xf : Fin grid1.N → Vec F S51200x64 .bf16) (t : Fin grid1.N)

theorem gacc_first (h0 : t.val % 100 = 0) : gacc x0 xf t.val t.isLt = gstep (grid1.coords t) (x0 t) (xf t) (k1_pay1 (F := F)) := by
  obtain ⟨n, hn⟩ := t
  cases n with
  | zero => rfl
  | succ n => exact congrArg _ (if_pos h0)

theorem gacc_next (h0 : ¬t.val % 100 = 0) :
    gacc x0 xf t.val t.isLt = gstep (grid1.coords t) (x0 t) (xf t) (gacc x0 xf (t.val - 1) (Nat.lt_of_le_of_lt (Nat.sub_le _ _) t.isLt)) := by
  obtain ⟨n, hn⟩ := t
  cases n with
  | zero => exact absurd (Nat.zero_mod _) h0
  | succ n => exact congrArg _ (if_neg h0)

end

def gPhi (c : Dev nD) (A R : sProp 𝕄) (m : Memref sig .tc .vmem S4096x64 .f32) (acc : (n : ℕ) → n < grid1.N → Vec F S4096x64 .f32) : (n : ℕ) → n ≤ grid1.N → sProp 𝕄
  | 0, _ => A
  | n + 1, hn => iprop(iprop(owns (c : Thread nD τ) m fullShare (acc n hn) ∗ R) ∗ (∃ r, prngReg c r))

theorem gPhi_pos (c : Dev nD) (A R : sProp 𝕄) (m : Memref sig .tc .vmem S4096x64 .f32) (acc : (n : ℕ) → n < grid1.N → Vec F S4096x64 .f32) (n : ℕ) (h : n ≤ grid1.N) (hz : n ≠ 0) :
    gPhi c A R m acc n h = iprop(iprop(owns (c : Thread nD τ) m fullShare (acc (n - 1) (by omega)) ∗ R) ∗ (∃ r, prngReg c r)) := by
  cases n with
  | zero => exact absurd rfl hz
  | succ n => rfl

theorem gPhi_some (c : Dev nD) (A R : sProp 𝕄) (m : Memref sig .tc .vmem S4096x64 .f32) (acc : (n : ℕ) → n < grid1.N → Vec F S4096x64 .f32)
    (hA : A = iprop(iprop(iprop((∃ d, owns (c : Thread nD τ) m fullShare d)) ∗ R) ∗ (∃ r, prngReg c r))) (n : ℕ) (h : n ≤ grid1.N) :
    gPhi c A R m acc n h ⊢ iprop(iprop(iprop((∃ d, owns (c : Thread nD τ) m fullShare d)) ∗ R) ∗ (∃ r, prngReg c r)) := by
  subst hA
  cases n with
  | zero => exact Entails.refl _
  | succ n =>
    show iprop(iprop(owns (c : Thread nD τ) m fullShare (acc n h) ∗ R) ∗ (∃ r, prngReg c r)) ⊢ _
    iintro ⟨⟨HS0, Hr⟩, Hg⟩
    iframe Hr Hg
    iexists _; iexact HS0

end Cert.Kernel.Hand

end
-- ==== Proof.K.R1Cond.lean ====
import proofs.«427573_j12068858102168_3_alg».proof.Proof.K.R1Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

theorem gridLt1 (t : Fin cfg1.N) : t.val < 20800 := lt_of_lt_of_eq t.isLt (show cfg1.N = 20800 from N_1)

theorem gridStep1 (t : Fin cfg1.N) : (grid1.coords t 1).val = t.val % 100 := by
  show t.val / grid1.stride 1 % grid1.bound 1 = _
  rw [show grid1.stride 1 = 1 from by decide, show grid1.bound 1 = 100 from rfl, Nat.div_one]

theorem gridBlk1 (t : Fin cfg1.N) : (grid1.coords t 0).val = t.val / 100 := by
  show t.val / grid1.stride 0 % grid1.bound 0 = _
  rw [show grid1.stride 0 = 100 from by decide, show grid1.bound 0 = 208 from rfl]
  have h := gridLt1 t
  exact Nat.mod_eq_of_lt (by omega)

theorem outBlk1_row (t : Fin cfg1.N) : win1_2.index t (0 : Fin 2) = t.val / 100 := by
  show (BitVec.ofNat 32 (grid1.coords t 0).val).toNat = _
  rw [BitVec.toNat_ofNat, gridBlk1]
  have h := gridLt1 t
  exact Nat.mod_eq_of_lt (by omega)

theorem stepCond1_0 : ∀ k : Fin 100,
    (Scalar.cmpi .ne (Scalar.extui (Scalar.cmpi .eq (BitVec.ofNat 32 k.val) 0#32)) 0#32) = 1#1 ↔ k.val = 0 := by decide

theorem stepCond1_1 : ∀ k : Fin 100,
    (Scalar.cmpi .ne (Scalar.extui (Scalar.cmpi .eq (BitVec.ofNat 32 k.val) 99#32)) 0#32) = 1#1 ↔ k.val = 99 := by decide

theorem hcond1_0 : ∀ t : Fin cfg1.N, cond1_0 (grid1.coords t) ↔ t.val % 100 = 0 := fun t => by
  show (Scalar.cmpi .ne (Scalar.extui (Scalar.cmpi .eq (BitVec.ofNat 32 (grid1.coords t 1).val) 0#32)) 0#32) = 1#1 ↔ _
  rw [gridStep1 t]
  exact stepCond1_0 ⟨t.val % 100, Nat.mod_lt _ (by decide)⟩

theorem hcond1_1 : ∀ t : Fin cfg1.N, cond1_1 (grid1.coords t) ↔ t.val % 100 = 99 := fun t => by
  show (Scalar.cmpi .ne (Scalar.extui (Scalar.cmpi .eq (BitVec.ofNat 32 (grid1.coords t 1).val) 99#32)) 0#32) = 1#1 ↔ _
  rw [gridStep1 t]
  exact stepCond1_1 ⟨t.val % 100, Nat.mod_lt _ (by decide)⟩

theorem flush1_2_iff (t : Fin cfg1.N) : (cfg1.win 2).flush t = true ↔
    (t.val + 1 = grid1.N ∨ ∃ h : t.val + 1 < grid1.N, win1_2.index ⟨t.val + 1, h⟩ ≠ win1_2.index t) := by
  unfold Pipeline.Window.flush
  simp only [Bool.and_eq_true, Bool.or_eq_true, decide_eq_true_eq]
  exact ⟨fun h => h.2, fun h => ⟨trivial, h⟩⟩

theorem flush1_2 : ∀ t : Fin cfg1.N, (cfg1.win 2).flush t = true ↔ t.val % 100 = 99 := fun t => by
  have hN : grid1.N = 20800 := N_1
  have ht : t.val < 20800 := gridLt1 t
  rw [flush1_2_iff]
  constructor
  · rintro (h | ⟨h, hne⟩)
    · omega
    · by_contra hc
      refine hne (funext fun a => ?_)
      match a with
      | ⟨0, _⟩ =>
        show win1_2.index ⟨t.val + 1, h⟩ (0 : Fin 2) = win1_2.index t (0 : Fin 2)
        rw [outBlk1_row, outBlk1_row]
        show (t.val + 1) / 100 = t.val / 100
        omega
      | ⟨1, _⟩ => rfl
  · intro h
    by_cases hlast : t.val + 1 = grid1.N
    · exact Or.inl hlast
    · refine Or.inr ⟨by omega, fun heq => ?_⟩
      have h0 : win1_2.index ⟨t.val + 1, by omega⟩ (0 : Fin 2) = win1_2.index t (0 : Fin 2) := congrFun heq (0 : Fin 2)
      rw [outBlk1_row, outBlk1_row] at h0
      have h1 : (t.val + 1) / 100 = t.val / 100 := h0
      omega

theorem noFlush1_2 (t : Fin cfg1.N) (h : ¬cond1_1 (grid1.coords t)) : (cfg1.win 2).flush t = false := by
  cases hf : (cfg1.win 2).flush t with
  | false => rfl
  | true => exact absurd ((hcond1_1 t).mpr ((flush1_2 t).mp hf)) h

end Cert.Kernel.Hand

end
-- ==== Proof.K.R1.lean ====
import proofs.«427573_j12068858102168_3_alg».proof.Proof.K.R1Run
import proofs.«427573_j12068858102168_3_alg».proof.Proof.K.R1Cond

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

abbrev acc1 (V : Vals F) (c : Dev nD) : (n : ℕ) → n < grid1.N → Vec F S4096x64 .f32 :=
  gacc (fun t => iblk1 V c 0 t) (fun t => iblk1 V c 1 t)

def dat1 (V : Vals F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := gPhi c (Pipeline.ΦA (U := UR sig nD τ) spec1 c) (rest1 (F := F) c) scM1_0 (acc1 V c) t.val (Nat.le_of_lt_succ t.isLt)
  q _ := fullShare
  owed _ := 0

theorem body1 (V : Vals F) (c : Dev nD) (t : Fin cfg1.N) :
    iprop((dat1 V c).Φ t.castSucc ∗ (dat1 V c).owesAt () t.castSucc
        ∗ (∃ d, owns (c : Thread nD τ) (ms1_0 t) fullShare ((dat1 V c).before 0 t d))
        ∗ (∃ d, owns (c : Thread nD τ) (ms1_1 t) fullShare ((dat1 V c).before 1 t d))
        ∗ (∃ d, owns (c : Thread nD τ) (ms1_2 t) fullShare ((dat1 V c).before 2 t d)))
      ⊢ wp frame (wpE (defs₀ (F := F)) Variants.none c none) Set.univ
          (cc1_kernel (grid1.coords t) (ms1_0 t) (hs1_0 t) (ms1_1 t) (hs1_1 t) (ms1_2 t) (hs1_2 t) scM1_0 (Memref.isWhole_whole _))
          (fun _ => iprop((dat1 V c).Φ t.succ ∗ (dat1 V c).owesAt () t.succ ∗ (dat1 V c).leavesExact 0 t ∗ (dat1 V c).leavesExact 1 t ∗ (dat1 V c).leavesExact 2 t)) := by
  simp only [show ∀ d, (dat1 V c).before 0 t d = iblk1 V c 0 t from (dat1 V c).before_in_eq_fetched 0 rfl (fun _ => rfl) (fun _ _ _ => rfl) (fun _ => rfl) t,
    show ∀ d, (dat1 V c).before 1 t d = iblk1 V c 1 t from (dat1 V c).before_in_eq_fetched 1 rfl (fun _ => rfl) (fun _ _ _ => rfl) (fun _ => rfl) t]
  rw [show (dat1 V c).owesAt () t.succ = (dat1 V c).owesAt () t.castSucc from rfl,
    show (dat1 V c).Φ t.succ = iprop(iprop(owns (c : Thread nD τ) scM1_0 fullShare (acc1 V c t.val t.isLt) ∗ rest1 (F := F) c) ∗ (∃ r, prngReg c r)) from rfl,
    leaves_live (dat1 V c) 0 t (liveAt1_0 (grid1.coords t)), leaves_live (dat1 V c) 1 t (liveAt1_1 (grid1.coords t))]
  by_cases h0 : t.val % 100 = 0
  · have hB : ¬cond1_1 (grid1.coords t) := fun h => by have := (hcond1_1 t).mp h; omega
    rw [Dat.leavesExact_idle (dat1 V c) 2 t (idleAt1_2 _ hB) (noFlush1_2 t hB)]
    exact (sep_mono_l (gPhi_some c _ _ _ _ (PhiA1_eq c) _ _)).trans
      (step1_A ((hcond1_0 t).mpr h0) hB (gacc_first _ _ t h0))
  · have hA : ¬cond1_0 (grid1.coords t) := fun h => h0 ((hcond1_0 t).mp h)
    rw [show (dat1 V c).Φ t.castSucc = iprop(iprop(owns (c : Thread nD τ) scM1_0 fullShare (acc1 V c (t.val - 1) (Nat.lt_of_le_of_lt (Nat.sub_le _ _) t.isLt)) ∗ rest1 (F := F) c) ∗ (∃ r, prngReg c r))
      from gPhi_pos _ _ _ _ _ _ _ (show t.val ≠ 0 by omega)]
    by_cases hl : t.val % 100 = 99
    · rw [leaves_live (dat1 V c) 2 t (liveAt1_2 _ ((hcond1_1 t).mpr hl))]
      exact step1_C hA ((hcond1_1 t).mpr hl) (gacc_next _ _ t h0)
    · have hB : ¬cond1_1 (grid1.coords t) := fun h => hl ((hcond1_1 t).mp h)
      rw [Dat.leavesExact_idle (dat1 V c) 2 t (idleAt1_2 _ hB) (noFlush1_2 t hB)]
      exact step1_B hA hB (gacc_next _ _ t h0)

def rp1 : RegionProof F cfg1 where
  dat := dat1
  A_eq := fun _ _ _ => rfl
  q_eq := fun _ _ _ => rfl
  owed_eq := fun _ _ _ => rfl
  rec_eq := fun _ _ _ => rfl
  body := fun V c t => by rw [bigSep_W1, bigSep_W1]; exact body1 V c t
  hin := fun V c => Entails.refl _
  hout := fun V c => by rw [PhiA1_eq]; exact gPhi_some c _ _ _ (acc1 V c) (PhiA1_eq c) grid1.N (Nat.le_refl _)

end Cert.Kernel.Hand

end
-- ==== Proof.K.R2Cond.lean ====
import proofs.«427573_j12068858102168_3_alg».proof.Proof.K.RegionProof
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
private theorem gridPts2 : grid2.N = 20800 := by decide
private theorem sndCoord2 (t : Fin grid2.N) : (grid2.coords t 1).val = t.val % 832 := by
  show t.val / grid2.stride 1 % grid2.bound 1 = t.val % 832
  rw [show grid2.stride 1 = 1 from by decide, show grid2.bound 1 = 832 from rfl, Nat.div_one]
private theorem fstCoord2 (t : Fin grid2.N) : (grid2.coords t 0).val = t.val / 832 := by
  have ht : t.val < 20800 := lt_of_lt_of_eq t.isLt gridPts2
  show t.val / grid2.stride 0 % grid2.bound 0 = t.val / 832
  rw [show grid2.stride 0 = 832 from by decide, show grid2.bound 0 = 25 from rfl]
  exact Nat.mod_eq_of_lt (by omega)
abbrev cond2_0 (i : grid2.Coords) : Prop := (Scalar.cmpi .ne (Scalar.extui (Scalar.cmpi .eq (BitVec.ofNat 32 (i 1).val) 0#32)) 0#32) = 1#1
private theorem cmpFirst2 : ∀ k : Fin 832,
    (Scalar.cmpi .ne (Scalar.extui (Scalar.cmpi .eq (BitVec.ofNat 32 k.val) 0#32)) 0#32) = 1#1 ↔ k.val = 0 := by decide +kernel
private theorem atFirst2 (t : Fin grid2.N) : cond2_0 (grid2.coords t) ↔ t.val % 832 = 0 := by
  have h := cmpFirst2 ⟨t.val % 832, Nat.mod_lt _ (by decide)⟩
  show (Scalar.cmpi .ne (Scalar.extui (Scalar.cmpi .eq (BitVec.ofNat 32 (grid2.coords t 1).val) 0#32)) 0#32) = 1#1 ↔ _
  rw [sndCoord2]
  exact h
theorem hcond2_0 : ∀ t : Fin cfg2.N, cond2_0 (grid2.coords t) ↔ t.val % 832 = 0 :=
  (atFirst2 : ∀ t : Fin grid2.N, cond2_0 (grid2.coords t) ↔ t.val % 832 = 0)
abbrev cond2_1 (i : grid2.Coords) : Prop := k2_cond2 i = 1#1
private theorem cmpLast2 : ∀ k : Fin 832,
    (Scalar.cmpi .ne (Scalar.extui (Scalar.cmpi .eq (BitVec.ofNat 32 k.val) 831#32)) 0#32) = 1#1 ↔ k.val = 831 := by decide +kernel
private theorem atLast2 (t : Fin grid2.N) : cond2_1 (grid2.coords t) ↔ t.val % 832 = 831 := by
  have h := cmpLast2 ⟨t.val % 832, Nat.mod_lt _ (by decide)⟩
  show (Scalar.cmpi .ne (Scalar.extui (Scalar.cmpi .eq (BitVec.ofNat 32 (grid2.coords t 1).val) 831#32)) 0#32) = 1#1 ↔ _
  rw [sndCoord2]
  exact h
theorem hcond2_1 : ∀ t : Fin cfg2.N, cond2_1 (grid2.coords t) ↔ t.val % 832 = 831 :=
  (atLast2 : ∀ t : Fin grid2.N, cond2_1 (grid2.coords t) ↔ t.val % 832 = 831)
private theorem outIdx2 (t : Fin grid2.N) : win2_3.index t = ![t.val / 832, 0] ∧ win2_4.index t = ![t.val / 832, 0] := by
  have ht : t.val < 20800 := lt_of_lt_of_eq t.isLt gridPts2
  constructor <;>
  · show ![(BitVec.ofNat 32 (grid2.coords t 0).val).toNat, (0#32 : BitVec 32).toNat] = _
    rw [fstCoord2, BitVec.toNat_ofNat, Nat.mod_eq_of_lt (by omega)]
    rfl
private theorem writeBack2 (w : Window sig grid2) (ho : w.isOut = true)
    (hi : ∀ t s : Fin grid2.N, w.index t = w.index s ↔ t.val / 832 = s.val / 832) (t : Fin grid2.N) :
    w.flush t = true ↔ t.val % 832 = 831 := by
  have hN : grid2.N = 20800 := gridPts2
  have ht : t.val < 20800 := lt_of_lt_of_eq t.isLt gridPts2
  show (w.isOut && (decide (t.val + 1 = grid2.N)
    || decide (∃ h : t.val + 1 < grid2.N, w.index ⟨t.val + 1, h⟩ ≠ w.index t))) = true ↔ _
  rw [ho]
  simp only [Bool.true_and, Bool.or_eq_true, decide_eq_true_eq]
  constructor
  · rintro (h | ⟨h, hne⟩)
    · omega
    · have h2 : ¬(t.val + 1) / 832 = t.val / 832 := fun e => hne ((hi ⟨t.val + 1, h⟩ t).mpr e)
      omega
  · intro h
    by_cases hl : t.val + 1 = grid2.N
    · exact .inl hl
    · refine .inr ⟨by omega, fun heq => ?_⟩
      have h2 : (t.val + 1) / 832 = t.val / 832 := (hi ⟨t.val + 1, by omega⟩ t).mp heq
      omega
private theorem sameIdx2 (a b : ℕ) : (![a, 0] : Fin 2 → ℕ) = ![b, 0] ↔ a = b := ⟨fun h => congrFun h 0, fun h => by rw [h]⟩
theorem flush2_3 : ∀ t : Fin cfg2.N, (cfg2.win 3).flush t = true ↔ t.val % 832 = 831 := writeBack2 win2_3 rfl fun t s => by rw [(outIdx2 t).1, (outIdx2 s).1]; exact sameIdx2 _ _
theorem flush2_4 : ∀ t : Fin cfg2.N, (cfg2.win 4).flush t = true ↔ t.val % 832 = 831 := writeBack2 win2_4 rfl fun t s => by rw [(outIdx2 t).2, (outIdx2 s).2]; exact sameIdx2 _ _
end Cert.Kernel.Hand
end
-- ==== Proof.K.R2Runs.lean ====
import proofs.«427573_j12068858102168_3_alg».proof.Proof.K.R2Cond
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : Vals F)
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem idleAt2_3 (t : Fin cfg2.N) (h : ¬cond2_1 (grid2.coords t)) : cfg2.idle 3 (grid2.coords t) = true := by
  show (!(k2_cond2 (grid2.coords t) == 1#1)) = true
  rw [beq_eq_false_iff_ne.mpr h]; rfl
theorem idleAt2_4 (t : Fin cfg2.N) (h : ¬cond2_1 (grid2.coords t)) : cfg2.idle 4 (grid2.coords t) = true := by
  show (!(k2_cond2 (grid2.coords t) == 1#1)) = true
  rw [beq_eq_false_iff_ne.mpr h]; rfl
theorem liveAt2_3 (t : Fin cfg2.N) (h : cond2_1 (grid2.coords t)) : cfg2.idle 3 (grid2.coords t) = false := by
  show (!(k2_cond2 (grid2.coords t) == 1#1)) = false
  rw [beq_iff_eq.mpr h]; rfl
theorem liveAt2_4 (t : Fin cfg2.N) (h : cond2_1 (grid2.coords t)) : cfg2.idle 4 (grid2.coords t) = false := by
  show (!(k2_cond2 (grid2.coords t) == 1#1)) = false
  rw [beq_iff_eq.mpr h]; rfl
theorem leaves_live2 {c : Dev nD} (dat : Dat τ (Elt F) Unit ℕ (UR sig nD τ) ℕ cfg2 c) (w : Fin cfg2.W) (t : Fin cfg2.N)
    (h : cfg2.idle w (grid2.coords t) = false) :
    dat.leavesExact w t = owns (c : Thread nD τ) ((cfg2.win w).stage (cfg2.slots t w)) fullShare (dat.after w t) := by
  unfold Dat.leavesExact; rw [h]
abbrev ms2_0 (t : Fin cfg2.N) : Memref sig .tc .vmem S1024x64 .bf16 := win2_0.stage (cfg2.slots t 0)
abbrev hs2_0 (t : Fin cfg2.N) : (ms2_0 t).IsWhole := Gen.hstage2_0 ((cfg2.slots t 0).cast Gen.nbuf2_0)
abbrev ms2_1 (t : Fin cfg2.N) : Memref sig .tc .vmem S1024 .i32 := win2_1.stage (cfg2.slots t 1)
abbrev hs2_1 (t : Fin cfg2.N) : (ms2_1 t).IsWhole := Gen.hstage2_1 ((cfg2.slots t 1).cast Gen.nbuf2_1)
abbrev ms2_2 (t : Fin cfg2.N) : Memref sig .tc .vmem S64x64 .f32 := win2_2.stage (cfg2.slots t 2)
abbrev hs2_2 (t : Fin cfg2.N) : (ms2_2 t).IsWhole := Gen.hstage2_2 ((cfg2.slots t 2).cast Gen.nbuf2_2)
abbrev ms2_3 (t : Fin cfg2.N) : Memref sig .tc .vmem S2048x64 .bf16 := win2_3.stage (cfg2.slots t 3)
abbrev hs2_3 (t : Fin cfg2.N) : (ms2_3 t).IsWhole := Gen.hstage2_3 ((cfg2.slots t 3).cast Gen.nbuf2_3)
abbrev ms2_4 (t : Fin cfg2.N) : Memref sig .tc .vmem S2048x1 .f32 := win2_4.stage (cfg2.slots t 4)
abbrev hs2_4 (t : Fin cfg2.N) : (ms2_4 t).IsWhole := Gen.hstage2_4 ((cfg2.slots t 4).cast Gen.nbuf2_4)
abbrev scM2_0 : Memref sig .tc .vmem S2048x64 .f32 := Memref.whole cc2_scratch0
abbrev scM2_1 : Memref sig .tc .vmem S2048x1 .f32 := Memref.whole cc2_scratch1
abbrev rest2 (c : Dev nD) : sProp 𝕄 :=
  Pipeline.scopedRestBut (Ix := Unit) (Name := ℕ) (U := UR sig nD τ) (Lvl := ℕ) (Val := Elt F) spec2 c [cc2_scratch0, cc2_scratch1]
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl
end Cert.Kernel.Hand
end
-- ==== Proof.K.R2Run.lean ====
import proofs.«427573_j12068858102168_3_alg».proof.Proof.K.R2Runs
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2_2 : (![0, 0] : Fin 2 → ℕ) = fun _ => 0 := by funext a; fin_cases a <;> rfl
theorem hz2_1 : (![0] : Fin 1 → ℕ) = fun _ => 0 := by funext a; fin_cases a; rfl

variable {c : Dev nD} {i : grid2.Coords} {arg2 : Memref sig .tc .vmem S1024x64 .bf16} {harg2 : arg2.IsWhole} {arg3 : Memref sig .tc .vmem S1024 .i32} {harg3 : arg3.IsWhole} {arg4 : Memref sig .tc .vmem S64x64 .f32} {harg4 : arg4.IsWhole} {arg5 : Memref sig .tc .vmem S2048x64 .bf16} {harg5 : arg5.IsWhole} {arg6 : Memref sig .tc .vmem S2048x1 .f32} {harg6 : arg6.IsWhole} {arg7 : Memref sig .tc .vmem S2048x64 .f32} {harg7 : arg7.IsWhole} {arg8 : Memref sig .tc .vmem S2048x1 .f32} {harg8 : arg8.IsWhole}
  {x0 : Vec F S1024x64 .bf16} {x1 : Vec F S1024 .i32} {x2 : Vec F S64x64 .f32} {xs0 : Vec F S2048x64 .f32} {xs1 : Vec F S2048x1 .f32}
  {D0 D1 D2 D3 D4 : Type} {g3 : D3 → Vec F S2048x64 .bf16} {g4 : D4 → Vec F S2048x1 .f32} {R G O : sProp (MT nD τ sig Unit (Elt F) ℕ (UR sig nD τ) ℕ)}
  {a0 : Vec F S2048x64 .f32} {a1 : Vec F S2048x1 .f32}

theorem step2_A (hc0 : cond2_0 i) (hc1 : ¬cond2_1 i) (h0 : a0 = k2_pay4 i x1 x0 k2_pay1) (h1 : a1 = k2_pay5 i x1 k2_pay2) :
    iprop(iprop(iprop(iprop((∃ d, owns (c : Thread nD τ) arg7 fullShare d) ∗ (∃ d, owns (c : Thread nD τ) arg8 fullShare d)) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d, owns (c : Thread nD τ) arg5 fullShare (g3 d)) ∗ (∃ d, owns (c : Thread nD τ) arg6 fullShare (g4 d)))
      ⊢ wp frame (wpE (defs₀ (F := F)) Variants.none c none) Set.univ (cc2_kernel i arg2 harg2 arg3 harg3 arg4 harg4 arg5 harg5 arg6 harg6 arg7 harg7 arg8 harg8) (fun _ => iprop(iprop(iprop(iprop(owns (c : Thread nD τ) arg7 fullShare a0 ∗ owns (c : Thread nD τ) arg8 fullShare a1) ∗ R) ∗ G) ∗ O ∗ owns (c : Thread nD τ) arg2 fullShare x0 ∗ owns (c : Thread nD τ) arg3 fullShare x1 ∗ owns (c : Thread nD τ) arg4 fullShare x2 ∗ (∃ d, owns (c : Thread nD τ) arg5 fullShare (g3 d)) ∗ (∃ d, owns (c : Thread nD τ) arg6 fullShare (g4 d)))) := by
  subst h0 h1
  simp only [cc2_kernel_eq_skeleton]; unfold cc2_kernel_skel
  unfold owns
  iintro ⟨⟨⟨⟨⟨%ds0, %fs0, -, HS0⟩, ⟨%ds1, %fs1, -, HS1⟩⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  sl_unfold_words
  simp only [View.readAt_eq_ld, Memref.IsWhole.read_unread, View.ld_unit_zero (S := S1024) hz2_1, View.ld_unit_zero (S := S1024x64) hz2_2, View.ld_unit_zero (S := S64x64) hz2_2, View.ld_unit_zero (S := S2048x64) hz2_2, View.ld_unit_zero (S := S2048x1) hz2_2, View.readCov_unit_zero (S := S2048x64) _ hz2_2, View.readCov_unit_zero (S := S2048x1) _ hz2_2]
  isplitl [HS0 HS1 Hr Hg]
  · isplitl [HS0 HS1 Hr]
    · isplitl [HS0 HS1]
      · isplitl [HS0]
        · iexists _; isplitr
          swap; · iexact HS0
          ipureintro
          refine (View.read_writes_eq_canon _ _ _ (View.cover_of_tiledL _ S2048x64.size ?_)).trans (View.canon_cons_unit_zero hz2_2 _ _ _)
          sl_kernel_rfl
        · iexists _; isplitr
          swap; · iexact HS1
          ipureintro
          refine (View.read_writes_eq_canon _ _ _ (View.cover_of_tiledL _ S2048x1.size ?_)).trans (View.canon_cons_unit_zero hz2_2 _ _ _)
          sl_kernel_rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists d3, _; isplitr; · ipureintro; exact harg5.read_unread _
    iexact H3
  iexists d4, _; isplitr; · ipureintro; exact harg6.read_unread _
  iexact H4

theorem step2_B (hc0 : ¬cond2_0 i) (hc1 : ¬cond2_1 i) (h0 : a0 = k2_pay4 i x1 x0 xs0) (h1 : a1 = k2_pay5 i x1 xs1) :
    iprop(iprop(iprop(iprop(owns (c : Thread nD τ) arg7 fullShare xs0 ∗ owns (c : Thread nD τ) arg8 fullShare xs1) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d, owns (c : Thread nD τ) arg5 fullShare (g3 d)) ∗ (∃ d, owns (c : Thread nD τ) arg6 fullShare (g4 d)))
      ⊢ wp frame (wpE (defs₀ (F := F)) Variants.none c none) Set.univ (cc2_kernel i arg2 harg2 arg3 harg3 arg4 harg4 arg5 harg5 arg6 harg6 arg7 harg7 arg8 harg8) (fun _ => iprop(iprop(iprop(iprop(owns (c : Thread nD τ) arg7 fullShare a0 ∗ owns (c : Thread nD τ) arg8 fullShare a1) ∗ R) ∗ G) ∗ O ∗ owns (c : Thread nD τ) arg2 fullShare x0 ∗ owns (c : Thread nD τ) arg3 fullShare x1 ∗ owns (c : Thread nD τ) arg4 fullShare x2 ∗ (∃ d, owns (c : Thread nD τ) arg5 fullShare (g3 d)) ∗ (∃ d, owns (c : Thread nD τ) arg6 fullShare (g4 d)))) := by
  subst h0 h1
  simp only [cc2_kernel_eq_skeleton]; unfold cc2_kernel_skel
  unfold owns
  iintro ⟨⟨⟨⟨⟨%fs0, %hfs0, HS0⟩, ⟨%fs1, %hfs1, HS1⟩⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  sl_unfold_words
  simp only [View.readAt_eq_ld, Memref.IsWhole.read_unread, View.ld_unit_zero (S := S1024) hz2_1, View.ld_unit_zero (S := S1024x64) hz2_2, View.ld_unit_zero (S := S64x64) hz2_2, View.ld_unit_zero (S := S2048x64) hz2_2, View.ld_unit_zero (S := S2048x1) hz2_2, View.readCov_unit_zero (S := S2048x64) _ hz2_2, View.readCov_unit_zero (S := S2048x1) _ hz2_2]
  isplitl [HS0 HS1 Hr Hg]
  · isplitl [HS0 HS1 Hr]
    · isplitl [HS0 HS1]
      · isplitl [HS0]
        · iexists _; isplitr
          swap; · iexact HS0
          ipureintro
          refine (View.read_writes_eq_canon _ _ _ (View.cover_of_tiledL _ S2048x64.size ?_)).trans (View.canon_cons_unit_zero hz2_2 _ _ _)
          sl_kernel_rfl
        · iexists _; isplitr
          swap; · iexact HS1
          ipureintro
          refine (View.read_writes_eq_canon _ _ _ (View.cover_of_tiledL _ S2048x1.size ?_)).trans (View.canon_cons_unit_zero hz2_2 _ _ _)
          sl_kernel_rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists d3, _; isplitr; · ipureintro; exact harg5.read_unread _
    iexact H3
  iexists d4, _; isplitr; · ipureintro; exact harg6.read_unread _
  iexact H4

theorem step2_C (hc0 : ¬cond2_0 i) (hc1 : cond2_1 i) (h0 : a0 = k2_pay4 i x1 x0 xs0) (h1 : a1 = k2_pay5 i x1 xs1) :
    iprop(iprop(iprop(iprop(owns (c : Thread nD τ) arg7 fullShare xs0 ∗ owns (c : Thread nD τ) arg8 fullShare xs1) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d, owns (c : Thread nD τ) arg5 fullShare (g3 d)) ∗ (∃ d, owns (c : Thread nD τ) arg6 fullShare (g4 d)))
      ⊢ wp frame (wpE (defs₀ (F := F)) Variants.none c none) Set.univ (cc2_kernel i arg2 harg2 arg3 harg3 arg4 harg4 arg5 harg5 arg6 harg6 arg7 harg7 arg8 harg8) (fun _ => iprop(iprop(iprop(iprop(owns (c : Thread nD τ) arg7 fullShare a0 ∗ owns (c : Thread nD τ) arg8 fullShare a1) ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare (k2_pay7 a1 a0 x2) ∗ owns (c : Thread nD τ) arg6 fullShare (k2_pay6 a1))) := by
  subst h0 h1
  simp only [cc2_kernel_eq_skeleton]; unfold cc2_kernel_skel
  unfold owns
  iintro ⟨⟨⟨⟨⟨%fs0, %hfs0, HS0⟩, ⟨%fs1, %hfs1, HS1⟩⟩, Hr⟩, Hg⟩, Ho, ⟨%d0, %f0, %hf0, H0⟩, ⟨%d1, %f1, %hf1, H1⟩, ⟨%d2, %f2, %hf2, H2⟩, ⟨%d3, %f3, -, H3⟩, ⟨%d4, %f4, -, H4⟩⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  sl_unfold_words
  simp only [View.readAt_eq_ld, Memref.IsWhole.read_unread, View.ld_unit_zero (S := S1024) hz2_1, View.ld_unit_zero (S := S1024x64) hz2_2, View.ld_unit_zero (S := S64x64) hz2_2, View.ld_unit_zero (S := S2048x64) hz2_2, View.ld_unit_zero (S := S2048x1) hz2_2, View.readCov_unit_zero (S := S2048x64) _ hz2_2, View.readCov_unit_zero (S := S2048x1) _ hz2_2]
  isplitl [HS0 HS1 Hr Hg]
  · isplitl [HS0 HS1 Hr]
    · isplitl [HS0 HS1]
      · isplitl [HS0]
        · iexists _; isplitr
          swap; · iexact HS0
          ipureintro
          refine (View.read_writes_eq_canon _ _ _ (View.cover_of_tiledL _ S2048x64.size ?_)).trans (View.canon_cons_unit_zero hz2_2 _ _ _)
          sl_kernel_rfl
        · iexists _; isplitr
          swap; · iexact HS1
          ipureintro
          refine (View.read_writes_eq_canon _ _ _ (View.cover_of_tiledL _ S2048x1.size ?_)).trans (View.canon_cons_unit_zero hz2_2 _ _ _)
          sl_kernel_rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon _ _ _ (View.cover_of_tiledL _ S2048x64.size ?_)).trans (View.canon_cons_unit_zero hz2_2 _ _ _)
    sl_kernel_rfl
  iexists _; isplitr
  swap; · iexact H4
  ipureintro
  refine (View.read_writes_eq_canon _ _ _ (View.cover_of_tiledL _ S2048x1.size ?_)).trans (View.canon_cons_unit_zero hz2_2 _ _ _)
  sl_kernel_rfl

end Cert.Kernel.Hand

end
-- ==== Proof.K.R2.lean ====
import proofs.«427573_j12068858102168_3_alg».proof.Proof.K.R2Run

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem noFlush2_3 (t : Fin cfg2.N) (h : ¬cond2_1 (grid2.coords t)) : (cfg2.win 3).flush t = false :=
  Bool.eq_false_iff.mpr fun hf => h ((hcond2_1 t).mpr ((flush2_3 t).mp hf))
theorem noFlush2_4 (t : Fin cfg2.N) (h : ¬cond2_1 (grid2.coords t)) : (cfg2.win 4).flush t = false :=
  Bool.eq_false_iff.mpr fun hf => h ((hcond2_1 t).mpr ((flush2_4 t).mp hf))

abbrev Accs2 (F : FTy → Type) : Type := Vec F S2048x64 .f32 × Vec F S2048x1 .f32

variable (V : Vals F)

abbrev stepAccs2 (c : Dev nD) (t : Fin cfg2.N) (xs : Accs2 F) : Accs2 F :=
  (k2_pay4 (grid2.coords t) (iblk2 V c 1 t) (iblk2 V c 0 t) xs.1, k2_pay5 (grid2.coords t) (iblk2 V c 1 t) xs.2)

def accsAt2 (c : Dev nD) : (n : ℕ) → n < cfg2.N → Accs2 F
  | 0, hn => stepAccs2 V c ⟨0, hn⟩ (k2_pay1, k2_pay2)
  | n + 1, hn => stepAccs2 V c ⟨n + 1, hn⟩ (if (n + 1) % 832 = 0 then (k2_pay1, k2_pay2) else accsAt2 c n (Nat.lt_of_succ_lt hn))

theorem accsAt2_first (c : Dev nD) (t : Fin cfg2.N) (h0 : t.val % 832 = 0) :
    accsAt2 V c t.val t.isLt = stepAccs2 V c t (k2_pay1, k2_pay2) := by
  obtain ⟨n, hn⟩ := t
  cases n with
  | zero => rfl
  | succ n => exact congrArg (stepAccs2 V c ⟨n + 1, hn⟩) (if_pos h0)

theorem accsAt2_next (c : Dev nD) (t : Fin cfg2.N) (h0 : ¬t.val % 832 = 0) :
    accsAt2 V c t.val t.isLt = stepAccs2 V c t (accsAt2 V c (t.val - 1) (Nat.lt_of_le_of_lt (Nat.sub_le _ _) t.isLt)) := by
  obtain ⟨n, hn⟩ := t
  cases n with
  | zero => exact absurd rfl h0
  | succ n => exact congrArg (stepAccs2 V c ⟨n + 1, hn⟩) (if_neg h0)

abbrev accsOwned2 (c : Dev nD) (xs : Accs2 F) : sProp 𝕄 :=
  iprop(iprop(iprop(owns (c : Thread nD τ) scM2_0 fullShare xs.1 ∗ owns (c : Thread nD τ) scM2_1 fullShare xs.2) ∗ rest2 (F := F) c) ∗ (∃ r, prngReg c r))

def PhiS2 (c : Dev nD) : (n : ℕ) → n ≤ cfg2.N → sProp 𝕄
  | 0, _ => Pipeline.ΦA spec2 c
  | n + 1, hn => accsOwned2 c (accsAt2 V c n hn)

theorem PhiS2_pos (c : Dev nD) (n : ℕ) (h : n ≤ cfg2.N) (hz : n ≠ 0) :
    PhiS2 V c n h = accsOwned2 c (accsAt2 V c (n - 1) (by omega)) := by
  cases n with
  | zero => exact absurd rfl hz
  | succ n => rfl

theorem PhiS2_any (c : Dev nD) (n : ℕ) (h : n ≤ cfg2.N) : PhiS2 V c n h ⊢ Pipeline.ΦA spec2 c := by
  cases n with
  | zero => exact .refl
  | succ n =>
    show accsOwned2 c _ ⊢ _
    unfold accsOwned2
    rw [PhiA2_eq]
    iintro ⟨⟨⟨HS0, HS1⟩, Hr⟩, Hg⟩
    isplitl [HS0 HS1 Hr]
    · isplitl [HS0 HS1]
      · isplitl [HS0]
        · iexists _; iexact HS0
        · iexists _; iexact HS1
      iexact Hr
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay7 (accsAt2 V c t.val t.isLt).2 (accsAt2 V c t.val t.isLt).1 (iblk2 V c 2 t)
    | ⟨4, _⟩ => k2_pay6 (accsAt2 V c t.val t.isLt).2
  Φ t := PhiS2 V c t.val (Nat.le_of_lt_succ t.isLt)
  q _ := fullShare
  owed _ := 0

theorem Phi_any2 (c : Dev nD) (t : Fin (cfg2.N + 1)) : (dat2 V c).Φ t ⊢ Pipeline.ΦA spec2 c := PhiS2_any V c _ _

theorem after2_3 (c : Dev nD) (t : Fin cfg2.N) :
    (dat2 V c).after 3 t = k2_pay7 (accsAt2 V c t.val t.isLt).2 (accsAt2 V c t.val t.isLt).1 (iblk2 V c 2 t) := rfl
theorem after2_4 (c : Dev nD) (t : Fin cfg2.N) : (dat2 V c).after 4 t = k2_pay6 (accsAt2 V c t.val t.isLt).2 := rfl

abbrev body2 (t : Fin cfg2.N) : Prog (TpuEff nD τ sig (Elt F) Λ₀ .tc) PUnit :=
  cc2_kernel (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem sound_body2 (c : Dev nD) (t : Fin cfg2.N) :
    bodyPre2 V c t ⊢ wp frame (wpE (defs₀ (F := F)) Variants.none c none) Set.univ (body2 t) (fun _ => bodyPost2 V c t) := by
  unfold bodyPre2 bodyPost2
  simp only [show ∀ d, (dat2 V c).before 0 t d = iblk2 V c 0 t from
      (dat2 V c).before_in_eq_fetched 0 rfl (fun _ => rfl) (fun _ _ _ => rfl) (fun _ => rfl) t,
    show ∀ d, (dat2 V c).before 1 t d = iblk2 V c 1 t from
      (dat2 V c).before_in_eq_fetched 1 rfl (fun _ => rfl) (fun _ _ _ => rfl) (fun _ => rfl) t,
    show ∀ d, (dat2 V c).before 2 t d = iblk2 V c 2 t from
      (dat2 V c).before_in_eq_fetched 2 rfl (fun _ => rfl) (fun _ _ _ => rfl) (fun _ => rfl) t]
  rw [show (dat2 V c).owesAt () t.succ = (dat2 V c).owesAt () t.castSucc from rfl,
    show (dat2 V c).Φ t.succ = accsOwned2 c (accsAt2 V c t.val t.isLt) from rfl,
    show (dat2 V c).Φ t.castSucc = PhiS2 V c t.val (Nat.le_of_lt t.isLt) from rfl,
    leaves_live2 (dat2 V c) 0 t (liveAt2_0 t), leaves_live2 (dat2 V c) 1 t (liveAt2_1 t), leaves_live2 (dat2 V c) 2 t (liveAt2_2 t)]
  have hz (h0 : ¬cond2_0 (grid2.coords t)) : t.val ≠ 0 := fun e => h0 ((hcond2_0 t).mpr (by rw [e]))
  by_cases h1 : cond2_1 (grid2.coords t)
  · have h0 : ¬cond2_0 (grid2.coords t) := fun h => by have := (hcond2_0 t).mp h; have := (hcond2_1 t).mp h1; omega
    have e := accsAt2_next V c t fun h => h0 ((hcond2_0 t).mpr h)
    rw [leaves_live2 (dat2 V c) 3 t (liveAt2_3 t h1), leaves_live2 (dat2 V c) 4 t (liveAt2_4 t h1),
      after2_3, after2_4, PhiS2_pos V c _ _ (hz h0)]
    exact step2_C h0 h1 (congrArg Prod.fst e) (congrArg Prod.snd e)
  · rw [Dat.leavesExact_idle (dat2 V c) 3 t (idleAt2_3 t h1) (noFlush2_3 t h1),
      Dat.leavesExact_idle (dat2 V c) 4 t (idleAt2_4 t h1) (noFlush2_4 t h1)]
    by_cases h0 : cond2_0 (grid2.coords t)
    · have e := accsAt2_first V c t ((hcond2_0 t).mp h0)
      refine (sep_mono_l (PhiS2_any V c _ _)).trans ?_
      rw [PhiA2_eq]
      exact step2_A h0 h1 (congrArg Prod.fst e) (congrArg Prod.snd e)
    · have e := accsAt2_next V c t fun h => h0 ((hcond2_0 t).mpr h)
      rw [PhiS2_pos V c _ _ (hz h0)]
      exact step2_B h0 h1 (congrArg Prod.fst e) (congrArg Prod.snd e)

theorem body_obligation2 (c : Dev nD) : BodyObligation (dat2 (F := F) V c) (defs₀ (F := F)) Variants.none () Set.univ := fun t => by
  rw [bigSep_W2, bigSep_W2]
  exact sound_body2 V c t

def rp2 : RegionProof F cfg2 where
  dat := fun V c => dat2 V c
  A_eq := fun _ _ _ => rfl
  q_eq := fun _ _ _ => rfl
  owed_eq := fun _ _ _ => rfl
  rec_eq := fun _ _ _ => rfl
  body := fun V c => body_obligation2 V c
  hin := fun _ _ => .refl
  hout := fun V c => Phi_any2 V c _

end Cert.Kernel.Hand

end
-- ==== Proof.K.R3Runs.lean ====
import proofs.«427573_j12068858102168_3_alg».proof.Proof.K.RegionProof

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

noncomputable def iblk3 (V : Vals F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S4096 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S51200x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4096x64 .bf16 := win3_2.stage (cfg3.slots t 2)
abbrev hs3_2 (t : Fin cfg3.N) : (ms3_2 t).IsWhole := hstage3_2 ((cfg3.slots t 2).cast nbuf3_2)

abbrev scM3_0 : Memref sig .tc .vmem S4096x64 .f32 := Memref.whole cc3_scratch0

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA (U := UR sig nD τ) spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.Kernel.Hand

end
-- ==== Proof.K.R3.lean ====
import proofs.«427573_j12068858102168_3_alg».proof.Proof.K.R1Run
import proofs.«427573_j12068858102168_3_alg».proof.Proof.K.R1Cond
import proofs.«427573_j12068858102168_3_alg».proof.Proof.K.R3Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

abbrev acc3 (V : Vals F) (c : Dev nD) : (n : ℕ) → n < grid1.N → Vec F S4096x64 .f32 :=
  gacc (fun t => iblk3 V c 0 t) (fun t => iblk3 V c 1 t)

def dat3 (V : Vals F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k1_pay3 (acc3 V c t.val t.isLt)
  Φ t := gPhi c (Pipeline.ΦA (U := UR sig nD τ) spec3 c) (rest3 (F := F) c) scM3_0 (acc3 V c) t.val (Nat.le_of_lt_succ t.isLt)
  q _ := fullShare
  owed _ := 0

theorem body3 (V : Vals F) (c : Dev nD) (t : Fin cfg3.N) :
    iprop((dat3 V c).Φ t.castSucc ∗ (dat3 V c).owesAt () t.castSucc
        ∗ (∃ d, owns (c : Thread nD τ) (ms3_0 t) fullShare ((dat3 V c).before 0 t d))
        ∗ (∃ d, owns (c : Thread nD τ) (ms3_1 t) fullShare ((dat3 V c).before 1 t d))
        ∗ (∃ d, owns (c : Thread nD τ) (ms3_2 t) fullShare ((dat3 V c).before 2 t d)))
      ⊢ wp frame (wpE (defs₀ (F := F)) Variants.none c none) Set.univ
          (cc1_kernel (grid1.coords t) (ms3_0 t) (hs3_0 t) (ms3_1 t) (hs3_1 t) (ms3_2 t) (hs3_2 t) scM3_0 (Memref.isWhole_whole _))
          (fun _ => iprop((dat3 V c).Φ t.succ ∗ (dat3 V c).owesAt () t.succ ∗ (dat3 V c).leavesExact 0 t ∗ (dat3 V c).leavesExact 1 t ∗ (dat3 V c).leavesExact 2 t)) := by
  simp only [show ∀ d, (dat3 V c).before 0 t d = iblk3 V c 0 t from (dat3 V c).before_in_eq_fetched 0 rfl (fun _ => rfl) (fun _ _ _ => rfl) (fun _ => rfl) t,
    show ∀ d, (dat3 V c).before 1 t d = iblk3 V c 1 t from (dat3 V c).before_in_eq_fetched 1 rfl (fun _ => rfl) (fun _ _ _ => rfl) (fun _ => rfl) t]
  rw [show (dat3 V c).owesAt () t.succ = (dat3 V c).owesAt () t.castSucc from rfl,
    show (dat3 V c).Φ t.succ = iprop(iprop(owns (c : Thread nD τ) scM3_0 fullShare (acc3 V c t.val t.isLt) ∗ rest3 (F := F) c) ∗ (∃ r, prngReg c r)) from rfl,
    leaves_live (dat3 V c) 0 t (liveAt1_0 (grid1.coords t)), leaves_live (dat3 V c) 1 t (liveAt1_1 (grid1.coords t))]
  by_cases h0 : t.val % 100 = 0
  · have hB : ¬cond1_1 (grid1.coords t) := fun h => by have := (hcond1_1 t).mp h; omega
    rw [Dat.leavesExact_idle (dat3 V c) 2 t (idleAt1_2 _ hB) (noFlush1_2 t hB)]
    exact (sep_mono_l (gPhi_some c _ _ _ _ (PhiA3_eq c) _ _)).trans
      (step1_A ((hcond1_0 t).mpr h0) hB (gacc_first _ _ t h0))
  · have hA : ¬cond1_0 (grid1.coords t) := fun h => h0 ((hcond1_0 t).mp h)
    rw [show (dat3 V c).Φ t.castSucc = iprop(iprop(owns (c : Thread nD τ) scM3_0 fullShare (acc3 V c (t.val - 1) (Nat.lt_of_le_of_lt (Nat.sub_le _ _) t.isLt)) ∗ rest3 (F := F) c) ∗ (∃ r, prngReg c r))
      from gPhi_pos _ _ _ _ _ _ _ (show t.val ≠ 0 by omega)]
    by_cases hl : t.val % 100 = 99
    · rw [leaves_live (dat3 V c) 2 t (liveAt1_2 _ ((hcond1_1 t).mpr hl))]
      exact step1_C hA ((hcond1_1 t).mpr hl) (gacc_next _ _ t h0)
    · have hB : ¬cond1_1 (grid1.coords t) := fun h => hl ((hcond1_1 t).mp h)
      rw [Dat.leavesExact_idle (dat3 V c) 2 t (idleAt1_2 _ hB) (noFlush1_2 t hB)]
      exact step1_B hA hB (gacc_next _ _ t h0)

def rp3 : RegionProof F cfg3 where
  dat := dat3
  A_eq := fun _ _ _ => rfl
  q_eq := fun _ _ _ => rfl
  owed_eq := fun _ _ _ => rfl
  rec_eq := fun _ _ _ => rfl
  body := fun V c t => by rw [bigSep_W1, bigSep_W1]; exact body3 V c t
  hin := fun V c => Entails.refl _
  hout := fun V c => by rw [PhiA3_eq]; exact gPhi_some c _ _ _ (acc3 V c) (PhiA3_eq c) grid1.N (Nat.le_refl _)

end Cert.Kernel.Hand

end
-- ==== Proof.K.R4Runs.lean ====
import proofs.«427573_j12068858102168_3_alg».proof.Proof.K.RegionProof
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
noncomputable def iblk4 (V : Vals F) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1
theorem idleAt4_4 (i : grid4.Coords) (h1 : ¬cond4_1 i) : cfg4.idle 4 i = true := by
  show (!(k4_cond2 i == 1#1)) = true
  rw [Bool.not_eq_true', beq_eq_false_iff_ne]; exact h1
theorem liveAt4_4 (i : grid4.Coords) (h1 : cond4_1 i) : cfg4.idle 4 i = false := by
  show (!(k4_cond2 i == 1#1)) = false
  rw [Bool.not_eq_false', beq_iff_eq]; exact h1
abbrev ms4_0 (t : Fin cfg4.N) : Memref sig .tc .vmem S1024x64 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x64 .bf16 := win4_4.stage (cfg4.slots t 4)
abbrev hs4_4 (t : Fin cfg4.N) : (ms4_4 t).IsWhole := hstage4_4 ((cfg4.slots t 4).cast nbuf4_4)
abbrev scM4_0 : Memref sig .tc .vmem S2048x64 .f32 := Memref.whole cc4_scratch0
theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl
end Cert.Kernel.Hand
end
-- ==== Proof.K.R4Run.lean ====
import proofs.«427573_j12068858102168_3_alg».proof.Proof.K.R4Runs
import Idealize.ShloMosaic.Lib.Pipeline.Value
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
theorem hz4_1 : (![0] : Fin 1 → Nat) = fun _ => 0 := funext fun a => by fin_cases a <;> rfl
theorem hz4_2 : (![0, 0] : Fin 2 → Nat) = fun _ => 0 := funext fun a => by fin_cases a <;> rfl
variable {c : Dev nD} {i : grid4.Coords} {arg2 : Memref sig .tc .vmem S1024x64 .bf16} {harg2 : arg2.IsWhole} {arg3 : Memref sig .tc .vmem S1024 .i32} {harg3 : arg3.IsWhole} {arg4 : Memref sig .tc .vmem S2048x1 .f32} {harg4 : arg4.IsWhole} {arg5 : Memref sig .tc .vmem S64x64 .f32} {harg5 : arg5.IsWhole} {arg6 : Memref sig .tc .vmem S2048x64 .bf16} {harg6 : arg6.IsWhole} {arg7 : Memref sig .tc .vmem S2048x64 .f32} {harg7 : arg7.IsWhole}
  {x0 : Vec F S1024x64 .bf16} {x1 : Vec F S1024 .i32} {x2 : Vec F S2048x1 .f32} {x3 : Vec F S64x64 .f32} {xs0 a : Vec F S2048x64 .f32}
  {D0 D1 D2 D3 D4 : Type} {g : D4 → Vec F S2048x64 .bf16} {R G O : sProp (MT nD τ sig Unit (Elt F) ℕ (UR sig nD τ) ℕ)}

theorem step4_A (hc0 : cond4_0 i) (hc1 : ¬cond4_1 i) (ha : a = k4_pay2 i x1 x0 (k4_pay1 (F := F))) :
    iprop(iprop(iprop((∃ d, owns (c : Thread nD τ) arg7 fullShare d) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare x3) ∗ (∃ d : D4, owns (c : Thread nD τ) arg6 fullShare (g d)))
      ⊢ wp frame (wpE (defs₀ (F := F)) Variants.none c none) Set.univ (cc4_kernel i arg2 harg2 arg3 harg3 arg4 harg4 arg5 harg5 arg6 harg6 arg7 harg7) (fun _ => iprop(iprop(iprop(owns (c : Thread nD τ) arg7 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare x3 ∗ (∃ d : D4, owns (c : Thread nD τ) arg6 fullShare (g d)))) := by
  subst ha
  simp only [cc4_kernel_eq_skeleton]; unfold cc4_kernel_skel
  unfold owns
  iintro ⟨⟨⟨⟨%ds0, %fs0, -, HS0⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  isplitl [HS0 Hr Hg]
  · isplitl [HS0 Hr]
    · isplitl [HS0]
      · iexists _; isplitr
        swap; · iexact HS0
        ipureintro
        refine (View.read_writes_eq_canon _ _ _ (View.cover_of_tiledL _ S2048x64.size ?_)).trans ?_
        · sl_kernel_rfl
        (try sl_unfold_words)
        rw [View.canon_cons_unit_zero (S := S2048x64) hz4_2, View.readCov_unit_zero (S := S2048x64) _ hz4_2]
        simp only [View.readAt_eq_ld, harg2.read_unread, harg3.read_unread, View.ld_unit_zero (S := S1024) hz4_1, View.ld_unit_zero (S := S1024x64) hz4_2]
        try rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists d4, _; isplitr; · ipureintro; exact harg6.read_unread _
  iexact H4

theorem step4_B (hc0 : ¬cond4_0 i) (hc1 : ¬cond4_1 i) (ha : a = k4_pay2 i x1 x0 xs0) :
    iprop(iprop(iprop(owns (c : Thread nD τ) arg7 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare x3) ∗ (∃ d : D4, owns (c : Thread nD τ) arg6 fullShare (g d)))
      ⊢ wp frame (wpE (defs₀ (F := F)) Variants.none c none) Set.univ (cc4_kernel i arg2 harg2 arg3 harg3 arg4 harg4 arg5 harg5 arg6 harg6 arg7 harg7) (fun _ => iprop(iprop(iprop(owns (c : Thread nD τ) arg7 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare x3 ∗ (∃ d : D4, owns (c : Thread nD τ) arg6 fullShare (g d)))) := by
  subst ha
  simp only [cc4_kernel_eq_skeleton]; unfold cc4_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0
  sl_exec (disch := first | exact hc0 | exact hc1)
  sl_step
  isplitl [HS0 Hr Hg]
  · isplitl [HS0 Hr]
    · isplitl [HS0]
      · iexists _; isplitr
        swap; · iexact HS0
        ipureintro
        refine (View.read_writes_eq_canon _ _ _ (View.cover_of_tiledL _ S2048x64.size ?_)).trans ?_
        · sl_kernel_rfl
        (try sl_unfold_words)
        rw [View.canon_unit_zero hz4_2]
        simp only [View.readAt_eq_ld, harg2.read_unread, harg3.read_unread, harg7.read_unread, View.ld_unit_zero (S := S1024) hz4_1, View.ld_unit_zero (S := S1024x64) hz4_2, View.ld_unit_zero (S := S2048x64) hz4_2]
        try rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists d4, _; isplitr; · ipureintro; exact harg6.read_unread _
  iexact H4

theorem step4_C (hc0 : ¬cond4_0 i) (hc1 : cond4_1 i) (ha : a = k4_pay2 i x1 x0 xs0) :
    iprop(iprop(iprop(owns (c : Thread nD τ) arg7 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare x3) ∗ (∃ d : D4, owns (c : Thread nD τ) arg6 fullShare (g d)))
      ⊢ wp frame (wpE (defs₀ (F := F)) Variants.none c none) Set.univ (cc4_kernel i arg2 harg2 arg3 harg3 arg4 harg4 arg5 harg5 arg6 harg6 arg7 harg7) (fun _ => iprop(iprop(iprop(owns (c : Thread nD τ) arg7 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k4_pay3 a x2 x3))) := by
  subst ha
  simp only [cc4_kernel_eq_skeleton]; unfold cc4_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, -, H4⟩⟩
  obtain rfl := harg2.eq_unread hf0; obtain rfl := harg3.eq_unread hf1; obtain rfl := harg4.eq_unread hf2; obtain rfl := harg5.eq_unread hf3; obtain rfl := harg7.eq_unread hfs0
  sl_exec (disch := first | exact hc0 | exact hc1)
  sl_step
  isplitl [HS0 Hr Hg]
  · isplitl [HS0 Hr]
    · isplitl [HS0]
      · iexists _; isplitr
        swap; · iexact HS0
        ipureintro
        refine (View.read_writes_eq_canon _ _ _ (View.cover_of_tiledL _ S2048x64.size ?_)).trans ?_
        · sl_kernel_rfl
        (try sl_unfold_words)
        rw [View.canon_unit_zero hz4_2]
        simp only [View.readAt_eq_ld, harg2.read_unread, harg3.read_unread, harg7.read_unread, View.ld_unit_zero (S := S1024) hz4_1, View.ld_unit_zero (S := S1024x64) hz4_2, View.ld_unit_zero (S := S2048x64) hz4_2]
        try rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (View.read_writes_eq_canon _ _ _ (View.cover_of_tiledL _ S2048x64.size ?_)).trans ?_
  · sl_kernel_rfl
  (try sl_unfold_words)
  rw [View.canon_unit_zero hz4_2]
  simp only [View.readAt_eq_ld, harg2.read_unread, harg3.read_unread, harg4.read_unread, harg5.read_unread, harg7.read_unread, View.readCov_unit_zero (S := S2048x64) _ hz4_2, View.ld_unit_zero (S := S1024) hz4_1, View.ld_unit_zero (S := S1024x64) hz4_2, View.ld_unit_zero (S := S2048x64) hz4_2, View.ld_unit_zero (S := S2048x1) hz4_2, View.ld_unit_zero (S := S64x64) hz4_2]
  try rfl
end Cert.Kernel.Hand
end
-- ==== Proof.K.R4Cond.lean ====
import proofs.«427573_j12068858102168_3_alg».proof.Proof.K.R4Runs
import proofs.«427573_j12068858102168_3_alg».proof.Proof.K.R2Cond

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hcond4_0 : ∀ t : Fin cfg4.N, cond4_0 (grid4.coords t) ↔ t.val % 832 = 0 := hcond2_0
theorem hcond4_1 : ∀ t : Fin cfg4.N, cond4_1 (grid4.coords t) ↔ t.val % 832 = 831 := hcond2_1
theorem flush4_4 : ∀ t : Fin cfg4.N, (cfg4.win 4).flush t = true ↔ t.val % 832 = 831 := flush2_3
end Cert.Kernel.Hand
end
-- ==== Proof.K.R4Acc.lean ====
import proofs.«427573_j12068858102168_3_alg».proof.Proof.K.R4Run
import proofs.«427573_j12068858102168_3_alg».proof.Proof.K.R4Cond
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
theorem leavesExact_live {cfg : Cfg sig Λ₀} {c : Dev nD} (dat : Dat τ (Elt F) Unit ℕ (UR sig nD τ) ℕ cfg c) (w : Fin cfg.W) (t : Fin cfg.N)
    (hl : cfg.idle w (cfg.grid.coords t) = false) :
    dat.leavesExact w t = owns (c : Thread nD τ) ((cfg.win w).stage (cfg.slots t w)) fullShare (dat.after w t) := by
  unfold Dat.leavesExact; rw [hl]
section
variable (b1 : Fin cfg4.N → Vec F S1024 .i32) (b0 : Fin cfg4.N → Vec F S1024x64 .bf16)

def accG : (n : ℕ) → n < cfg4.N → Vec F S2048x64 .f32
  | 0, hn => k4_pay2 (grid4.coords ⟨0, hn⟩) (b1 ⟨0, hn⟩) (b0 ⟨0, hn⟩) (k4_pay1 (F := F))
  | n + 1, hn => k4_pay2 (grid4.coords ⟨n + 1, hn⟩) (b1 ⟨n + 1, hn⟩) (b0 ⟨n + 1, hn⟩)
      (if (n + 1) % 832 = 0 then k4_pay1 (F := F) else accG n (Nat.lt_of_succ_lt hn))
theorem accG_first (t : Fin cfg4.N) (h0 : t.val % 832 = 0) :
    accG b1 b0 t.val t.isLt = k4_pay2 (grid4.coords t) (b1 t) (b0 t) (k4_pay1 (F := F)) := by
  obtain ⟨n, hn⟩ := t
  cases n with
  | zero => rfl
  | succ n => exact congrArg (k4_pay2 _ _ _) (if_pos h0)
theorem accG_next (t : Fin cfg4.N) (h0 : ¬t.val % 832 = 0) :
    accG b1 b0 t.val t.isLt = k4_pay2 (grid4.coords t) (b1 t) (b0 t)
      (accG b1 b0 (t.val - 1) (Nat.lt_of_le_of_lt (Nat.sub_le _ _) t.isLt)) := by
  obtain ⟨n, hn⟩ := t
  cases n with
  | zero => exact absurd (Nat.zero_mod _) h0
  | succ n => exact congrArg (k4_pay2 _ _ _) (if_neg h0)
end
variable (V : Vals F) (c : Dev nD)
abbrev acc4 : (n : ℕ) → n < cfg4.N → Vec F S2048x64 .f32 := accG (iblk4 V c 1) (iblk4 V c 0)
abbrev rest4 : sProp 𝕄 :=
  Pipeline.scopedRestBut (Ix := Unit) (Name := ℕ) (U := UR sig nD τ) (Lvl := ℕ) (Val := Elt F) spec4 c [cc4_scratch0]
def PhiS4 : (n : ℕ) → n ≤ cfg4.N → sProp 𝕄
  | 0, _ => Pipeline.ΦA spec4 c
  | n + 1, hn => iprop(iprop(owns (c : Thread nD τ) scM4_0 fullShare (acc4 V c n hn) ∗ rest4 (F := F) c) ∗ (∃ r, prngReg c r))
theorem PhiS4_pos (n : ℕ) (h : n ≤ cfg4.N) (hz : n ≠ 0) :
    PhiS4 V c n h = iprop(iprop(owns (c : Thread nD τ) scM4_0 fullShare (acc4 V c (n - 1) (by omega)) ∗ rest4 (F := F) c) ∗ (∃ r, prngReg c r)) := by
  cases n with
  | zero => exact absurd rfl hz
  | succ n => rfl
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (acc4 V c t.val t.isLt) (iblk4 V c 2 t) (iblk4 V c 3 t)
  Φ t := PhiS4 V c t.val (Nat.le_of_lt_succ t.isLt)
  q _ := fullShare
  owed _ := 0
theorem A_eq4 (w : Fin cfg4.W) : (dat4 V c).A w = V c (Pipeline.arrRef spec4 w) := by
  dsimp only [dat4]
theorem PhiS4_castSucc (t : Fin cfg4.N) :
    (dat4 V c).Φ t.castSucc = PhiS4 V c t.val (Nat.le_of_lt t.isLt) := by
  dsimp only [dat4]; simp only [Fin.coe_castSucc]
variable (t : Fin cfg4.N)
theorem after4_0 : (dat4 V c).after 0 t = iblk4 V c 0 t := by dsimp only [dat4]
theorem after4_1 : (dat4 V c).after 1 t = iblk4 V c 1 t := by dsimp only [dat4]
theorem after4_2 : (dat4 V c).after 2 t = iblk4 V c 2 t := by dsimp only [dat4]
theorem after4_3 : (dat4 V c).after 3 t = iblk4 V c 3 t := by dsimp only [dat4]
theorem after4_4 : (dat4 V c).after 4 t = k4_pay3 (acc4 V c t.val t.isLt) (iblk4 V c 2 t) (iblk4 V c 3 t) := by dsimp only [dat4]
end Cert.Kernel.Hand
end
-- ==== Proof.K.R4.lean ====
import proofs.«427573_j12068858102168_3_alg».proof.Proof.K.R4Acc
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (V : Vals F) (c : Dev nD)
abbrev body4 (t : Fin cfg4.N) : Prog (TpuEff nD τ sig (Elt F) Λ₀ .tc) PUnit :=
  cc4_kernel (grid4.coords t) (ms4_0 t) (hs4_0 t) (ms4_1 t) (hs4_1 t) (ms4_2 t) (hs4_2 t) (ms4_3 t) (hs4_3 t) (ms4_4 t) (hs4_4 t) scM4_0 (Memref.isWhole_whole _)
theorem noFlush4_4 (t : Fin cfg4.N) (h1 : ¬cond4_1 (grid4.coords t)) : (cfg4.win 4).flush t = false :=
  Bool.eq_false_iff.mpr fun h => h1 ((hcond4_1 t).mpr ((flush4_4 t).mp h))
def bodyPre4 (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))
def bodyPost4 (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)
theorem PhiS4_weak (n : ℕ) (h : n ≤ cfg4.N) : PhiS4 V c n h ⊢ (Pipeline.ΦA spec4 c : sProp 𝕄) := by
  by_cases hz : n = 0
  · subst hz; exact Idealize.SL.BI.Entails.refl _
  · rw [PhiS4_pos V c _ _ hz, PhiA4_eq]
    iintro ⟨⟨HS0, Hr⟩, Hg⟩
    isplitl [HS0 Hr]
    · isplitl [HS0]
      · iexists _; iexact HS0
      iexact Hr
    iexact Hg
theorem sound_body4 (t : Fin cfg4.N) :
    bodyPre4 V c t ⊢ wp frame (wpE (defs₀ (F := F)) Variants.none c none) Set.univ (body4 t) (fun _ => bodyPost4 V c t) := by
  unfold bodyPre4 bodyPost4 body4
  simp only [show ∀ d, (dat4 V c).before 0 t d = iblk4 V c 0 t from (dat4 V c).before_in_eq_fetched 0 rfl (fun _ => rfl) (fun _ _ _ => rfl) (fun _ => rfl) t,
    show ∀ d, (dat4 V c).before 1 t d = iblk4 V c 1 t from (dat4 V c).before_in_eq_fetched 1 rfl (fun _ => rfl) (fun _ _ _ => rfl) (fun _ => rfl) t,
    show ∀ d, (dat4 V c).before 2 t d = iblk4 V c 2 t from (dat4 V c).before_in_eq_fetched 2 rfl (fun _ => rfl) (fun _ _ _ => rfl) (fun _ => rfl) t,
    show ∀ d, (dat4 V c).before 3 t d = iblk4 V c 3 t from (dat4 V c).before_in_eq_fetched 3 rfl (fun _ => rfl) (fun _ _ _ => rfl) (fun _ => rfl) t]
  rw [show (dat4 V c).owesAt () t.succ = (dat4 V c).owesAt () t.castSucc from rfl]
  rw [show (dat4 V c).Φ t.succ = iprop(iprop(owns (c : Thread nD τ) scM4_0 fullShare (acc4 V c t.val t.isLt) ∗ rest4 (F := F) c) ∗ (∃ r, prngReg c r)) from rfl]
  rw [leavesExact_live (dat4 V c) 0 t rfl, after4_0, leavesExact_live (dat4 V c) 1 t rfl, after4_1, leavesExact_live (dat4 V c) 2 t rfl, after4_2, leavesExact_live (dat4 V c) 3 t rfl, after4_3]
  rw [PhiS4_castSucc V c t]
  by_cases h1 : t.val % 832 = 831
  · have h0 : ¬t.val % 832 = 0 := by omega
    have c0 : ¬cond4_0 (grid4.coords t) := fun h => h0 ((hcond4_0 t).mp h)
    have c1 : cond4_1 (grid4.coords t) := (hcond4_1 t).mpr h1
    have hz : t.val ≠ 0 := fun e => h0 (by rw [e])
    rw [leavesExact_live (dat4 V c) 4 t (liveAt4_4 _ c1), after4_4, PhiS4_pos V c _ _ hz]
    exact step4_C c0 c1 (accG_next (iblk4 V c 1) (iblk4 V c 0) t h0)
  · have c1 : ¬cond4_1 (grid4.coords t) := fun h => h1 ((hcond4_1 t).mp h)
    rw [Dat.leavesExact_idle (dat4 V c) 4 t (idleAt4_4 (grid4.coords t) c1) (noFlush4_4 t c1)]
    by_cases h0 : t.val % 832 = 0
    · refine (sep_mono_l (PhiS4_weak V c _ _)).trans ?_
      rw [PhiA4_eq]
      exact step4_A ((hcond4_0 t).mpr h0) c1 (accG_first (iblk4 V c 1) (iblk4 V c 0) t h0)
    · have hz : t.val ≠ 0 := fun e => h0 (by rw [e])
      rw [PhiS4_pos V c _ _ hz]
      exact step4_B (fun h => h0 ((hcond4_0 t).mp h)) c1 (accG_next (iblk4 V c 1) (iblk4 V c 0) t h0)
theorem body_obligation4 : BodyObligation (dat4 (F := F) V c) (defs₀ (F := F)) Variants.none () Set.univ := fun t => by
  rw [bigSep_W4, bigSep_W4]
  exact sound_body4 V c t
theorem hin4 : (Pipeline.ΦA spec4 c : sProp 𝕄) ⊢ (dat4 V c).Φ 0 :=
  Idealize.SL.BI.Entails.refl _
theorem hout4 : (dat4 V c).Φ (Fin.last cfg4.N) ⊢ (Pipeline.ΦA spec4 c : sProp 𝕄) :=
  PhiS4_weak V c _ (Nat.le_of_lt_succ (Fin.last cfg4.N).isLt)
def rp4 : RegionProof F cfg4 where
  dat := dat4
  A_eq := A_eq4
  q_eq := fun _ _ _ => rfl
  owed_eq := fun _ _ _ => rfl
  rec_eq := fun _ _ _ => rfl
  body := body_obligation4
  hin := hin4
  hout := hout4
end Cert.Kernel.Hand
end
-- ==== Proof.K.R5Runs.lean ====
import proofs.«427573_j12068858102168_3_alg».proof.Proof.K.RegionProof

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

noncomputable def iblk5 (V : Vals F) (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ms5_0 (t : Fin cfg5.N) : Memref sig .tc .vmem S4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S51200x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x64 .bf16 := win5_2.stage (cfg5.slots t 2)
abbrev hs5_2 (t : Fin cfg5.N) : (ms5_2 t).IsWhole := hstage5_2 ((cfg5.slots t 2).cast nbuf5_2)

abbrev scM5_0 : Memref sig .tc .vmem S4096x64 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA (U := UR sig nD τ) spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.Kernel.Hand

end
-- ==== Proof.K.R5.lean ====
import proofs.«427573_j12068858102168_3_alg».proof.Proof.K.R1Run
import proofs.«427573_j12068858102168_3_alg».proof.Proof.K.R1Cond
import proofs.«427573_j12068858102168_3_alg».proof.Proof.K.R5Runs

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

abbrev acc5 (V : Vals F) (c : Dev nD) : (n : ℕ) → n < grid1.N → Vec F S4096x64 .f32 :=
  gacc (fun t => iblk5 V c 0 t) (fun t => iblk5 V c 1 t)

def dat5 (V : Vals F) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k1_pay3 (acc5 V c t.val t.isLt)
  Φ t := gPhi c (Pipeline.ΦA (U := UR sig nD τ) spec5 c) (rest5 (F := F) c) scM5_0 (acc5 V c) t.val (Nat.le_of_lt_succ t.isLt)
  q _ := fullShare
  owed _ := 0

theorem body5 (V : Vals F) (c : Dev nD) (t : Fin cfg5.N) :
    iprop((dat5 V c).Φ t.castSucc ∗ (dat5 V c).owesAt () t.castSucc
        ∗ (∃ d, owns (c : Thread nD τ) (ms5_0 t) fullShare ((dat5 V c).before 0 t d))
        ∗ (∃ d, owns (c : Thread nD τ) (ms5_1 t) fullShare ((dat5 V c).before 1 t d))
        ∗ (∃ d, owns (c : Thread nD τ) (ms5_2 t) fullShare ((dat5 V c).before 2 t d)))
      ⊢ wp frame (wpE (defs₀ (F := F)) Variants.none c none) Set.univ
          (cc1_kernel (grid1.coords t) (ms5_0 t) (hs5_0 t) (ms5_1 t) (hs5_1 t) (ms5_2 t) (hs5_2 t) scM5_0 (Memref.isWhole_whole _))
          (fun _ => iprop((dat5 V c).Φ t.succ ∗ (dat5 V c).owesAt () t.succ ∗ (dat5 V c).leavesExact 0 t ∗ (dat5 V c).leavesExact 1 t ∗ (dat5 V c).leavesExact 2 t)) := by
  simp only [show ∀ d, (dat5 V c).before 0 t d = iblk5 V c 0 t from (dat5 V c).before_in_eq_fetched 0 rfl (fun _ => rfl) (fun _ _ _ => rfl) (fun _ => rfl) t,
    show ∀ d, (dat5 V c).before 1 t d = iblk5 V c 1 t from (dat5 V c).before_in_eq_fetched 1 rfl (fun _ => rfl) (fun _ _ _ => rfl) (fun _ => rfl) t]
  rw [show (dat5 V c).owesAt () t.succ = (dat5 V c).owesAt () t.castSucc from rfl,
    show (dat5 V c).Φ t.succ = iprop(iprop(owns (c : Thread nD τ) scM5_0 fullShare (acc5 V c t.val t.isLt) ∗ rest5 (F := F) c) ∗ (∃ r, prngReg c r)) from rfl,
    leaves_live (dat5 V c) 0 t (liveAt1_0 (grid1.coords t)), leaves_live (dat5 V c) 1 t (liveAt1_1 (grid1.coords t))]
  by_cases h0 : t.val % 100 = 0
  · have hB : ¬cond1_1 (grid1.coords t) := fun h => by have := (hcond1_1 t).mp h; omega
    rw [Dat.leavesExact_idle (dat5 V c) 2 t (idleAt1_2 _ hB) (noFlush1_2 t hB)]
    exact (sep_mono_l (gPhi_some c _ _ _ _ (PhiA5_eq c) _ _)).trans
      (step1_A ((hcond1_0 t).mpr h0) hB (gacc_first _ _ t h0))
  · have hA : ¬cond1_0 (grid1.coords t) := fun h => h0 ((hcond1_0 t).mp h)
    rw [show (dat5 V c).Φ t.castSucc = iprop(iprop(owns (c : Thread nD τ) scM5_0 fullShare (acc5 V c (t.val - 1) (Nat.lt_of_le_of_lt (Nat.sub_le _ _) t.isLt)) ∗ rest5 (F := F) c) ∗ (∃ r, prngReg c r))
      from gPhi_pos _ _ _ _ _ _ _ (show t.val ≠ 0 by omega)]
    by_cases hl : t.val % 100 = 99
    · rw [leaves_live (dat5 V c) 2 t (liveAt1_2 _ ((hcond1_1 t).mpr hl))]
      exact step1_C hA ((hcond1_1 t).mpr hl) (gacc_next _ _ t h0)
    · have hB : ¬cond1_1 (grid1.coords t) := fun h => hl ((hcond1_1 t).mp h)
      rw [Dat.leavesExact_idle (dat5 V c) 2 t (idleAt1_2 _ hB) (noFlush1_2 t hB)]
      exact step1_B hA hB (gacc_next _ _ t h0)

def rp5 : RegionProof F cfg5 where
  dat := dat5
  A_eq := fun _ _ _ => rfl
  q_eq := fun _ _ _ => rfl
  owed_eq := fun _ _ _ => rfl
  rec_eq := fun _ _ _ => rfl
  body := fun V c t => by rw [bigSep_W1, bigSep_W1]; exact body5 V c t
  hin := fun V c => Entails.refl _
  hout := fun V c => by rw [PhiA5_eq]; exact gPhi_some c _ _ _ (acc5 V c) (PhiA5_eq c) grid1.N (Nat.le_refl _)

end Cert.Kernel.Hand

end
-- ==== Proof.K.R6Cond.lean ====
import proofs.«427573_j12068858102168_3_alg».proof.Proof.K.R4Cond
noncomputable section
namespace Cert.Kernel.Hand
open Idealize.ShloMosaic Idealize.ShloMosaic.TcCoe
open Idealize.SL Idealize.SL.Sem
open Cert.Kernel
abbrev cond6_0 (i : grid6.Coords) : Prop := (Scalar.cmpi .ne (Scalar.extui (Scalar.cmpi .eq (BitVec.ofNat 32 (i 1).val) 0#32)) 0#32) = 1#1
abbrev cond6_1 (i : grid6.Coords) : Prop := k6_cond2 i = 1#1

theorem hcond6_0 : ∀ t : Fin cfg6.N, cond6_0 (grid6.coords t) ↔ t.val % 832 = 0 := hcond4_0
theorem hcond6_1 : ∀ t : Fin cfg6.N, cond6_1 (grid6.coords t) ↔ t.val % 832 = 831 := hcond4_1
theorem flush6_3 : ∀ t : Fin cfg6.N, (cfg6.win 3).flush t = true ↔ t.val % 832 = 831 := flush4_4
end Cert.Kernel.Hand
end
-- ==== Proof.K.R6Runs.lean ====
import proofs.«427573_j12068858102168_3_alg».proof.Proof.K.RegionProof
import proofs.«427573_j12068858102168_3_alg».proof.Proof.K.R6Cond

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ
noncomputable def iblk6 (V : Vals F) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
theorem idleAt6_3_of : ∀ t : Fin cfg6.N, ¬cond6_1 (grid6.coords t) → cfg6.idle 3 (grid6.coords t) = true := fun t h1 => by
  show (!(k6_cond2 (grid6.coords t) == 1#1)) = true
  rw [Bool.not_eq_true', beq_eq_false_iff_ne]; exact h1
theorem liveAt6_3_C : ∀ t : Fin cfg6.N, ¬cond6_0 (grid6.coords t) → cond6_1 (grid6.coords t) → cfg6.idle 3 (grid6.coords t) = false := fun t _ h1 => by
  show (!(k6_cond2 (grid6.coords t) == 1#1)) = false
  rw [Bool.not_eq_false', beq_iff_eq]; exact h1
abbrev ms6_0 (t : Fin cfg6.N) : Memref sig .tc .vmem S1024x64 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x64 .f32 := win6_3.stage (cfg6.slots t 3)
abbrev hs6_3 (t : Fin cfg6.N) : (ms6_3 t).IsWhole := hstage6_3 ((cfg6.slots t 3).cast nbuf6_3)
abbrev scM6_0 : Memref sig .tc .vmem S2048x64 .f32 := Memref.whole cc6_scratch0
theorem PhiA6_eq (c : Dev nD) :
    (Pipeline.ΦA (U := UR sig nD τ) spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl
end Cert.Kernel.Hand
end
-- ==== Proof.K.R6RunA.lean ====
import proofs.«427573_j12068858102168_3_alg».proof.Proof.K.R6Runs
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

theorem hz6_1 : (![0] : Fin 1 → Nat) = fun _ => 0 := funext fun a => by fin_cases a <;> rfl
theorem hz6_2 : (![0, 0] : Fin 2 → Nat) = fun _ => 0 := funext fun a => by fin_cases a <;> rfl

section
variable {c : Dev nD} {i : grid6.Coords} {arg2 : Memref sig .tc .vmem S1024x64 .bf16} {harg2 : arg2.IsWhole} {arg3 : Memref sig .tc .vmem S1024 .i32} {harg3 : arg3.IsWhole} {arg4 : Memref sig .tc .vmem S2048x1 .f32} {harg4 : arg4.IsWhole} {arg5 : Memref sig .tc .vmem S2048x64 .f32} {harg5 : arg5.IsWhole} {arg6 : Memref sig .tc .vmem S2048x64 .f32} {harg6 : arg6.IsWhole}
  {x0 : Vec F S1024x64 .bf16} {x1 : Vec F S1024 .i32} {x2 : Vec F S2048x1 .f32} {xs0 : Vec F S2048x64 .f32}
  {D0 D1 D2 D3 : Type} {g : D3 → Vec F S2048x64 .f32} {R G O : sProp (MT nD τ sig Unit (Elt F) ℕ (UR sig nD τ) ℕ)} {a : Vec F S2048x64 .f32}

theorem step6_A (hc0 : cond6_0 i) (hc1 : ¬cond6_1 i) (ha : a = k6_pay2 i x1 x0 (k6_pay1 (F := F))) :
    iprop(iprop(iprop((∃ d, owns (c : Thread nD τ) arg6 fullShare d) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare (g d)))
      ⊢ wp frame (wpE (defs₀ (F := F)) Variants.none c none) Set.univ (cc6_kernel i arg2 harg2 arg3 harg3 arg4 harg4 arg5 harg5 arg6 harg6) (fun _ => iprop(iprop(iprop(owns (c : Thread nD τ) arg6 fullShare a ∗ R) ∗ G) ∗ O ∗ owns (c : Thread nD τ) arg2 fullShare x0 ∗ owns (c : Thread nD τ) arg3 fullShare x1 ∗ owns (c : Thread nD τ) arg4 fullShare x2 ∗ (∃ d : D3, owns (c : Thread nD τ) arg5 fullShare (g d)))) := by
  subst ha
  simp only [cc6_kernel_eq_skeleton]; unfold cc6_kernel_skel
  unfold owns
  iintro ⟨⟨⟨⟨%ds0, %fs0, -, HS0⟩, Hr⟩, Hg⟩, Ho, ⟨%d0, %f0, %hf0, H0⟩, ⟨%d1, %f1, %hf1, H1⟩, ⟨%d2, %f2, %hf2, H2⟩, ⟨%d3, %f3, %hf3, H3⟩⟩
  obtain rfl := harg2.eq_unread hf0; obtain rfl := harg3.eq_unread hf1; obtain rfl := harg4.eq_unread hf2; obtain rfl := harg5.eq_unread hf3
  sl_exec (disch := first | exact hc0 | exact hc1)
  sl_step
  iframe Hr Hg Ho
  isplitl [HS0]
  · iexists _; isplitr
    swap; · iexact HS0
    ipureintro
    refine (View.read_writes_eq_canon _ _ _ (View.cover_of_tiledL _ S2048x64.size ?_)).trans ?_
    · sl_kernel_rfl
    sl_unfold_words
    rw [View.canon_cons_unit_zero (S := S2048x64) hz6_2]
    simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists d3, _; isplitr; · ipureintro; exact harg5.read_unread _
  iexact H3

theorem step6_B (hc0 : ¬cond6_0 i) (hc1 : ¬cond6_1 i) (ha : a = k6_pay2 i x1 x0 xs0) :
    iprop(iprop(iprop(owns (c : Thread nD τ) arg6 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare (g d)))
      ⊢ wp frame (wpE (defs₀ (F := F)) Variants.none c none) Set.univ (cc6_kernel i arg2 harg2 arg3 harg3 arg4 harg4 arg5 harg5 arg6 harg6) (fun _ => iprop(iprop(iprop(owns (c : Thread nD τ) arg6 fullShare a ∗ R) ∗ G) ∗ O ∗ owns (c : Thread nD τ) arg2 fullShare x0 ∗ owns (c : Thread nD τ) arg3 fullShare x1 ∗ owns (c : Thread nD τ) arg4 fullShare x2 ∗ (∃ d : D3, owns (c : Thread nD τ) arg5 fullShare (g d)))) := by
  subst ha
  simp only [cc6_kernel_eq_skeleton]; unfold cc6_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, %hf3, H3⟩⟩
  obtain rfl := harg2.eq_unread hf0; obtain rfl := harg3.eq_unread hf1; obtain rfl := harg4.eq_unread hf2; obtain rfl := harg5.eq_unread hf3
  obtain rfl := harg6.eq_unread hfs0
  sl_exec (disch := first | exact hc0 | exact hc1)
  sl_step
  iframe Hr Hg Ho
  isplitl [HS0]
  · iexists _; isplitr
    swap; · iexact HS0
    ipureintro
    refine (View.read_writes_eq_canon _ _ _ (View.cover_of_tiledL _ S2048x64.size ?_)).trans ?_
    · sl_kernel_rfl
    sl_unfold_words
    rw [View.canon_unit_zero hz6_2]
    simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists d3, _; isplitr; · ipureintro; exact harg5.read_unread _
  iexact H3

theorem step6_C (hc0 : ¬cond6_0 i) (hc1 : cond6_1 i) (ha : a = k6_pay2 i x1 x0 xs0) :
    iprop(iprop(iprop(owns (c : Thread nD τ) arg6 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare (g d)))
      ⊢ wp frame (wpE (defs₀ (F := F)) Variants.none c none) Set.univ (cc6_kernel i arg2 harg2 arg3 harg3 arg4 harg4 arg5 harg5 arg6 harg6) (fun _ => iprop(iprop(iprop(owns (c : Thread nD τ) arg6 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare (k6_pay3 a x2))) := by
  subst ha
  simp only [cc6_kernel_eq_skeleton]; unfold cc6_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, -, H3⟩⟩
  obtain rfl := harg2.eq_unread hf0; obtain rfl := harg3.eq_unread hf1; obtain rfl := harg4.eq_unread hf2
  obtain rfl := harg6.eq_unread hfs0
  sl_exec (disch := first | exact hc0 | exact hc1)
  sl_step
  iframe Hr Hg Ho
  isplitl [HS0]
  · iexists _; isplitr
    swap; · iexact HS0
    ipureintro
    refine (View.read_writes_eq_canon _ _ _ (View.cover_of_tiledL _ S2048x64.size ?_)).trans ?_
    · sl_kernel_rfl
    sl_unfold_words
    rw [View.canon_unit_zero hz6_2]
    simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (View.read_writes_eq_canon _ _ _ (View.cover_of_tiledL _ S2048x64.size ?_)).trans ?_
  · sl_kernel_rfl
  sl_unfold_words
  rw [View.canon_unit_zero hz6_2]
  simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]

end

end Cert.Kernel.Hand

end
-- ==== Proof.K.R6Pieces.lean ====
import proofs.«427573_j12068858102168_3_alg».proof.Proof.K.R6RunA
import proofs.«427573_j12068858102168_3_alg».proof.Proof.K.R4Acc

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

variable (V : Vals F) (c : Dev nD)

abbrev acc6 : (n : ℕ) → n < cfg6.N → Vec F S2048x64 .f32 := accG (iblk6 V c 1) (iblk6 V c 0)

abbrev rest6 : sProp 𝕄 :=
  Pipeline.scopedRestBut (Ix := Unit) (Name := ℕ) (U := UR sig nD τ) (Lvl := ℕ) (Val := Elt F) spec6 c [cc6_scratch0]

def PhiS6 : (n : ℕ) → n ≤ cfg6.N → sProp 𝕄
  | 0, _ => Pipeline.ΦA (U := UR sig nD τ) spec6 c
  | n + 1, hn => iprop(iprop(owns (c : Thread nD τ) scM6_0 fullShare (acc6 V c n hn) ∗ rest6 (F := F) c) ∗ (∃ r, prngReg c r))

theorem PhiS6_pos (n : ℕ) (h : n ≤ cfg6.N) (hz : n ≠ 0) :
    PhiS6 V c n h = iprop(iprop(owns (c : Thread nD τ) scM6_0 fullShare (acc6 V c (n - 1) (by omega)) ∗ rest6 (F := F) c) ∗ (∃ r, prngReg c r)) := by
  cases n with
  | zero => exact absurd rfl hz
  | succ n => rfl

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val t.isLt) (iblk6 V c 2 t)
  Φ t := PhiS6 V c t.val (Nat.le_of_lt_succ t.isLt)
  q _ := fullShare
  owed _ := 0

end Cert.Kernel.Hand

end
-- ==== Proof.K.R6.lean ====
import proofs.«427573_j12068858102168_3_alg».proof.Proof.K.R6Pieces

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.Kernel Cert.Kernel.Gen

variable {F : FTy → Type} [FloatOps F]

local notation "𝕄" => MT nD τ sig Unit (Elt F) ℕ (UR sig nD τ) ℕ

variable (V : Vals F) (c : Dev nD)

theorem PhiS6_weak (n : ℕ) (h : n ≤ cfg6.N) : PhiS6 V c n h ⊢ iprop(iprop(iprop((∃ d, owns (c : Thread nD τ) scM6_0 fullShare d)) ∗ rest6 (F := F) c) ∗ (∃ r, prngReg c r)) := by
  cases n with
  | zero => rw [← PhiA6_eq (F := F) c]; exact Entails.refl _
  | succ n =>
    show iprop(iprop(owns (c : Thread nD τ) scM6_0 fullShare (acc6 V c n h) ∗ rest6 (F := F) c) ∗ (∃ r, prngReg c r)) ⊢ _
    iintro ⟨⟨HS0, Hr⟩, Hg⟩
    iframe Hr Hg
    iexists _; iexact HS0

theorem sound_body6 (t : Fin cfg6.N) :
    iprop((dat6 V c).Φ t.castSucc ∗ (dat6 V c).owesAt () t.castSucc
        ∗ (∃ d, owns (c : Thread nD τ) (ms6_0 t) fullShare ((dat6 V c).before 0 t d))
        ∗ (∃ d, owns (c : Thread nD τ) (ms6_1 t) fullShare ((dat6 V c).before 1 t d))
        ∗ (∃ d, owns (c : Thread nD τ) (ms6_2 t) fullShare ((dat6 V c).before 2 t d))
        ∗ (∃ d, owns (c : Thread nD τ) (ms6_3 t) fullShare ((dat6 V c).before 3 t d)))
      ⊢ wp frame (wpE (defs₀ (F := F)) Variants.none c none) Set.univ
          (cc6_kernel (grid6.coords t) (ms6_0 t) (hs6_0 t) (ms6_1 t) (hs6_1 t) (ms6_2 t) (hs6_2 t) (ms6_3 t) (hs6_3 t) scM6_0 (Memref.isWhole_whole _))
          (fun _ => iprop((dat6 V c).Φ t.succ ∗ (dat6 V c).owesAt () t.succ ∗ (dat6 V c).leavesExact 0 t ∗ (dat6 V c).leavesExact 1 t ∗ (dat6 V c).leavesExact 2 t ∗ (dat6 V c).leavesExact 3 t)) := by
  simp only [show ∀ d, (dat6 V c).before 0 t d = iblk6 V c 0 t from (dat6 V c).before_in_eq_fetched 0 rfl (fun _ => rfl) (fun _ _ _ => rfl) (fun _ => rfl) t,
    show ∀ d, (dat6 V c).before 1 t d = iblk6 V c 1 t from (dat6 V c).before_in_eq_fetched 1 rfl (fun _ => rfl) (fun _ _ _ => rfl) (fun _ => rfl) t,
    show ∀ d, (dat6 V c).before 2 t d = iblk6 V c 2 t from (dat6 V c).before_in_eq_fetched 2 rfl (fun _ => rfl) (fun _ _ _ => rfl) (fun _ => rfl) t]
  rw [show (dat6 V c).owesAt () t.succ = (dat6 V c).owesAt () t.castSucc from rfl,
    show (dat6 V c).Φ t.succ = iprop(iprop(owns (c : Thread nD τ) scM6_0 fullShare (acc6 V c t.val t.isLt) ∗ rest6 (F := F) c) ∗ (∃ r, prngReg c r)) from rfl,
    show (dat6 V c).Φ t.castSucc = PhiS6 V c t.val (Nat.le_of_lt t.isLt) from rfl,
    leavesExact_live (dat6 V c) 0 t rfl, leavesExact_live (dat6 V c) 1 t rfl, leavesExact_live (dat6 V c) 2 t rfl]
  by_cases h1 : t.val % 832 = 831
  · have h0 : ¬t.val % 832 = 0 := by omega
    have c1 : cond6_1 (grid6.coords t) := (hcond6_1 t).mpr h1
    rw [leavesExact_live (dat6 V c) 3 t (liveAt6_3_C t (fun h => h0 ((hcond6_0 t).mp h)) c1), PhiS6_pos V c _ _ (show t.val ≠ 0 by omega)]
    exact step6_C (fun h => h0 ((hcond6_0 t).mp h)) c1 (accG_next (iblk6 V c 1) (iblk6 V c 0) t h0)
  · have c1 : ¬cond6_1 (grid6.coords t) := fun h => h1 ((hcond6_1 t).mp h)
    rw [Dat.leavesExact_idle (dat6 V c) 3 t (idleAt6_3_of t c1) (Bool.eq_false_iff.mpr fun h => h1 ((flush6_3 t).mp h))]
    by_cases h0 : t.val % 832 = 0
    · exact (sep_mono_l (PhiS6_weak V c _ _)).trans (step6_A ((hcond6_0 t).mpr h0) c1 (accG_first (iblk6 V c 1) (iblk6 V c 0) t h0))
    · rw [PhiS6_pos V c _ _ (show t.val ≠ 0 by omega)]
      exact step6_B (fun h => h0 ((hcond6_0 t).mp h)) c1 (accG_next (iblk6 V c 1) (iblk6 V c 0) t h0)

def rp6 : RegionProof F cfg6 where
  dat := dat6
  A_eq := fun _ _ _ => rfl
  q_eq := fun _ _ _ => rfl
  owed_eq := fun _ _ _ => rfl
  rec_eq := fun _ _ _ => rfl
  body := fun V c t => by rw [bigSep_W6, bigSep_W6]; exact sound_body6 V c t
  hin := fun V c => Entails.refl _
  hout := fun V c => by rw [PhiA6_eq]; exact PhiS6_weak V c _ (Nat.le_of_lt_succ (Fin.last cfg6.N).isLt)

end Cert.Kernel.Hand

end
-- ==== Proof.KI.RegionProof.lean ====
import proofs.«427573_j12068858102168_3_alg».proof.Proof.Gen.KernelIdeal.Launch
import proofs.«427573_j12068858102168_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

abbrev Vals (F : FTy → Type) : Type := (c : Dev nD) → (b : Ref sig .tc) → Buf (Elt F) ((c : Thread nD τ).loc b)

abbrev specOf (cfg : Pipeline.Cfg sig Λ₀) : Fin cfg.W → Pipeline.WinSpec sig cfg.grid.rank := fun w => (cfg.win w).toWinSpec

structure RegionProof (F : FTy → Type) [FloatOps F] (cfg : Pipeline.Cfg sig Λ₀) where

  dat : Vals F → (c : Dev nD) → Dat τ (Elt F) Unit ℕ (UR sig nD τ) ℕ cfg c

  A_eq : ∀ (V : Vals F) (c : Dev nD) (w : Fin cfg.W), (dat V c).A w = V c (Pipeline.arrRef (specOf cfg) w)

  q_eq : ∀ (V : Vals F) (c : Dev nD) (w : Fin cfg.W), (dat V c).q w = fullShare

  owed_eq : ∀ (V : Vals F) (c : Dev nD) (t : Fin (cfg.N + 1)), (dat V c).owed t = 0

  rec_eq : ∀ (V : Vals F) (c : Dev nD) (t : Fin (cfg.N + 1)), (dat V c).recorded t = Set.univ

  body : ∀ (V : Vals F) (c : Dev nD), BodyObligation (dat V c) (defs₀ (F := F)) Variants.none () Set.univ

  hin : ∀ (V : Vals F) (c : Dev nD),
    (Pipeline.ΦA (U := UR sig nD τ) (specOf cfg) c : sProp (MT nD τ sig Unit (Elt F) ℕ (UR sig nD τ) ℕ)) ⊢ (dat V c).Φ 0

  hout : ∀ (V : Vals F) (c : Dev nD),
    (dat V c).Φ (Fin.last cfg.N) ⊢ (Pipeline.ΦA (U := UR sig nD τ) (specOf cfg) c : sProp (MT nD τ sig Unit (Elt F) ℕ (UR sig nD τ) ℕ))

end Cert.KernelIdeal.Hand

end
-- ==== Proof.KI.Chain.lean ====
import proofs.«427573_j12068858102168_3_alg».proof.Proof.KI.RegionProof
import proofs.«427573_j12068858102168_3_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev Regions (F : FTy → Type) [FloatOps F] := (p : Fin 7) → RegionProof F (cfgs p)

@[reducible] def regions (r0 : RegionProof F cfg0) (r1 : RegionProof F cfg1) (r2 : RegionProof F cfg2) (r3 : RegionProof F cfg3)
    (r4 : RegionProof F cfg4) (r5 : RegionProof F cfg5) (r6 : RegionProof F cfg6) : Regions F
  | 0 => r0 | 1 => r1 | 2 => r2 | 3 => r3 | 4 => r4 | 5 => r5 | 6 => r6

theorem launch : ∀ p : Fin 7, Pipeline.LaunchFacts (nD := nD) (τ := τ) cfgs p
  | 0 => launch0 | 1 => launch1 | 2 => launch2 | 3 => launch3 | 4 => launch4 | 5 => launch5 | 6 => launch6

abbrev Conts (F : FTy → Type) := Dev nD → Valuation τ sig (Elt F)

abbrev atTc (W : Conts F) : Vals F := fun c b => W c (Proc.devRef .tc b)

variable (m : (ℓ : Loc nD τ sig) → Buf (Elt F) ℓ) (ρ : Dev nD → PrngReg) (rps : Regions F)

/-- Region `p` entered at `W` leaves its windows' arrays at their final contents and every other buffer as entered. -/
def exitW (p : Fin 7) (W : Conts F) (c : Dev nD) : Valuation τ sig (Elt F) :=
  Pipeline.withArrays (cfgs p).spec c (W c) fun w => ((rps p).dat (atTc W) c).arrAt w (cfgs p).N

section
variable {rps} (p : Fin 7) {W : Conts F} (c : Dev nD)

theorem exitW_arr (w : Fin (cfgs p).W) :
    exitW rps p W c (Proc.devRef .tc (Pipeline.arrRef (cfgs p).spec w)) = ((rps p).dat (atTc W) c).arrAt w (cfgs p).N :=
  Pipeline.withArrays_arr _ (launch p).win.arr_inj c _ _ w

variable {p} in
theorem exitW_of_ne (b : Ref sig .tc) (hb : ∀ w, Pipeline.arrRef (cfgs p).spec w ≠ b) :
    exitW rps p W c (Proc.devRef .tc b) = W c (Proc.devRef .tc b) :=
  Pipeline.withArrays_of_ne _ c _ _ b hb

theorem exitW_in (w : Fin (cfgs p).W) (hw : ((cfgs p).win w).isOut = false) :
    exitW rps p W c (Proc.devRef .tc (Pipeline.arrRef (cfgs p).spec w)) = W c (Proc.devRef .tc (Pipeline.arrRef (cfgs p).spec w)) :=
  (exitW_arr p c w).trans ((((rps p).dat (atTc W) c).arrAt_in w hw _).trans ((rps p).A_eq (atTc W) c w))

end

section
variable {V : Valuation τ sig (Elt F)} {r : Ref sig .tc}

theorem ops2_of (h : r ∉ hostOps2_W) : StableHlo.after hostOps2 V (Proc.devRef .tc r) = V (Proc.devRef .tc r) :=
  StableHlo.after_of_writes_sub _ _ hostOps2_writes h
theorem ops4_of (h : r ∉ hostOps4_W) : StableHlo.after hostOps4 V (Proc.devRef .tc r) = V (Proc.devRef .tc r) :=
  StableHlo.after_of_writes_sub _ _ hostOps4_writes h
theorem ops7_of (h : r ∉ hostOps7_W) : StableHlo.after hostOps7 V (Proc.devRef .tc r) = V (Proc.devRef .tc r) :=
  StableHlo.after_of_writes_sub _ _ hostOps7_writes h

end

abbrev W8 : Conts F := exitW rps 0 (Gen.V7 m)
abbrev W9 : Conts F := exitW rps 1 (W8 m rps)
abbrev W10 : Conts F := fun c => StableHlo.after hostOps2 (W9 m rps c)
abbrev W11 : Conts F := exitW rps 2 (W10 m rps)
abbrev W12 : Conts F := exitW rps 3 (W11 m rps)
abbrev W13 : Conts F := fun c => StableHlo.after hostOps4 (W12 m rps c)
abbrev W14 : Conts F := exitW rps 4 (W13 m rps)
abbrev W15 : Conts F := exitW rps 5 (W14 m rps)
abbrev W16 : Conts F := exitW rps 6 (W15 m rps)
abbrev W17 : Conts F := fun c => StableHlo.after hostOps7 (W16 m rps c)

abbrev V7 : Vals F := atTc (Gen.V7 m)
abbrev V8 : Vals F := atTc (W8 m rps)
abbrev V10 : Vals F := atTc (W10 m rps)
abbrev V11 : Vals F := atTc (W11 m rps)
abbrev V13 : Vals F := atTc (W13 m rps)
abbrev V14 : Vals F := atTc (W14 m rps)
abbrev V15 : Vals F := atTc (W15 m rps)

/-- A reference no host stretch writes and no region has as a window's array ends as launched. -/
theorem W17_kept (c : Dev nD) (r : Ref sig .tc)
    (h : (r ∉ hostOps0_W ∧ r ∉ hostOps0_1_W ∧ r ∉ hostOps0_2_W ∧ r ∉ hostOps0_3_W ∧ r ∉ hostOps0_4_W ∧ r ∉ hostOps0_5_W
      ∧ r ∉ hostOps0_6_W ∧ r ∉ hostOps2_W ∧ r ∉ hostOps4_W ∧ r ∉ hostOps7_W) ∧ ∀ p w, Pipeline.arrRef (cfgs p).spec w ≠ r) :
    W17 m rps c (Proc.devRef .tc r) = m ((c : Thread nD τ).loc r) :=
  let ⟨⟨h0, h1, h2, h3, h4, h5, h6, h9, h12, h16⟩, ha⟩ := h
  (ops7_of h16).trans <| (exitW_of_ne c r (ha 6)).trans <| (exitW_of_ne c r (ha 5)).trans <| (exitW_of_ne c r (ha 4)).trans <|
  (ops4_of h12).trans <| (exitW_of_ne c r (ha 3)).trans <| (exitW_of_ne c r (ha 2)).trans <| (ops2_of h9).trans <|
  (exitW_of_ne c r (ha 1)).trans <| (exitW_of_ne c r (ha 0)).trans <| (V7_of m c r h6).trans <| (V6_of m c r h5).trans <|
  (V5_of m c r h4).trans <| (V4_of m c r h3).trans <| (V3_of m c r h2).trans <| (V2_of m c r h1).trans <| (V1_of m c r h0).trans rfl

/-- The contents region `p` is entered from. -/
def Win : Fin 7 → Conts F
  | 0 => Gen.V7 m | 1 => W8 m rps | 2 => W10 m rps | 3 => W11 m rps | 4 => W13 m rps | 5 => W14 m rps | 6 => W15 m rps

abbrev pdats (p : Fin 7) (c : Dev nD) : Dat τ (Elt F) Unit ℕ (UR sig nD τ) ℕ (Pipeline.pin (pcfgs (F := F)) adm p) c :=
  (rps p).dat (atTc (Win m rps p)) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Conts F) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W17 m rps c) ∗ ∃ r, prngReg c r)

set_option backward.isDefEq.respectTransparency.types false in

def reg (p : Fin 7) : Pipeline.RegionSeg (pcfgs (F := F)) adm (pdats m rps) () defs₀ 𝒱₀ L lv p where
  win := (launch p).win.to₀
  block_pos := (launch p).block_pos
  stage_whole := (launch p).stage_whole
  K := PEmpty
  osem k := k.elim
  ho := Pipeline.OwnSemFacts.none _
  hbody c := ((rps p).body _ c).loose
  hwaits := Pipeline.hwaits_of_owed_zero _ _ _ _ L lv p fun c t => (rps p).owed_eq _ c t
  pre c := iprop(StableHlo.held (c : Thread nD τ) (Pipeline.ucRefs τ sig) (Win m rps p c) ∗ R c)
  post c := iprop(StableHlo.held (c : Thread nD τ) (Pipeline.ucRefs τ sig) (exitW rps p (Win m rps p) c) ∗ R c)
  X c := iprop(∃ r, prngReg c r)
  Y c := iprop(∃ r, prngReg c r)
  Z c := Pipeline.unscopedRest (Ix := Unit) (Name := ℕ) (U := UR sig nD τ) (Lvl := ℕ) (cfgs p).spec c (atTc (Win m rps p) c)
  hentry c := by
    rw [Pipeline.ownSems0_none]
    have hsplit := Pipeline.arrays_of_unscopedBufs (p := p) (pcfgs (F := F)) adm (pdats m rps) (launch p).win (launch p).arr_whole c
      ((pdats m rps p c).share_full ((rps p).q_eq _ c)) (atTc (Win m rps p) c) ((rps p).A_eq _ c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr
      · ipureintro; intro x _
        have hx : x ∈ (pdats m rps p c).recorded 0 := by rw [(rps p).rec_eq]; exact Set.mem_univ x
        exact Or.inl hx
      have ho : (pdats m rps p c).owed 0 = 0 := (rps p).owed_eq _ c 0
      rw [ho]
      iexact HO
    isplitl [Hp]; · iexact Hp
    iexact Hrest
  hin c := by
    iintro ⟨Hp, -, Hr⟩
    iapply ((rps p).hin _ c)
    unfold Pipeline.ΦA
    isplitl [Hr]; · iexact Hr
    iexact Hp
  hout c := by
    rw [Pipeline.ownSems0_none]
    iintro H
    ihave H' := ((rps p).hout _ c) $$ H
    unfold Pipeline.ΦA
    icases H' with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      (launch p).win (launch p).arr_whole c (pdats m rps) ((pdats m rps p c).share_full ((rps p).q_eq _ c))
      (atTc (Win m rps p) c) (atTc (exitW rps p (Win m rps p)) c) ((pdats m rps p c).arrAt · (cfgs p).N) (fun w => (exitW_arr p c w).symm)
      (fun b hb => exitW_of_ne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    have ho : (pdats m rps p c).owed (Fin.last (Pipeline.pin (pcfgs (F := F)) adm p).N) = 0 := (rps p).owed_eq _ c _
    rw [ho]
    icases HO with ⟨%W, -, HO⟩; iexists W; iexact HO

abbrev segs : List (Pipeline.Seg (pcfgs (F := F)) adm (pdats m rps) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .host (hseg hostOps0_3 hostOps0_3_sub hostOps0_3_fresh (Gen.V3 m)),
    .host (hseg hostOps0_4 hostOps0_4_sub hostOps0_4_fresh (Gen.V4 m)),
    .host (hseg hostOps0_5 hostOps0_5_sub hostOps0_5_fresh (Gen.V5 m)),
    .host (hseg hostOps0_6 hostOps0_6_sub hostOps0_6_fresh (Gen.V6 m)),
    .region (reg m rps 0), .region (reg m rps 1),
    .host (hseg hostOps2 hostOps2_sub hostOps2_fresh (W9 m rps)),
    .region (reg m rps 2), .region (reg m rps 3),
    .host (hseg hostOps4 hostOps4_sub hostOps4_fresh (W12 m rps)),
    .region (reg m rps 4), .region (reg m rps 5), .region (reg m rps 6),
    .host (hseg hostOps7 hostOps7_sub hostOps7_fresh (W16 m rps)) ]
theorem main_run (c : Dev nD) : main (F := F) c = Pipeline.Seg.run (segs m rps) := (main_chain c).trans (by chain_rfl)

set_option backward.isDefEq.respectTransparency.types false in

theorem run_main : θ_run defs (onTc (τ := τ) (main (F := F))) ⟨m, fun _ => 0, ρ⟩ (fun r => ∀ c : Dev nD, ∀ b ∈ Pipeline.ucRefs τ sig,
      r.2.mem ((c : Thread nD τ).1, b) = W17 m rps c b) :=
  Pipeline.θ_run_regions_kit (pcfgs (F := F)) adm (pdats m rps) () cellOf_inj emb₁ defs₀ 𝒱₀ L lv m ρ main (segs m rps)
    (fun c Q => by rw [main_run m rps c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m rps)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m rps c b)
    (hfin := fun c s' => by
      iintro ⟨⟨Hh, -⟩, HSI⟩
      unfold StableHlo.held
      imodintro
      iapply (pointsTo_read_all (Pipeline.ucRefs τ sig) (fun b => (((c : Thread nD τ)).1, b)) (W17 m rps c) s')
      isplitl [Hh] <;> iassumption)
    (hQ := fun s h => h)

include rps in

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W17_kept m rps c main_arg0 (by decide)),
     (h c _ (mem_uc main_arg1 (by decide))).trans (W17_kept m rps c main_arg1 (by decide)),
     (h c _ (mem_uc main_arg2 (by decide))).trans (W17_kept m rps c main_arg2 (by decide))⟩) (run_main m ρ rps)

end Cert.KernelIdeal.Hand

end
-- ==== Proof.KI.ChainVals.lean ====
import proofs.«427573_j12068858102168_3_alg».proof.Proof.KI.Chain
import Idealize.ShloMosaic.Lib.StableHlo.Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after_cons after_nil)
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)
variable (rps : Regions F)

theorem slicesE : ∀ r : Fin 2, S2x800000.Slices ![r.val, 0] S1x800000 := by decide
theorem slicesW : ∀ l : Fin 3, S3x64x64.Slices ![l.val, 0, 0] S1x64x64 := by decide

/-- Row `r` of an edge list followed by the self loops. -/
def edgeRow (r : Fin 2) (A : (⟨S2x800000, .i32⟩ : BufTy).Contents (Elt F)) : (⟨S850000, .i32⟩ : BufTy).Contents (Elt F) :=
  concatenate S850000 0 [⟨S800000, shapeCast S800000 (extractStridedSlice S1x800000 ![r.val, 0] A (slicesE r)) shapeCasts_S1x800000_S800000⟩, ⟨S50000, iotaInDim S50000 32 0⟩] concatenates_S800000_S50000_S850000_d0
/-- The same padded to 851968 entries with node 51199. -/
def edgePad (r : Fin 2) (A : (⟨S2x800000, .i32⟩ : BufTy).Contents (Elt F)) : (⟨S851968, .i32⟩ : BufTy).Contents (Elt F) :=
  pad S851968 ![0] ![1968] ![0] (edgeRow r A) (constantI S_ 32 51199#32) pads_S850000_S851968_019680 h_S_
/-- Slice `l` of stacked weights as a matrix. -/
def wMat (l : Fin 3) (A : (⟨S3x64x64, .f32⟩ : BufTy).Contents (Elt F)) : (⟨S64x64, .f32⟩ : BufTy).Contents (Elt F) :=
  shapeCast S64x64 (extractStridedSlice S1x64x64 ![l.val, 0, 0] A (slicesW l)) shapeCasts_S1x64x64_S64x64

section Stretches
variable (V : Valuation τ sig (Elt F))

theorem hostOps0_main_v3 : StableHlo.after hostOps0 V (Proc.devRef .tc main_v3)
    = edgeRow 0 (V (Proc.devRef .tc main_arg1)) := by
  after_results <;> rfl
theorem hostOps0_main_v6 : StableHlo.after hostOps0 V (Proc.devRef .tc main_v6)
    = edgeRow 1 (V (Proc.devRef .tc main_arg1)) := by
  after_results <;> rfl
theorem hostOps0_main_c : StableHlo.after hostOps0 V (Proc.devRef .tc main_c) = constantI S_ 32 51199#32 := by
  after_results <;> rfl
theorem hostOps0_1_main_v7 : StableHlo.after hostOps0_1 V (Proc.devRef .tc main_v7)
    = pad S851968 ![0] ![1968] ![0] (V (Proc.devRef .tc main_v3)) (V (Proc.devRef .tc main_c)) pads_S850000_S851968_019680 h_S_ := by
  after_results <;> rfl
theorem hostOps0_2_main_c_0 : StableHlo.after hostOps0_2 V (Proc.devRef .tc main_c_0) = constantI S_ 32 51199#32 := by
  after_results <;> rfl
theorem hostOps0_3_main_v8 : StableHlo.after hostOps0_3 V (Proc.devRef .tc main_v8)
    = pad S851968 ![0] ![1968] ![0] (V (Proc.devRef .tc main_v6)) (V (Proc.devRef .tc main_c_0)) pads_S850000_S851968_019680 h_S_ := by
  after_results <;> rfl
theorem hostOps0_4_main_cst : StableHlo.after hostOps0_4 V (Proc.devRef .tc main_cst) = constant S_ .f32 0x00000000#32 := by
  after_results <;> rfl
theorem hostOps0_5_main_v9 : StableHlo.after hostOps0_5 V (Proc.devRef .tc main_v9)
    = pad S51200x64 ![0, 0] ![1200, 0] ![0, 0] (V (Proc.devRef .tc main_arg0)) (V (Proc.devRef .tc main_cst)) pads_S50000x64_S51200x64_012000_000 h_S_ := by
  after_results <;> rfl
theorem hostOps0_6_main_v11 : StableHlo.after hostOps0_6 V (Proc.devRef .tc main_v11)
    = wMat 0 (V (Proc.devRef .tc main_arg2)) := by
  after_results <;> rfl
theorem hostOps2_main_v15 : StableHlo.after hostOps2 V (Proc.devRef .tc main_v15)
    = wMat 1 (V (Proc.devRef .tc main_arg2)) := by
  after_results <;> rfl
theorem hostOps4_main_v19 : StableHlo.after hostOps4 V (Proc.devRef .tc main_v19)
    = wMat 2 (V (Proc.devRef .tc main_arg2)) := by
  after_results <;> rfl
theorem hostOps7_main_v23 : StableHlo.after hostOps7 V (Proc.devRef .tc main_v23)
    = extractStridedSlice S50000x64 ![0, 0] (V (Proc.devRef .tc main_v22)) slices_S51200x64_S50000x64_0_0 := by
  after_results <;> rfl

end Stretches

def xPad (c : Dev nD) : (⟨S51200x64, .f32⟩ : BufTy).Contents (Elt F) :=
  pad S51200x64 ![0, 0] ![1200, 0] ![0, 0] (m ((c : Thread nD τ).loc main_arg0)) (constant S_ .f32 0x00000000#32) pads_S50000x64_S51200x64_012000_000 h_S_
def srcPad (c : Dev nD) : (⟨S851968, .i32⟩ : BufTy).Contents (Elt F) := edgePad 0 (m ((c : Thread nD τ).loc main_arg1))
def dstPad (c : Dev nD) : (⟨S851968, .i32⟩ : BufTy).Contents (Elt F) := edgePad 1 (m ((c : Thread nD τ).loc main_arg1))
/-- Layer `l`'s weight matrix. -/
def wMatAt (l : Fin 3) (c : Dev nD) : (⟨S64x64, .f32⟩ : BufTy).Contents (Elt F) := wMat l (m ((c : Thread nD τ).loc main_arg2))

theorem W7_main_v7 (c : Dev nD) : Gen.V7 m c (Proc.devRef .tc main_v7) = srcPad m c := by
  refine ((V7_of m c main_v7 (by decide)).trans <| (V6_of m c main_v7 (by decide)).trans <| (V5_of m c main_v7 (by decide)).trans <|
    (V4_of m c main_v7 (by decide)).trans <| (V3_of m c main_v7 (by decide)).trans <| hostOps0_1_main_v7 (V1 m c)).trans ?_
  rw [show V1 m c (Proc.devRef .tc main_v3) = _ from hostOps0_main_v3 (V0 m c), show V1 m c (Proc.devRef .tc main_c) = _ from hostOps0_main_c (V0 m c)]
  rfl
theorem W7_main_v8 (c : Dev nD) : Gen.V7 m c (Proc.devRef .tc main_v8) = dstPad m c := by
  refine ((V7_of m c main_v8 (by decide)).trans <| (V6_of m c main_v8 (by decide)).trans <| (V5_of m c main_v8 (by decide)).trans <|
    hostOps0_3_main_v8 (V3 m c)).trans ?_
  rw [show V3 m c (Proc.devRef .tc main_v6) = _ from ((V3_of m c main_v6 (by decide)).trans <| (V2_of m c main_v6 (by decide)).trans <|
      hostOps0_main_v6 (V0 m c)),
    show V3 m c (Proc.devRef .tc main_c_0) = _ from hostOps0_2_main_c_0 (V2 m c)]
  rfl
theorem W7_main_v9 (c : Dev nD) : Gen.V7 m c (Proc.devRef .tc main_v9) = xPad m c := by
  refine ((V7_of m c main_v9 (by decide)).trans <| hostOps0_5_main_v9 (V5 m c)).trans ?_
  rw [show V5 m c (Proc.devRef .tc main_arg0) = m ((c : Thread nD τ).loc main_arg0) from ((V5_of m c main_arg0 (by decide)).trans <|
      (V4_of m c main_arg0 (by decide)).trans <| (V3_of m c main_arg0 (by decide)).trans <| (V2_of m c main_arg0 (by decide)).trans <|
      (V1_of m c main_arg0 (by decide)).trans rfl),
    show V5 m c (Proc.devRef .tc main_cst) = _ from hostOps0_4_main_cst (V4 m c)]
  rfl

theorem V6_main_arg2 (c : Dev nD) : V6 m c (Proc.devRef .tc main_arg2) = m ((c : Thread nD τ).loc main_arg2) :=
  (V6_of m c main_arg2 (by decide)).trans <| (V5_of m c main_arg2 (by decide)).trans <| (V4_of m c main_arg2 (by decide)).trans <|
  (V3_of m c main_arg2 (by decide)).trans <| (V2_of m c main_arg2 (by decide)).trans <| (V1_of m c main_arg2 (by decide)).trans rfl
theorem W9_main_arg2 (c : Dev nD) : W9 m rps c (Proc.devRef .tc main_arg2) = m ((c : Thread nD τ).loc main_arg2) :=
  (exitW_of_ne c main_arg2 (by decide)).trans <| (exitW_of_ne c main_arg2 (by decide)).trans <|
  (V7_of m c main_arg2 (by decide)).trans <| V6_main_arg2 m c
theorem W12_main_arg2 (c : Dev nD) : W12 m rps c (Proc.devRef .tc main_arg2) = m ((c : Thread nD τ).loc main_arg2) :=
  (exitW_of_ne c main_arg2 (by decide)).trans <| (exitW_of_ne c main_arg2 (by decide)).trans <|
  (ops2_of (by decide)).trans <| W9_main_arg2 m rps c

theorem W7_main_v11 (c : Dev nD) : Gen.V7 m c (Proc.devRef .tc main_v11) = wMatAt m 0 c := by
  refine (hostOps0_6_main_v11 (V6 m c)).trans ?_
  rw [V6_main_arg2]
  rfl
theorem W10_main_v15 (c : Dev nD) : W10 m rps c (Proc.devRef .tc main_v15) = wMatAt m 1 c := by
  refine (hostOps2_main_v15 (W9 m rps c)).trans ?_
  rw [W9_main_arg2]
  rfl
theorem W13_main_v19 (c : Dev nD) : W13 m rps c (Proc.devRef .tc main_v19) = wMatAt m 2 c := by
  refine (hostOps4_main_v19 (W12 m rps c)).trans ?_
  rw [W12_main_arg2]
  rfl

theorem V7_main_v9 (c : Dev nD) : V7 m c main_v9 = xPad m c := W7_main_v9 m c
theorem V7_main_v11 (c : Dev nD) : V7 m c main_v11 = wMatAt m 0 c := W7_main_v11 m c

theorem V8_main_v7 (c : Dev nD) : V8 m rps c main_v7 = srcPad m c :=
  (exitW_of_ne c main_v7 (by decide)).trans <| W7_main_v7 m c
theorem V8_main_v12 (c : Dev nD) : V8 m rps c main_v12 = ((rps 0).dat (V7 m) c).arrAt 2 cfg0.N := exitW_arr 0 c 2

theorem V10_main_v13 (c : Dev nD) : V10 m rps c main_v13 = ((rps 1).dat (V8 m rps) c).arrAt 2 cfg1.N :=
  (ops2_of (by decide)).trans <| exitW_arr 1 c 2
theorem V10_main_v8 (c : Dev nD) : V10 m rps c main_v8 = dstPad m c :=
  (ops2_of (by decide)).trans <| (exitW_of_ne c main_v8 (by decide)).trans <| (exitW_of_ne c main_v8 (by decide)).trans <| W7_main_v8 m c
theorem V10_main_v15 (c : Dev nD) : V10 m rps c main_v15 = wMatAt m 1 c := W10_main_v15 m rps c

theorem V11_main_v7 (c : Dev nD) : V11 m rps c main_v7 = srcPad m c :=
  (exitW_of_ne c main_v7 (by decide)).trans <| (ops2_of (by decide)).trans <| (exitW_in 1 c 0 rfl).trans <| V8_main_v7 m rps c
theorem V11_main_v16_0 (c : Dev nD) : V11 m rps c main_v16_0 = ((rps 2).dat (V10 m rps) c).arrAt 3 cfg2.N := exitW_arr 2 c 3

theorem V13_main_v17 (c : Dev nD) : V13 m rps c main_v17 = ((rps 3).dat (V11 m rps) c).arrAt 2 cfg3.N :=
  (ops4_of (by decide)).trans <| exitW_arr 3 c 2
theorem V13_main_v8 (c : Dev nD) : V13 m rps c main_v8 = dstPad m c :=
  (ops4_of (by decide)).trans <| (exitW_of_ne c main_v8 (by decide)).trans <| (exitW_in 2 c 1 rfl).trans <| V10_main_v8 m rps c
theorem V13_main_v16_1 (c : Dev nD) : V13 m rps c main_v16_1 = ((rps 2).dat (V10 m rps) c).arrAt 4 cfg2.N :=
  (ops4_of (by decide)).trans <| (exitW_of_ne c main_v16_1 (by decide)).trans <| exitW_arr 2 c 4
theorem V13_main_v19 (c : Dev nD) : V13 m rps c main_v19 = wMatAt m 2 c := W13_main_v19 m rps c

theorem V14_main_v7 (c : Dev nD) : V14 m rps c main_v7 = srcPad m c :=
  (exitW_of_ne c main_v7 (by decide)).trans <| (ops4_of (by decide)).trans <| (exitW_in 3 c 0 rfl).trans <| V11_main_v7 m rps c
theorem V14_main_v20 (c : Dev nD) : V14 m rps c main_v20 = ((rps 4).dat (V13 m rps) c).arrAt 4 cfg4.N := exitW_arr 4 c 4

theorem V15_main_v21 (c : Dev nD) : V15 m rps c main_v21 = ((rps 5).dat (V14 m rps) c).arrAt 2 cfg5.N := exitW_arr 5 c 2
theorem V15_main_v8 (c : Dev nD) : V15 m rps c main_v8 = dstPad m c :=
  (exitW_of_ne c main_v8 (by decide)).trans <| (exitW_in 4 c 1 rfl).trans <| V13_main_v8 m rps c
theorem V15_main_v16_1 (c : Dev nD) : V15 m rps c main_v16_1 = ((rps 2).dat (V10 m rps) c).arrAt 4 cfg2.N :=
  (exitW_of_ne c main_v16_1 (by decide)).trans <| (exitW_in 4 c 2 rfl).trans <| V13_main_v16_1 m rps c

theorem W16_main_v22 (c : Dev nD) : W16 m rps c (Proc.devRef .tc main_v22) = ((rps 6).dat (V15 m rps) c).arrAt 3 cfg6.N := exitW_arr 6 c 3
theorem W17_main_v23 (c : Dev nD) : W17 m rps c (Proc.devRef .tc main_v23)
    = extractStridedSlice S50000x64 ![0, 0] (W16 m rps c (Proc.devRef .tc main_v22)) slices_S51200x64_S50000x64_0_0 :=
  hostOps7_main_v23 (W16 m rps c)

end Cert.KernelIdeal.Hand

end
-- ==== Proof.KI.R0Data.lean ====
import proofs.«427573_j12068858102168_3_alg».proof.Proof.KI.RegionProof
import proofs.«427573_j12068858102168_3_alg».proof.Proof.Gen.KernelIdeal.Launch
import proofs.«427573_j12068858102168_3_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : Vals F)

noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2048x64 := Rect.unit (s := S2048x64) ![0, 0] S2048x64.size inb_S2048x64_S2048x64_0_0
abbrev r0_w : Rect S64x64 := Rect.unit (s := S64x64) ![0, 0] S64x64.size inb_S64x64_S64x64_0_0

def out0_2 (x0 : Vec F S2048x64 .f32) (x1 : Vec F S64x64 .f32) : Vec F S2048x64 .bf16 :=
  View.canon [⟨r0_x, k0_pay1 (View.ld x0 r0_x) (View.ld x1 r0_w)⟩]

theorem cover0_2 (p0 : Vec F S2048x64 .bf16) (y : S2048x64.Idx) :
    ∃ pc ∈ ([⟨r0_x, p0⟩] : List (View.Piece (Elt F) S2048x64 .bf16)), y ∈ pc.1.set :=
  View.cover_of_tiled [⟨r0_x, p0⟩] S2048x64.size (by rfl) y

set_option maxHeartbeats 1000000 in
theorem sound_kernel0 (c : Dev nD) (E : Set ℕ) (i : grid0.Coords) (arg1 : Memref sig .tc .vmem S2048x64 .f32) (harg1 : arg1.IsWhole)
    (arg2 : Memref sig .tc .vmem S64x64 .f32) (harg2 : arg2.IsWhole) (arg3 : Memref sig .tc .vmem S2048x64 .bf16) (harg3 : arg3.IsWhole)
    (x0 : Vec F S2048x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

end Region0

end Cert.KernelIdeal.Hand

end
-- ==== Proof.KI.R0.lean ====
import proofs.«427573_j12068858102168_3_alg».proof.Proof.KI.RegionProof
import proofs.«427573_j12068858102168_3_alg».proof.Proof.KI.R0Data
import proofs.«427573_j12068858102168_3_alg».proof.Proof.Gen.KernelIdeal.Launch
import proofs.«427573_j12068858102168_3_alg».proof.Proof.Gen.KernelIdeal.Skeleton
import Idealize.ShloMosaic.Lib.Pipeline.Kit
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev stg0_0 (t : Fin cfg0.N) := (cfg0.win 0).stage (cfg0.slots t 0)
abbrev stg0_1 (t : Fin cfg0.N) := (cfg0.win 1).stage (cfg0.slots t 1)
abbrev stg0_2 (t : Fin cfg0.N) := (cfg0.win 2).stage (cfg0.slots t 2)

abbrev body0 (t : Fin cfg0.N) : Prog (TpuEff nD τ sig (Elt F) Λ₀ .tc) PUnit :=
  cc0_kernel (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2))

section Region0
variable (V : Vals F)

def bodyPre0 (c : Dev nD) (t : Fin cfg0.N) : sProp 𝕄 :=
  iprop((dat0 V c).Φ t.castSucc ∗ (dat0 V c).owesAt () t.castSucc
    ∗ (∃ d, owns (c : Thread nD τ) (stg0_0 t) fullShare ((dat0 V c).before 0 t d))
    ∗ (∃ d, owns (c : Thread nD τ) (stg0_1 t) fullShare ((dat0 V c).before 1 t d))
    ∗ (∃ d, owns (c : Thread nD τ) (stg0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (stg0_0 t) fullShare ((dat0 V c).after 0 t)
    ∗ owns (c : Thread nD τ) (stg0_1 t) fullShare ((dat0 V c).after 1 t)
    ∗ owns (c : Thread nD τ) (stg0_2 t) fullShare ((dat0 V c).after 2 t))

theorem sound_body0 (c : Dev nD) (t : Fin cfg0.N) :
    bodyPre0 V c t ⊢ wp frame (wpE (defs₀ (F := F)) Variants.none c none) Set.univ (body0 t) (fun _ => bodyPost0 V c t) := by
  unfold bodyPre0 bodyPost0 body0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

def rp0 : RegionProof F cfg0 where
  dat := dat0
  A_eq V c w := A_eq0 V c w
  q_eq _ _ _ := rfl
  owed_eq _ _ _ := rfl
  rec_eq _ _ _ := rfl
  body V c := body_obligation0 V c
  hin _ _ := .rfl
  hout _ _ := .rfl

end Cert.KernelIdeal.Hand

end
-- ==== Proof.KI.R1Runs.lean ====
import proofs.«427573_j12068858102168_3_alg».proof.Proof.KI.RegionProof

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

noncomputable def iblk1 (V : Vals F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem liveAt1_0 (i : grid1.Coords) : cfg1.idle 0 i = false := rfl
theorem liveAt1_1 (i : grid1.Coords) : cfg1.idle 1 i = false := rfl

theorem idleAt1_2 (i : grid1.Coords) (h : ¬cond1_1 i) : cfg1.idle 2 i = true := by
  show (!(k1_cond2 i == 1#1)) = true
  rw [Bool.not_eq_true', beq_eq_false_iff_ne]; exact h

theorem liveAt1_2 (i : grid1.Coords) (h : cond1_1 i) : cfg1.idle 2 i = false := by
  show (!(k1_cond2 i == 1#1)) = false
  rw [Bool.not_eq_false', beq_iff_eq]; exact h

abbrev ms1_0 (t : Fin cfg1.N) : Memref sig .tc .vmem S4096 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S51200x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x64 .bf16 := win1_2.stage (cfg1.slots t 2)
abbrev hs1_2 (t : Fin cfg1.N) : (ms1_2 t).IsWhole := hstage1_2 ((cfg1.slots t 2).cast nbuf1_2)

abbrev scM1_0 : Memref sig .tc .vmem S4096x64 .f32 := Memref.whole cc1_scratch0

abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA (U := UR sig nD τ) spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

end Cert.KernelIdeal.Hand

end
-- ==== Proof.KI.R1Run.lean ====
import proofs.«427573_j12068858102168_3_alg».proof.Proof.KI.R1Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

theorem hzm1 : (![0, 0] : Fin S4096x64.rank → Nat) = fun _ => 0 := by
  funext a; fin_cases a <;> rfl
theorem hzv1 : (![0] : Fin S4096.rank → Nat) = fun _ => 0 := by
  funext a; fin_cases a; rfl

/-- One reduction step: the one-hot product of the step's slice of `xf`, added to `acc`. -/
abbrev gstep (i : grid1.Coords) (x0 : Vec F S4096 .i32) (xf : Vec F S51200x64 .bf16) (acc : Vec F S4096x64 .f32) : Vec F S4096x64 .f32 :=
  k1_pay2 i x0 (View.ld xf (Rect.unit (s := S51200x64) (k1_off1 i) S512x64.size (k1_off1_inb i))) acc

section
variable {c : Dev nD} {i : grid1.Coords} {arg2 : Memref sig .tc .vmem S4096 .i32} {harg2 : arg2.IsWhole} {arg3 : Memref sig .tc .vmem S51200x64 .bf16} {harg3 : arg3.IsWhole} {arg4 : Memref sig .tc .vmem S4096x64 .bf16} {harg4 : arg4.IsWhole} {arg5 : Memref sig .tc .vmem S4096x64 .f32} {harg5 : arg5.IsWhole}
  {x0 : Vec F S4096 .i32} {xf : Vec F S51200x64 .bf16} {xs0 : Vec F S4096x64 .f32}
  {D0 D1 D2 : Type} {g : D2 → Vec F S4096x64 .bf16} {R G O : sProp (MT nD τ sig Unit (Elt F) ℕ (UR sig nD τ) ℕ)} {a : Vec F S4096x64 .f32}

/-- The body at a first reduction step, framed: the accumulator is taken at anything and left at the step from zero. -/
theorem step1_A (hcA : cond1_0 i) (hcB : ¬cond1_1 i) (ha : a = gstep i x0 xf (k1_pay1 (F := F))) :
    iprop(iprop(iprop((∃ d, owns (c : Thread nD τ) arg5 fullShare d) ∗ R) ∗ G) ∗ O ∗ (∃ d : D0, owns (c : Thread nD τ) arg2 fullShare x0) ∗ (∃ d : D1, owns (c : Thread nD τ) arg3 fullShare xf) ∗ (∃ d : D2, owns (c : Thread nD τ) arg4 fullShare (g d)))
      ⊢ wp frame (wpE (defs₀ (F := F)) Variants.none c none) Set.univ (cc1_kernel i arg2 harg2 arg3 harg3 arg4 harg4 arg5 harg5) (fun _ => iprop(iprop(iprop(owns (c : Thread nD τ) arg5 fullShare a ∗ R) ∗ G) ∗ O ∗ owns (c : Thread nD τ) arg2 fullShare x0 ∗ owns (c : Thread nD τ) arg3 fullShare xf ∗ (∃ d : D2, owns (c : Thread nD τ) arg4 fullShare (g d)))) := by
  subst ha
  simp only [cc1_kernel_eq_skeleton]; unfold cc1_kernel_skel
  unfold owns
  iintro ⟨⟨⟨⟨%ds0, %fs0, -, HS0⟩, Hr⟩, Hg⟩, Ho, ⟨%d0, %f0, %hf0, H0⟩, ⟨%df, %ff, %hff, Hf⟩, ⟨%d2, %f2, %hf2, H2⟩⟩
  obtain rfl := harg2.eq_unread hf0; obtain rfl := harg3.eq_unread hff; obtain rfl := harg4.eq_unread hf2
  sl_exec (disch := first | exact hcA | exact hcB)
  sl_step
  iframe Hr Hg Ho
  isplitl [HS0]
  · iexists _; isplitr
    swap; · iexact HS0
    ipureintro
    refine (View.read_writes_eq_canon _ _ _ (View.cover_of_tiledL _ S4096x64.size ?_)).trans ?_
    · sl_kernel_rfl
    sl_unfold_words
    rw [View.canon_cons_unit_zero (S := S4096x64) hzm1, View.readCov_unit_zero (S := S4096x64) _ hzm1]
    simp only [View.readAt_eq_ld, harg2.read_unread, harg3.read_unread, View.ld_unit_zero (S := S4096) hzv1]
    try rfl
  isplitl [H0]
  · iexists _; isplitr; · ipureintro; exact harg2.read_unread _
    iexact H0
  isplitl [Hf]
  · iexists _; isplitr; · ipureintro; exact harg3.read_unread _
    iexact Hf
  iexists d2, _; isplitr; · ipureintro; exact harg4.read_unread _
  iexact H2

/-- At a middle step: the accumulator is taken at `xs0` and left one step further. -/
theorem step1_B (hcA : ¬cond1_0 i) (hcB : ¬cond1_1 i) (ha : a = gstep i x0 xf xs0) :
    iprop(iprop(iprop(owns (c : Thread nD τ) arg5 fullShare xs0 ∗ R) ∗ G) ∗ O ∗ (∃ d : D0, owns (c : Thread nD τ) arg2 fullShare x0) ∗ (∃ d : D1, owns (c : Thread nD τ) arg3 fullShare xf) ∗ (∃ d : D2, owns (c : Thread nD τ) arg4 fullShare (g d)))
      ⊢ wp frame (wpE (defs₀ (F := F)) Variants.none c none) Set.univ (cc1_kernel i arg2 harg2 arg3 harg3 arg4 harg4 arg5 harg5) (fun _ => iprop(iprop(iprop(owns (c : Thread nD τ) arg5 fullShare a ∗ R) ∗ G) ∗ O ∗ owns (c : Thread nD τ) arg2 fullShare x0 ∗ owns (c : Thread nD τ) arg3 fullShare xf ∗ (∃ d : D2, owns (c : Thread nD τ) arg4 fullShare (g d)))) := by
  subst ha
  simp only [cc1_kernel_eq_skeleton]; unfold cc1_kernel_skel
  unfold owns
  iintro ⟨⟨⟨⟨%fs0, %hfs0, HS0⟩, Hr⟩, Hg⟩, Ho, ⟨%d0, %f0, %hf0, H0⟩, ⟨%df, %ff, %hff, Hf⟩, ⟨%d2, %f2, %hf2, H2⟩⟩
  obtain rfl := harg2.eq_unread hf0; obtain rfl := harg3.eq_unread hff; obtain rfl := harg4.eq_unread hf2; obtain rfl := harg5.eq_unread hfs0
  sl_exec (disch := first | exact hcA | exact hcB)
  sl_step
  iframe Hr Hg Ho
  isplitl [HS0]
  · iexists _; isplitr
    swap; · iexact HS0
    ipureintro
    refine (View.read_writes_eq_canon _ _ _ (View.cover_of_tiledL _ S4096x64.size ?_)).trans ?_
    · sl_kernel_rfl
    sl_unfold_words
    rw [View.canon_unit_zero (S := S4096x64) hzm1]
    simp only [View.readAt_eq_ld, harg2.read_unread, harg3.read_unread, harg5.read_unread, View.ld_unit_zero (S := S4096) hzv1, View.ld_unit_zero (S := S4096x64) hzm1]
    try rfl
  isplitl [H0]
  · iexists _; isplitr; · ipureintro; exact harg2.read_unread _
    iexact H0
  isplitl [Hf]
  · iexists _; isplitr; · ipureintro; exact harg3.read_unread _
    iexact Hf
  iexists d2, _; isplitr; · ipureintro; exact harg4.read_unread _
  iexact H2

/-- At a last step: as at a middle step, and the output block is left at the accumulator rounded. -/
theorem step1_C (hcA : ¬cond1_0 i) (hcB : cond1_1 i) (ha : a = gstep i x0 xf xs0) :
    iprop(iprop(iprop(owns (c : Thread nD τ) arg5 fullShare xs0 ∗ R) ∗ G) ∗ O ∗ (∃ d : D0, owns (c : Thread nD τ) arg2 fullShare x0) ∗ (∃ d : D1, owns (c : Thread nD τ) arg3 fullShare xf) ∗ (∃ d : D2, owns (c : Thread nD τ) arg4 fullShare (g d)))
      ⊢ wp frame (wpE (defs₀ (F := F)) Variants.none c none) Set.univ (cc1_kernel i arg2 harg2 arg3 harg3 arg4 harg4 arg5 harg5) (fun _ => iprop(iprop(iprop(owns (c : Thread nD τ) arg5 fullShare a ∗ R) ∗ G) ∗ O ∗ owns (c : Thread nD τ) arg2 fullShare x0 ∗ owns (c : Thread nD τ) arg3 fullShare xf ∗ owns (c : Thread nD τ) arg4 fullShare (k1_pay3 a))) := by
  subst ha
  simp only [cc1_kernel_eq_skeleton]; unfold cc1_kernel_skel
  unfold owns
  iintro ⟨⟨⟨⟨%fs0, %hfs0, HS0⟩, Hr⟩, Hg⟩, Ho, ⟨%d0, %f0, %hf0, H0⟩, ⟨%df, %ff, %hff, Hf⟩, ⟨%d2, %f2, -, H2⟩⟩
  obtain rfl := harg2.eq_unread hf0; obtain rfl := harg3.eq_unread hff; obtain rfl := harg5.eq_unread hfs0
  sl_exec (disch := first | exact hcA | exact hcB)
  sl_step
  iframe Hr Hg Ho
  isplitl [HS0]
  · iexists _; isplitr
    swap; · iexact HS0
    ipureintro
    refine (View.read_writes_eq_canon _ _ _ (View.cover_of_tiledL _ S4096x64.size ?_)).trans ?_
    · sl_kernel_rfl
    sl_unfold_words
    rw [View.canon_unit_zero (S := S4096x64) hzm1]
    simp only [View.readAt_eq_ld, harg2.read_unread, harg3.read_unread, harg5.read_unread, View.ld_unit_zero (S := S4096) hzv1, View.ld_unit_zero (S := S4096x64) hzm1]
    try rfl
  isplitl [H0]
  · iexists _; isplitr; · ipureintro; exact harg2.read_unread _
    iexact H0
  isplitl [Hf]
  · iexists _; isplitr; · ipureintro; exact harg3.read_unread _
    iexact Hf
  iexists _; isplitr
  swap; · iexact H2
  ipureintro
  refine (View.read_writes_eq_canon _ _ _ (View.cover_of_tiledL _ S4096x64.size ?_)).trans ?_
  · sl_kernel_rfl
  sl_unfold_words
  rw [View.canon_unit_zero (S := S4096x64) hzm1, View.readCov_unit_zero (S := S4096x64) _ hzm1]
  simp only [View.readAt_eq_ld, harg2.read_unread, harg3.read_unread, harg5.read_unread, View.ld_unit_zero (S := S4096) hzv1, View.ld_unit_zero (S := S4096x64) hzm1]
  try rfl

end

theorem leaves_live {cfg : Pipeline.Cfg sig Λ₀} {c : Dev nD} (dat : Dat τ (Elt F) Unit ℕ (UR sig nD τ) ℕ cfg c) (w : Fin cfg.W) (t : Fin cfg.N)
    (hi : cfg.idle w (cfg.grid.coords t) = false) : dat.leavesExact w t = owns (c : Thread nD τ) ((cfg.win w).stage (cfg.slots t w)) fullShare (dat.after w t) := by
  unfold Dat.leavesExact; rw [hi]

/-- THE ACCUMULATION over the grid's points, the point's blocks given by number: a first reduction step starts from zero, a later one from what the point before left. -/
def gacc (x0 : Fin grid1.N → Vec F S4096 .i32) (xf : Fin grid1.N → Vec F S51200x64 .bf16) : (n : ℕ) → n < grid1.N → Vec F S4096x64 .f32
  | 0, hn => gstep (grid1.coords ⟨0, hn⟩) (x0 ⟨0, hn⟩) (xf ⟨0, hn⟩) (k1_pay1 (F := F))
  | n + 1, hn => gstep (grid1.coords ⟨n + 1, hn⟩) (x0 ⟨n + 1, hn⟩) (xf ⟨n + 1, hn⟩)
      (if (n + 1) % 100 = 0 then k1_pay1 (F := F) else gacc x0 xf n (Nat.lt_of_succ_lt hn))

section
variable (x0 : Fin grid1.N → Vec F S4096 .i32) (xf : Fin grid1.N → Vec F S51200x64 .bf16) (t : Fin grid1.N)

theorem gacc_first (h0 : t.val % 100 = 0) : gacc x0 xf t.val t.isLt = gstep (grid1.coords t) (x0 t) (xf t) (k1_pay1 (F := F)) := by
  obtain ⟨n, hn⟩ := t
  cases n with
  | zero => rfl
  | succ n => exact congrArg _ (if_pos h0)

theorem gacc_next (h0 : ¬t.val % 100 = 0) :
    gacc x0 xf t.val t.isLt = gstep (grid1.coords t) (x0 t) (xf t) (gacc x0 xf (t.val - 1) (Nat.lt_of_le_of_lt (Nat.sub_le _ _) t.isLt)) := by
  obtain ⟨n, hn⟩ := t
  cases n with
  | zero => exact absurd (Nat.zero_mod _) h0
  | succ n => exact congrArg _ (if_neg h0)

end

/-- The invariant before position `n`: `A` before the first point; afterwards the accumulator `m` at what the point before left, and the frame. -/
def gPhi (c : Dev nD) (A R : sProp 𝕄) (m : Memref sig .tc .vmem S4096x64 .f32) (acc : (n : ℕ) → n < grid1.N → Vec F S4096x64 .f32) : (n : ℕ) → n ≤ grid1.N → sProp 𝕄
  | 0, _ => A
  | n + 1, hn => iprop(iprop(owns (c : Thread nD τ) m fullShare (acc n hn) ∗ R) ∗ (∃ r, prngReg c r))

theorem gPhi_pos (c : Dev nD) (A R : sProp 𝕄) (m : Memref sig .tc .vmem S4096x64 .f32) (acc : (n : ℕ) → n < grid1.N → Vec F S4096x64 .f32) (n : ℕ) (h : n ≤ grid1.N) (hz : n ≠ 0) :
    gPhi c A R m acc n h = iprop(iprop(owns (c : Thread nD τ) m fullShare (acc (n - 1) (by omega)) ∗ R) ∗ (∃ r, prngReg c r)) := by
  cases n with
  | zero => exact absurd rfl hz
  | succ n => rfl

/-- At any position the invariant gives the accumulator at some contents. -/
theorem gPhi_some (c : Dev nD) (A R : sProp 𝕄) (m : Memref sig .tc .vmem S4096x64 .f32) (acc : (n : ℕ) → n < grid1.N → Vec F S4096x64 .f32)
    (hA : A = iprop(iprop(iprop((∃ d, owns (c : Thread nD τ) m fullShare d)) ∗ R) ∗ (∃ r, prngReg c r))) (n : ℕ) (h : n ≤ grid1.N) :
    gPhi c A R m acc n h ⊢ iprop(iprop(iprop((∃ d, owns (c : Thread nD τ) m fullShare d)) ∗ R) ∗ (∃ r, prngReg c r)) := by
  subst hA
  cases n with
  | zero => exact Entails.refl _
  | succ n =>
    show iprop(iprop(owns (c : Thread nD τ) m fullShare (acc n h) ∗ R) ∗ (∃ r, prngReg c r)) ⊢ _
    iintro ⟨⟨HS0, Hr⟩, Hg⟩
    iframe Hr Hg
    iexists _; iexact HS0

end Cert.KernelIdeal.Hand

end
-- ==== Proof.KI.R1Cond.lean ====
import proofs.«427573_j12068858102168_3_alg».proof.Proof.KI.R1Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

theorem gridLt1 (t : Fin cfg1.N) : t.val < 20800 := lt_of_lt_of_eq t.isLt (show cfg1.N = 20800 from N_1)

theorem gridStep1 (t : Fin cfg1.N) : (grid1.coords t 1).val = t.val % 100 := by
  show t.val / grid1.stride 1 % grid1.bound 1 = _
  rw [show grid1.stride 1 = 1 from by decide, show grid1.bound 1 = 100 from rfl, Nat.div_one]

theorem gridBlk1 (t : Fin cfg1.N) : (grid1.coords t 0).val = t.val / 100 := by
  show t.val / grid1.stride 0 % grid1.bound 0 = _
  rw [show grid1.stride 0 = 100 from by decide, show grid1.bound 0 = 208 from rfl]
  have h := gridLt1 t
  exact Nat.mod_eq_of_lt (by omega)

theorem outBlk1_row (t : Fin cfg1.N) : win1_2.index t (0 : Fin 2) = t.val / 100 := by
  show (BitVec.ofNat 32 (grid1.coords t 0).val).toNat = _
  rw [BitVec.toNat_ofNat, gridBlk1]
  have h := gridLt1 t
  exact Nat.mod_eq_of_lt (by omega)

theorem outBlk1_col (t : Fin cfg1.N) : win1_2.index t (1 : Fin 2) = 0 := rfl

theorem stepCond1_0 : ∀ k : Fin 100,
    (Scalar.cmpi .ne (Scalar.extui (Scalar.cmpi .eq (BitVec.ofNat 32 k.val) 0#32)) 0#32) = 1#1 ↔ k.val = 0 := by decide

theorem stepCond1_1 : ∀ k : Fin 100,
    (Scalar.cmpi .ne (Scalar.extui (Scalar.cmpi .eq (BitVec.ofNat 32 k.val) 99#32)) 0#32) = 1#1 ↔ k.val = 99 := by decide

theorem hcond1_0 : ∀ t : Fin cfg1.N, cond1_0 (grid1.coords t) ↔ t.val % 100 = 0 := fun t => by
  show (Scalar.cmpi .ne (Scalar.extui (Scalar.cmpi .eq (BitVec.ofNat 32 (grid1.coords t 1).val) 0#32)) 0#32) = 1#1 ↔ _
  rw [gridStep1 t]
  exact stepCond1_0 ⟨t.val % 100, Nat.mod_lt _ (by decide)⟩

theorem hcond1_1 : ∀ t : Fin cfg1.N, cond1_1 (grid1.coords t) ↔ t.val % 100 = 99 := fun t => by
  show (Scalar.cmpi .ne (Scalar.extui (Scalar.cmpi .eq (BitVec.ofNat 32 (grid1.coords t 1).val) 99#32)) 0#32) = 1#1 ↔ _
  rw [gridStep1 t]
  exact stepCond1_1 ⟨t.val % 100, Nat.mod_lt _ (by decide)⟩

theorem flush1_2_iff (t : Fin cfg1.N) : (cfg1.win 2).flush t = true ↔
    (t.val + 1 = grid1.N ∨ ∃ h : t.val + 1 < grid1.N, win1_2.index ⟨t.val + 1, h⟩ ≠ win1_2.index t) := by
  unfold Pipeline.Window.flush
  simp only [Bool.and_eq_true, Bool.or_eq_true, decide_eq_true_eq]
  exact ⟨fun h => h.2, fun h => ⟨trivial, h⟩⟩

theorem flush1_2 : ∀ t : Fin cfg1.N, (cfg1.win 2).flush t = true ↔ t.val % 100 = 99 := fun t => by
  have hN : grid1.N = 20800 := N_1
  have ht : t.val < 20800 := gridLt1 t
  rw [flush1_2_iff]
  constructor
  · rintro (h | ⟨h, hne⟩)
    · omega
    · by_contra hc
      refine hne (funext fun a => ?_)
      match a with
      | ⟨0, _⟩ =>
        show win1_2.index ⟨t.val + 1, h⟩ (0 : Fin 2) = win1_2.index t (0 : Fin 2)
        rw [outBlk1_row, outBlk1_row]
        show (t.val + 1) / 100 = t.val / 100
        omega
      | ⟨1, _⟩ => rfl
  · intro h
    by_cases hlast : t.val + 1 = grid1.N
    · exact Or.inl hlast
    · refine Or.inr ⟨by omega, fun heq => ?_⟩
      have h0 : win1_2.index ⟨t.val + 1, by omega⟩ (0 : Fin 2) = win1_2.index t (0 : Fin 2) := congrFun heq (0 : Fin 2)
      rw [outBlk1_row, outBlk1_row] at h0
      have h1 : (t.val + 1) / 100 = t.val / 100 := h0
      omega

theorem noFlush1_2 (t : Fin cfg1.N) (h : ¬cond1_1 (grid1.coords t)) : (cfg1.win 2).flush t = false := by
  cases hf : (cfg1.win 2).flush t with
  | false => rfl
  | true => exact absurd ((hcond1_1 t).mpr ((flush1_2 t).mp hf)) h

end Cert.KernelIdeal.Hand

end
-- ==== Proof.KI.R1.lean ====
import proofs.«427573_j12068858102168_3_alg».proof.Proof.KI.R1Run
import proofs.«427573_j12068858102168_3_alg».proof.Proof.KI.R1Cond

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The accumulator after each point, from the two input blocks of the points so far. -/
abbrev acc1 (V : Vals F) (c : Dev nD) : (n : ℕ) → n < grid1.N → Vec F S4096x64 .f32 :=
  gacc (fun t => iblk1 V c 0 t) (fun t => iblk1 V c 1 t)

def dat1 (V : Vals F) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := gPhi c (Pipeline.ΦA (U := UR sig nD τ) spec1 c) (rest1 (F := F) c) scM1_0 (acc1 V c) t.val (Nat.le_of_lt_succ t.isLt)
  q _ := fullShare
  owed _ := 0

/-- The body at any point: the reduction coordinate says which case the point is in, and that case's step applies. -/
theorem body1 (V : Vals F) (c : Dev nD) (t : Fin cfg1.N) :
    iprop((dat1 V c).Φ t.castSucc ∗ (dat1 V c).owesAt () t.castSucc
        ∗ (∃ d, owns (c : Thread nD τ) (ms1_0 t) fullShare ((dat1 V c).before 0 t d))
        ∗ (∃ d, owns (c : Thread nD τ) (ms1_1 t) fullShare ((dat1 V c).before 1 t d))
        ∗ (∃ d, owns (c : Thread nD τ) (ms1_2 t) fullShare ((dat1 V c).before 2 t d)))
      ⊢ wp frame (wpE (defs₀ (F := F)) Variants.none c none) Set.univ
          (cc1_kernel (grid1.coords t) (ms1_0 t) (hs1_0 t) (ms1_1 t) (hs1_1 t) (ms1_2 t) (hs1_2 t) scM1_0 (Memref.isWhole_whole _))
          (fun _ => iprop((dat1 V c).Φ t.succ ∗ (dat1 V c).owesAt () t.succ ∗ (dat1 V c).leavesExact 0 t ∗ (dat1 V c).leavesExact 1 t ∗ (dat1 V c).leavesExact 2 t)) := by
  simp only [show ∀ d, (dat1 V c).before 0 t d = iblk1 V c 0 t from (dat1 V c).before_in_eq_fetched 0 rfl (fun _ => rfl) (fun _ _ _ => rfl) (fun _ => rfl) t,
    show ∀ d, (dat1 V c).before 1 t d = iblk1 V c 1 t from (dat1 V c).before_in_eq_fetched 1 rfl (fun _ => rfl) (fun _ _ _ => rfl) (fun _ => rfl) t]
  rw [show (dat1 V c).owesAt () t.succ = (dat1 V c).owesAt () t.castSucc from rfl,
    show (dat1 V c).Φ t.succ = iprop(iprop(owns (c : Thread nD τ) scM1_0 fullShare (acc1 V c t.val t.isLt) ∗ rest1 (F := F) c) ∗ (∃ r, prngReg c r)) from rfl,
    leaves_live (dat1 V c) 0 t (liveAt1_0 (grid1.coords t)), leaves_live (dat1 V c) 1 t (liveAt1_1 (grid1.coords t))]
  by_cases h0 : t.val % 100 = 0
  · have hB : ¬cond1_1 (grid1.coords t) := fun h => by have := (hcond1_1 t).mp h; omega
    rw [Dat.leavesExact_idle (dat1 V c) 2 t (idleAt1_2 _ hB) (noFlush1_2 t hB)]
    exact (sep_mono_l (gPhi_some c _ _ _ _ (PhiA1_eq c) _ _)).trans
      (step1_A ((hcond1_0 t).mpr h0) hB (gacc_first _ _ t h0))
  · have hA : ¬cond1_0 (grid1.coords t) := fun h => h0 ((hcond1_0 t).mp h)
    rw [show (dat1 V c).Φ t.castSucc = iprop(iprop(owns (c : Thread nD τ) scM1_0 fullShare (acc1 V c (t.val - 1) (Nat.lt_of_le_of_lt (Nat.sub_le _ _) t.isLt)) ∗ rest1 (F := F) c) ∗ (∃ r, prngReg c r))
      from gPhi_pos _ _ _ _ _ _ _ (show t.val ≠ 0 by omega)]
    by_cases hl : t.val % 100 = 99
    · rw [leaves_live (dat1 V c) 2 t (liveAt1_2 _ ((hcond1_1 t).mpr hl))]
      exact step1_C hA ((hcond1_1 t).mpr hl) (gacc_next _ _ t h0)
    · have hB : ¬cond1_1 (grid1.coords t) := fun h => hl ((hcond1_1 t).mp h)
      rw [Dat.leavesExact_idle (dat1 V c) 2 t (idleAt1_2 _ hB) (noFlush1_2 t hB)]
      exact step1_B hA hB (gacc_next _ _ t h0)

def rp1 : RegionProof F cfg1 where
  dat := dat1
  A_eq := fun _ _ _ => rfl
  q_eq := fun _ _ _ => rfl
  owed_eq := fun _ _ _ => rfl
  rec_eq := fun _ _ _ => rfl
  body := fun V c t => by rw [bigSep_W1, bigSep_W1]; exact body1 V c t
  hin := fun V c => Entails.refl _
  hout := fun V c => by rw [PhiA1_eq]; exact gPhi_some c _ _ _ (acc1 V c) (PhiA1_eq c) grid1.N (Nat.le_refl _)

end Cert.KernelIdeal.Hand

end
-- ==== Proof.KI.R2Cond.lean ====
import proofs.«427573_j12068858102168_3_alg».proof.Proof.KI.RegionProof
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
private theorem gridPts2 : grid2.N = 20800 := by decide
private theorem sndCoord2 (t : Fin grid2.N) : (grid2.coords t 1).val = t.val % 832 := by
  show t.val / grid2.stride 1 % grid2.bound 1 = t.val % 832
  rw [show grid2.stride 1 = 1 from by decide, show grid2.bound 1 = 832 from rfl, Nat.div_one]
private theorem fstCoord2 (t : Fin grid2.N) : (grid2.coords t 0).val = t.val / 832 := by
  have ht : t.val < 20800 := lt_of_lt_of_eq t.isLt gridPts2
  show t.val / grid2.stride 0 % grid2.bound 0 = t.val / 832
  rw [show grid2.stride 0 = 832 from by decide, show grid2.bound 0 = 25 from rfl]
  exact Nat.mod_eq_of_lt (by omega)
abbrev cond2_0 (i : grid2.Coords) : Prop := (Scalar.cmpi .ne (Scalar.extui (Scalar.cmpi .eq (BitVec.ofNat 32 (i 1).val) 0#32)) 0#32) = 1#1
private theorem cmpFirst2 : ∀ k : Fin 832,
    (Scalar.cmpi .ne (Scalar.extui (Scalar.cmpi .eq (BitVec.ofNat 32 k.val) 0#32)) 0#32) = 1#1 ↔ k.val = 0 := by decide +kernel
private theorem atFirst2 (t : Fin grid2.N) : cond2_0 (grid2.coords t) ↔ t.val % 832 = 0 := by
  have h := cmpFirst2 ⟨t.val % 832, Nat.mod_lt _ (by decide)⟩
  show (Scalar.cmpi .ne (Scalar.extui (Scalar.cmpi .eq (BitVec.ofNat 32 (grid2.coords t 1).val) 0#32)) 0#32) = 1#1 ↔ _
  rw [sndCoord2]
  exact h
theorem hcond2_0 : ∀ t : Fin cfg2.N, cond2_0 (grid2.coords t) ↔ t.val % 832 = 0 :=
  (atFirst2 : ∀ t : Fin grid2.N, cond2_0 (grid2.coords t) ↔ t.val % 832 = 0)
abbrev cond2_1 (i : grid2.Coords) : Prop := k2_cond2 i = 1#1
private theorem cmpLast2 : ∀ k : Fin 832,
    (Scalar.cmpi .ne (Scalar.extui (Scalar.cmpi .eq (BitVec.ofNat 32 k.val) 831#32)) 0#32) = 1#1 ↔ k.val = 831 := by decide +kernel
private theorem atLast2 (t : Fin grid2.N) : cond2_1 (grid2.coords t) ↔ t.val % 832 = 831 := by
  have h := cmpLast2 ⟨t.val % 832, Nat.mod_lt _ (by decide)⟩
  show (Scalar.cmpi .ne (Scalar.extui (Scalar.cmpi .eq (BitVec.ofNat 32 (grid2.coords t 1).val) 831#32)) 0#32) = 1#1 ↔ _
  rw [sndCoord2]
  exact h
theorem hcond2_1 : ∀ t : Fin cfg2.N, cond2_1 (grid2.coords t) ↔ t.val % 832 = 831 :=
  (atLast2 : ∀ t : Fin grid2.N, cond2_1 (grid2.coords t) ↔ t.val % 832 = 831)
private theorem outIdx2 (t : Fin grid2.N) : win2_3.index t = ![t.val / 832, 0] ∧ win2_4.index t = ![t.val / 832, 0] := by
  have ht : t.val < 20800 := lt_of_lt_of_eq t.isLt gridPts2
  constructor <;>
  · show ![(BitVec.ofNat 32 (grid2.coords t 0).val).toNat, (0#32 : BitVec 32).toNat] = _
    rw [fstCoord2, BitVec.toNat_ofNat, Nat.mod_eq_of_lt (by omega)]
    rfl
private theorem writeBack2 (w : Window sig grid2) (ho : w.isOut = true)
    (hi : ∀ t s : Fin grid2.N, w.index t = w.index s ↔ t.val / 832 = s.val / 832) (t : Fin grid2.N) :
    w.flush t = true ↔ t.val % 832 = 831 := by
  have hN : grid2.N = 20800 := gridPts2
  have ht : t.val < 20800 := lt_of_lt_of_eq t.isLt gridPts2
  show (w.isOut && (decide (t.val + 1 = grid2.N)
    || decide (∃ h : t.val + 1 < grid2.N, w.index ⟨t.val + 1, h⟩ ≠ w.index t))) = true ↔ _
  rw [ho]
  simp only [Bool.true_and, Bool.or_eq_true, decide_eq_true_eq]
  constructor
  · rintro (h | ⟨h, hne⟩)
    · omega
    · have h2 : ¬(t.val + 1) / 832 = t.val / 832 := fun e => hne ((hi ⟨t.val + 1, h⟩ t).mpr e)
      omega
  · intro h
    by_cases hl : t.val + 1 = grid2.N
    · exact .inl hl
    · refine .inr ⟨by omega, fun heq => ?_⟩
      have h2 : (t.val + 1) / 832 = t.val / 832 := (hi ⟨t.val + 1, by omega⟩ t).mp heq
      omega
private theorem sameIdx2 (a b : ℕ) : (![a, 0] : Fin 2 → ℕ) = ![b, 0] ↔ a = b := ⟨fun h => congrFun h 0, fun h => by rw [h]⟩
theorem flush2_3 : ∀ t : Fin cfg2.N, (cfg2.win 3).flush t = true ↔ t.val % 832 = 831 := writeBack2 win2_3 rfl fun t s => by rw [(outIdx2 t).1, (outIdx2 s).1]; exact sameIdx2 _ _
theorem flush2_4 : ∀ t : Fin cfg2.N, (cfg2.win 4).flush t = true ↔ t.val % 832 = 831 := writeBack2 win2_4 rfl fun t s => by rw [(outIdx2 t).2, (outIdx2 s).2]; exact sameIdx2 _ _
end Cert.KernelIdeal.Hand
end
-- ==== Proof.KI.R2Runs.lean ====
import proofs.«427573_j12068858102168_3_alg».proof.Proof.KI.R2Cond
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : Vals F)
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem idleAt2_3 (t : Fin cfg2.N) (h : ¬cond2_1 (grid2.coords t)) : cfg2.idle 3 (grid2.coords t) = true := by
  show (!(k2_cond2 (grid2.coords t) == 1#1)) = true
  rw [beq_eq_false_iff_ne.mpr h]; rfl
theorem idleAt2_4 (t : Fin cfg2.N) (h : ¬cond2_1 (grid2.coords t)) : cfg2.idle 4 (grid2.coords t) = true := by
  show (!(k2_cond2 (grid2.coords t) == 1#1)) = true
  rw [beq_eq_false_iff_ne.mpr h]; rfl
theorem liveAt2_3 (t : Fin cfg2.N) (h : cond2_1 (grid2.coords t)) : cfg2.idle 3 (grid2.coords t) = false := by
  show (!(k2_cond2 (grid2.coords t) == 1#1)) = false
  rw [beq_iff_eq.mpr h]; rfl
theorem liveAt2_4 (t : Fin cfg2.N) (h : cond2_1 (grid2.coords t)) : cfg2.idle 4 (grid2.coords t) = false := by
  show (!(k2_cond2 (grid2.coords t) == 1#1)) = false
  rw [beq_iff_eq.mpr h]; rfl
theorem leaves_live2 {c : Dev nD} (dat : Dat τ (Elt F) Unit ℕ (UR sig nD τ) ℕ cfg2 c) (w : Fin cfg2.W) (t : Fin cfg2.N)
    (h : cfg2.idle w (grid2.coords t) = false) :
    dat.leavesExact w t = owns (c : Thread nD τ) ((cfg2.win w).stage (cfg2.slots t w)) fullShare (dat.after w t) := by
  unfold Dat.leavesExact; rw [h]
abbrev ms2_0 (t : Fin cfg2.N) : Memref sig .tc .vmem S1024x64 .bf16 := win2_0.stage (cfg2.slots t 0)
abbrev hs2_0 (t : Fin cfg2.N) : (ms2_0 t).IsWhole := Gen.hstage2_0 ((cfg2.slots t 0).cast Gen.nbuf2_0)
abbrev ms2_1 (t : Fin cfg2.N) : Memref sig .tc .vmem S1024 .i32 := win2_1.stage (cfg2.slots t 1)
abbrev hs2_1 (t : Fin cfg2.N) : (ms2_1 t).IsWhole := Gen.hstage2_1 ((cfg2.slots t 1).cast Gen.nbuf2_1)
abbrev ms2_2 (t : Fin cfg2.N) : Memref sig .tc .vmem S64x64 .f32 := win2_2.stage (cfg2.slots t 2)
abbrev hs2_2 (t : Fin cfg2.N) : (ms2_2 t).IsWhole := Gen.hstage2_2 ((cfg2.slots t 2).cast Gen.nbuf2_2)
abbrev ms2_3 (t : Fin cfg2.N) : Memref sig .tc .vmem S2048x64 .bf16 := win2_3.stage (cfg2.slots t 3)
abbrev hs2_3 (t : Fin cfg2.N) : (ms2_3 t).IsWhole := Gen.hstage2_3 ((cfg2.slots t 3).cast Gen.nbuf2_3)
abbrev ms2_4 (t : Fin cfg2.N) : Memref sig .tc .vmem S2048x1 .f32 := win2_4.stage (cfg2.slots t 4)
abbrev hs2_4 (t : Fin cfg2.N) : (ms2_4 t).IsWhole := Gen.hstage2_4 ((cfg2.slots t 4).cast Gen.nbuf2_4)
abbrev scM2_0 : Memref sig .tc .vmem S2048x64 .f32 := Memref.whole cc2_scratch0
abbrev scM2_1 : Memref sig .tc .vmem S2048x1 .f32 := Memref.whole cc2_scratch1
abbrev rest2 (c : Dev nD) : sProp 𝕄 :=
  Pipeline.scopedRestBut (Ix := Unit) (Name := ℕ) (U := UR sig nD τ) (Lvl := ℕ) (Val := Elt F) spec2 c [cc2_scratch0, cc2_scratch1]
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ rest2 (F := F) c) ∗ (∃ r, prngReg c r)) := by
  unfold Pipeline.ΦA; rw [scopedRest2_split]; simp only [scM2_0, scM2_1, owns_whole]; try rfl
end Cert.KernelIdeal.Hand
end
-- ==== Proof.KI.R2Run.lean ====
import proofs.«427573_j12068858102168_3_alg».proof.Proof.KI.R2Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2_2 : (![0, 0] : Fin 2 → ℕ) = fun _ => 0 := by funext a; fin_cases a <;> rfl
theorem hz2_1 : (![0] : Fin 1 → ℕ) = fun _ => 0 := by funext a; fin_cases a; rfl

variable {c : Dev nD} {i : grid2.Coords} {arg2 : Memref sig .tc .vmem S1024x64 .bf16} {harg2 : arg2.IsWhole} {arg3 : Memref sig .tc .vmem S1024 .i32} {harg3 : arg3.IsWhole} {arg4 : Memref sig .tc .vmem S64x64 .f32} {harg4 : arg4.IsWhole} {arg5 : Memref sig .tc .vmem S2048x64 .bf16} {harg5 : arg5.IsWhole} {arg6 : Memref sig .tc .vmem S2048x1 .f32} {harg6 : arg6.IsWhole} {arg7 : Memref sig .tc .vmem S2048x64 .f32} {harg7 : arg7.IsWhole} {arg8 : Memref sig .tc .vmem S2048x1 .f32} {harg8 : arg8.IsWhole}
  {x0 : Vec F S1024x64 .bf16} {x1 : Vec F S1024 .i32} {x2 : Vec F S64x64 .f32} {xs0 : Vec F S2048x64 .f32} {xs1 : Vec F S2048x1 .f32}
  {D0 D1 D2 D3 D4 : Type} {g3 : D3 → Vec F S2048x64 .bf16} {g4 : D4 → Vec F S2048x1 .f32} {R G O : sProp (MT nD τ sig Unit (Elt F) ℕ (UR sig nD τ) ℕ)}
  {a0 : Vec F S2048x64 .f32} {a1 : Vec F S2048x1 .f32}

theorem step2_A (hc0 : cond2_0 i) (hc1 : ¬cond2_1 i) (h0 : a0 = k2_pay4 i x1 x0 k2_pay1) (h1 : a1 = k2_pay5 i x1 k2_pay2) :
    iprop(iprop(iprop(iprop((∃ d, owns (c : Thread nD τ) arg7 fullShare d) ∗ (∃ d, owns (c : Thread nD τ) arg8 fullShare d)) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d, owns (c : Thread nD τ) arg5 fullShare (g3 d)) ∗ (∃ d, owns (c : Thread nD τ) arg6 fullShare (g4 d)))
      ⊢ wp frame (wpE (defs₀ (F := F)) Variants.none c none) Set.univ (cc2_kernel i arg2 harg2 arg3 harg3 arg4 harg4 arg5 harg5 arg6 harg6 arg7 harg7 arg8 harg8) (fun _ => iprop(iprop(iprop(iprop(owns (c : Thread nD τ) arg7 fullShare a0 ∗ owns (c : Thread nD τ) arg8 fullShare a1) ∗ R) ∗ G) ∗ O ∗ owns (c : Thread nD τ) arg2 fullShare x0 ∗ owns (c : Thread nD τ) arg3 fullShare x1 ∗ owns (c : Thread nD τ) arg4 fullShare x2 ∗ (∃ d, owns (c : Thread nD τ) arg5 fullShare (g3 d)) ∗ (∃ d, owns (c : Thread nD τ) arg6 fullShare (g4 d)))) := by
  subst h0 h1
  simp only [cc2_kernel_eq_skeleton]; unfold cc2_kernel_skel
  unfold owns
  iintro ⟨⟨⟨⟨⟨%ds0, %fs0, -, HS0⟩, ⟨%ds1, %fs1, -, HS1⟩⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  sl_unfold_words
  simp only [View.readAt_eq_ld, Memref.IsWhole.read_unread, View.ld_unit_zero (S := S1024) hz2_1, View.ld_unit_zero (S := S1024x64) hz2_2, View.ld_unit_zero (S := S64x64) hz2_2, View.ld_unit_zero (S := S2048x64) hz2_2, View.ld_unit_zero (S := S2048x1) hz2_2, View.readCov_unit_zero (S := S2048x64) _ hz2_2, View.readCov_unit_zero (S := S2048x1) _ hz2_2]
  isplitl [HS0 HS1 Hr Hg]
  · isplitl [HS0 HS1 Hr]
    · isplitl [HS0 HS1]
      · isplitl [HS0]
        · iexists _; isplitr
          swap; · iexact HS0
          ipureintro
          refine (View.read_writes_eq_canon _ _ _ (View.cover_of_tiledL _ S2048x64.size ?_)).trans (View.canon_cons_unit_zero hz2_2 _ _ _)
          sl_kernel_rfl
        · iexists _; isplitr
          swap; · iexact HS1
          ipureintro
          refine (View.read_writes_eq_canon _ _ _ (View.cover_of_tiledL _ S2048x1.size ?_)).trans (View.canon_cons_unit_zero hz2_2 _ _ _)
          sl_kernel_rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists d3, _; isplitr; · ipureintro; exact harg5.read_unread _
    iexact H3
  iexists d4, _; isplitr; · ipureintro; exact harg6.read_unread _
  iexact H4

theorem step2_B (hc0 : ¬cond2_0 i) (hc1 : ¬cond2_1 i) (h0 : a0 = k2_pay4 i x1 x0 xs0) (h1 : a1 = k2_pay5 i x1 xs1) :
    iprop(iprop(iprop(iprop(owns (c : Thread nD τ) arg7 fullShare xs0 ∗ owns (c : Thread nD τ) arg8 fullShare xs1) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d, owns (c : Thread nD τ) arg5 fullShare (g3 d)) ∗ (∃ d, owns (c : Thread nD τ) arg6 fullShare (g4 d)))
      ⊢ wp frame (wpE (defs₀ (F := F)) Variants.none c none) Set.univ (cc2_kernel i arg2 harg2 arg3 harg3 arg4 harg4 arg5 harg5 arg6 harg6 arg7 harg7 arg8 harg8) (fun _ => iprop(iprop(iprop(iprop(owns (c : Thread nD τ) arg7 fullShare a0 ∗ owns (c : Thread nD τ) arg8 fullShare a1) ∗ R) ∗ G) ∗ O ∗ owns (c : Thread nD τ) arg2 fullShare x0 ∗ owns (c : Thread nD τ) arg3 fullShare x1 ∗ owns (c : Thread nD τ) arg4 fullShare x2 ∗ (∃ d, owns (c : Thread nD τ) arg5 fullShare (g3 d)) ∗ (∃ d, owns (c : Thread nD τ) arg6 fullShare (g4 d)))) := by
  subst h0 h1
  simp only [cc2_kernel_eq_skeleton]; unfold cc2_kernel_skel
  unfold owns
  iintro ⟨⟨⟨⟨⟨%fs0, %hfs0, HS0⟩, ⟨%fs1, %hfs1, HS1⟩⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2
  obtain rfl := harg5.eq_unread hf3; obtain rfl := harg6.eq_unread hf4
  obtain rfl := harg7.eq_unread hfs0; obtain rfl := harg8.eq_unread hfs1
  sl_exec (disch := first | exact hc0 | exact hc1)
  sl_step
  sl_unfold_words
  simp only [View.readAt_eq_ld, Memref.IsWhole.read_unread, View.ld_unit_zero (S := S1024) hz2_1, View.ld_unit_zero (S := S1024x64) hz2_2, View.ld_unit_zero (S := S64x64) hz2_2, View.ld_unit_zero (S := S2048x64) hz2_2, View.ld_unit_zero (S := S2048x1) hz2_2, View.readCov_unit_zero (S := S2048x64) _ hz2_2, View.readCov_unit_zero (S := S2048x1) _ hz2_2]
  isplitl [HS0 HS1 Hr Hg]
  · isplitl [HS0 HS1 Hr]
    · isplitl [HS0 HS1]
      · isplitl [HS0]
        · iexists _; isplitr
          swap; · iexact HS0
          ipureintro
          refine (View.read_writes_eq_canon _ _ _ (View.cover_of_tiledL _ S2048x64.size ?_)).trans (View.canon_cons_unit_zero hz2_2 _ _ _)
          sl_kernel_rfl
        · iexists _; isplitr
          swap; · iexact HS1
          ipureintro
          refine (View.read_writes_eq_canon _ _ _ (View.cover_of_tiledL _ S2048x1.size ?_)).trans (View.canon_cons_unit_zero hz2_2 _ _ _)
          sl_kernel_rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists d3, _; isplitr; · ipureintro; exact harg5.read_unread _
    iexact H3
  iexists d4, _; isplitr; · ipureintro; exact harg6.read_unread _
  iexact H4

theorem step2_C (hc0 : ¬cond2_0 i) (hc1 : cond2_1 i) (h0 : a0 = k2_pay4 i x1 x0 xs0) (h1 : a1 = k2_pay5 i x1 xs1) :
    iprop(iprop(iprop(iprop(owns (c : Thread nD τ) arg7 fullShare xs0 ∗ owns (c : Thread nD τ) arg8 fullShare xs1) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d, owns (c : Thread nD τ) arg5 fullShare (g3 d)) ∗ (∃ d, owns (c : Thread nD τ) arg6 fullShare (g4 d)))
      ⊢ wp frame (wpE (defs₀ (F := F)) Variants.none c none) Set.univ (cc2_kernel i arg2 harg2 arg3 harg3 arg4 harg4 arg5 harg5 arg6 harg6 arg7 harg7 arg8 harg8) (fun _ => iprop(iprop(iprop(iprop(owns (c : Thread nD τ) arg7 fullShare a0 ∗ owns (c : Thread nD τ) arg8 fullShare a1) ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare (k2_pay7 a1 a0 x2) ∗ owns (c : Thread nD τ) arg6 fullShare (k2_pay6 a1))) := by
  subst h0 h1
  simp only [cc2_kernel_eq_skeleton]; unfold cc2_kernel_skel
  unfold owns
  iintro ⟨⟨⟨⟨⟨%fs0, %hfs0, HS0⟩, ⟨%fs1, %hfs1, HS1⟩⟩, Hr⟩, Hg⟩, Ho, ⟨%d0, %f0, %hf0, H0⟩, ⟨%d1, %f1, %hf1, H1⟩, ⟨%d2, %f2, %hf2, H2⟩, ⟨%d3, %f3, -, H3⟩, ⟨%d4, %f4, -, H4⟩⟩
  obtain rfl := harg2.eq_unread hf0; obtain rfl := harg3.eq_unread hf1; obtain rfl := harg4.eq_unread hf2
  obtain rfl := harg7.eq_unread hfs0; obtain rfl := harg8.eq_unread hfs1
  sl_exec (disch := first | exact hc0 | exact hc1)
  sl_step
  sl_unfold_words
  simp only [View.readAt_eq_ld, Memref.IsWhole.read_unread, View.ld_unit_zero (S := S1024) hz2_1, View.ld_unit_zero (S := S1024x64) hz2_2, View.ld_unit_zero (S := S64x64) hz2_2, View.ld_unit_zero (S := S2048x64) hz2_2, View.ld_unit_zero (S := S2048x1) hz2_2, View.readCov_unit_zero (S := S2048x64) _ hz2_2, View.readCov_unit_zero (S := S2048x1) _ hz2_2]
  isplitl [HS0 HS1 Hr Hg]
  · isplitl [HS0 HS1 Hr]
    · isplitl [HS0 HS1]
      · isplitl [HS0]
        · iexists _; isplitr
          swap; · iexact HS0
          ipureintro
          refine (View.read_writes_eq_canon _ _ _ (View.cover_of_tiledL _ S2048x64.size ?_)).trans (View.canon_cons_unit_zero hz2_2 _ _ _)
          sl_kernel_rfl
        · iexists _; isplitr
          swap; · iexact HS1
          ipureintro
          refine (View.read_writes_eq_canon _ _ _ (View.cover_of_tiledL _ S2048x1.size ?_)).trans (View.canon_cons_unit_zero hz2_2 _ _ _)
          sl_kernel_rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    refine (View.read_writes_eq_canon _ _ _ (View.cover_of_tiledL _ S2048x64.size ?_)).trans (View.canon_cons_unit_zero hz2_2 _ _ _)
    sl_kernel_rfl
  iexists _; isplitr
  swap; · iexact H4
  ipureintro
  refine (View.read_writes_eq_canon _ _ _ (View.cover_of_tiledL _ S2048x1.size ?_)).trans (View.canon_cons_unit_zero hz2_2 _ _ _)
  sl_kernel_rfl

end Cert.KernelIdeal.Hand

end
-- ==== Proof.KI.R2.lean ====
import proofs.«427573_j12068858102168_3_alg».proof.Proof.KI.R2Run

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem noFlush2_3 (t : Fin cfg2.N) (h : ¬cond2_1 (grid2.coords t)) : (cfg2.win 3).flush t = false :=
  Bool.eq_false_iff.mpr fun hf => h ((hcond2_1 t).mpr ((flush2_3 t).mp hf))
theorem noFlush2_4 (t : Fin cfg2.N) (h : ¬cond2_1 (grid2.coords t)) : (cfg2.win 4).flush t = false :=
  Bool.eq_false_iff.mpr fun hf => h ((hcond2_1 t).mpr ((flush2_4 t).mp hf))

abbrev Accs2 (F : FTy → Type) : Type := Vec F S2048x64 .f32 × Vec F S2048x1 .f32

variable (V : Vals F)

-- What the body at point t leaves in the two accumulators when it finds xs there: this block's contribution added.
abbrev stepAccs2 (c : Dev nD) (t : Fin cfg2.N) (xs : Accs2 F) : Accs2 F :=
  (k2_pay4 (grid2.coords t) (iblk2 V c 1 t) (iblk2 V c 0 t) xs.1, k2_pay5 (grid2.coords t) (iblk2 V c 1 t) xs.2)

-- The accumulation: the row sums and the in-degrees after the body at position n, from zero at each first edge block.
def accsAt2 (c : Dev nD) : (n : ℕ) → n < cfg2.N → Accs2 F
  | 0, hn => stepAccs2 V c ⟨0, hn⟩ (k2_pay1, k2_pay2)
  | n + 1, hn => stepAccs2 V c ⟨n + 1, hn⟩ (if (n + 1) % 832 = 0 then (k2_pay1, k2_pay2) else accsAt2 c n (Nat.lt_of_succ_lt hn))

theorem accsAt2_first (c : Dev nD) (t : Fin cfg2.N) (h0 : t.val % 832 = 0) :
    accsAt2 V c t.val t.isLt = stepAccs2 V c t (k2_pay1, k2_pay2) := by
  obtain ⟨n, hn⟩ := t
  cases n with
  | zero => rfl
  | succ n => exact congrArg (stepAccs2 V c ⟨n + 1, hn⟩) (if_pos h0)

theorem accsAt2_next (c : Dev nD) (t : Fin cfg2.N) (h0 : ¬t.val % 832 = 0) :
    accsAt2 V c t.val t.isLt = stepAccs2 V c t (accsAt2 V c (t.val - 1) (Nat.lt_of_le_of_lt (Nat.sub_le _ _) t.isLt)) := by
  obtain ⟨n, hn⟩ := t
  cases n with
  | zero => exact absurd rfl h0
  | succ n => exact congrArg (stepAccs2 V c ⟨n + 1, hn⟩) (if_neg h0)

abbrev accsOwned2 (c : Dev nD) (xs : Accs2 F) : sProp 𝕄 :=
  iprop(iprop(iprop(owns (c : Thread nD τ) scM2_0 fullShare xs.1 ∗ owns (c : Thread nD τ) scM2_1 fullShare xs.2) ∗ rest2 (F := F) c) ∗ (∃ r, prngReg c r))

def PhiS2 (c : Dev nD) : (n : ℕ) → n ≤ cfg2.N → sProp 𝕄
  | 0, _ => Pipeline.ΦA spec2 c
  | n + 1, hn => accsOwned2 c (accsAt2 V c n hn)

theorem PhiS2_pos (c : Dev nD) (n : ℕ) (h : n ≤ cfg2.N) (hz : n ≠ 0) :
    PhiS2 V c n h = accsOwned2 c (accsAt2 V c (n - 1) (by omega)) := by
  cases n with
  | zero => exact absurd rfl hz
  | succ n => rfl

theorem PhiS2_any (c : Dev nD) (n : ℕ) (h : n ≤ cfg2.N) : PhiS2 V c n h ⊢ Pipeline.ΦA spec2 c := by
  cases n with
  | zero => exact .refl
  | succ n =>
    show accsOwned2 c _ ⊢ _
    unfold accsOwned2
    rw [PhiA2_eq]
    iintro ⟨⟨⟨HS0, HS1⟩, Hr⟩, Hg⟩
    isplitl [HS0 HS1 Hr]
    · isplitl [HS0 HS1]
      · isplitl [HS0]
        · iexists _; iexact HS0
        · iexists _; iexact HS1
      iexact Hr
    iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay7 (accsAt2 V c t.val t.isLt).2 (accsAt2 V c t.val t.isLt).1 (iblk2 V c 2 t)
    | ⟨4, _⟩ => k2_pay6 (accsAt2 V c t.val t.isLt).2
  Φ t := PhiS2 V c t.val (Nat.le_of_lt_succ t.isLt)
  q _ := fullShare
  owed _ := 0

theorem Phi_any2 (c : Dev nD) (t : Fin (cfg2.N + 1)) : (dat2 V c).Φ t ⊢ Pipeline.ΦA spec2 c := PhiS2_any V c _ _

theorem after2_3 (c : Dev nD) (t : Fin cfg2.N) :
    (dat2 V c).after 3 t = k2_pay7 (accsAt2 V c t.val t.isLt).2 (accsAt2 V c t.val t.isLt).1 (iblk2 V c 2 t) := rfl
theorem after2_4 (c : Dev nD) (t : Fin cfg2.N) : (dat2 V c).after 4 t = k2_pay6 (accsAt2 V c t.val t.isLt).2 := rfl

abbrev body2 (t : Fin cfg2.N) : Prog (TpuEff nD τ sig (Elt F) Λ₀ .tc) PUnit :=
  cc2_kernel (grid2.coords t) (ms2_0 t) (hs2_0 t) (ms2_1 t) (hs2_1 t) (ms2_2 t) (hs2_2 t) (ms2_3 t) (hs2_3 t) (ms2_4 t) (hs2_4 t) scM2_0 (Memref.isWhole_whole _) scM2_1 (Memref.isWhole_whole _)

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem sound_body2 (c : Dev nD) (t : Fin cfg2.N) :
    bodyPre2 V c t ⊢ wp frame (wpE (defs₀ (F := F)) Variants.none c none) Set.univ (body2 t) (fun _ => bodyPost2 V c t) := by
  unfold bodyPre2 bodyPost2
  simp only [show ∀ d, (dat2 V c).before 0 t d = iblk2 V c 0 t from
      (dat2 V c).before_in_eq_fetched 0 rfl (fun _ => rfl) (fun _ _ _ => rfl) (fun _ => rfl) t,
    show ∀ d, (dat2 V c).before 1 t d = iblk2 V c 1 t from
      (dat2 V c).before_in_eq_fetched 1 rfl (fun _ => rfl) (fun _ _ _ => rfl) (fun _ => rfl) t,
    show ∀ d, (dat2 V c).before 2 t d = iblk2 V c 2 t from
      (dat2 V c).before_in_eq_fetched 2 rfl (fun _ => rfl) (fun _ _ _ => rfl) (fun _ => rfl) t]
  rw [show (dat2 V c).owesAt () t.succ = (dat2 V c).owesAt () t.castSucc from rfl,
    show (dat2 V c).Φ t.succ = accsOwned2 c (accsAt2 V c t.val t.isLt) from rfl,
    show (dat2 V c).Φ t.castSucc = PhiS2 V c t.val (Nat.le_of_lt t.isLt) from rfl,
    leaves_live2 (dat2 V c) 0 t (liveAt2_0 t), leaves_live2 (dat2 V c) 1 t (liveAt2_1 t), leaves_live2 (dat2 V c) 2 t (liveAt2_2 t)]
  have hz (h0 : ¬cond2_0 (grid2.coords t)) : t.val ≠ 0 := fun e => h0 ((hcond2_0 t).mpr (by rw [e]))
  by_cases h1 : cond2_1 (grid2.coords t)
  · have h0 : ¬cond2_0 (grid2.coords t) := fun h => by have := (hcond2_0 t).mp h; have := (hcond2_1 t).mp h1; omega
    have e := accsAt2_next V c t fun h => h0 ((hcond2_0 t).mpr h)
    rw [leaves_live2 (dat2 V c) 3 t (liveAt2_3 t h1), leaves_live2 (dat2 V c) 4 t (liveAt2_4 t h1),
      after2_3, after2_4, PhiS2_pos V c _ _ (hz h0)]
    exact step2_C h0 h1 (congrArg Prod.fst e) (congrArg Prod.snd e)
  · rw [Dat.leavesExact_idle (dat2 V c) 3 t (idleAt2_3 t h1) (noFlush2_3 t h1),
      Dat.leavesExact_idle (dat2 V c) 4 t (idleAt2_4 t h1) (noFlush2_4 t h1)]
    by_cases h0 : cond2_0 (grid2.coords t)
    · have e := accsAt2_first V c t ((hcond2_0 t).mp h0)
      refine (sep_mono_l (PhiS2_any V c _ _)).trans ?_
      rw [PhiA2_eq]
      exact step2_A h0 h1 (congrArg Prod.fst e) (congrArg Prod.snd e)
    · have e := accsAt2_next V c t fun h => h0 ((hcond2_0 t).mpr h)
      rw [PhiS2_pos V c _ _ (hz h0)]
      exact step2_B h0 h1 (congrArg Prod.fst e) (congrArg Prod.snd e)

theorem body_obligation2 (c : Dev nD) : BodyObligation (dat2 (F := F) V c) (defs₀ (F := F)) Variants.none () Set.univ := fun t => by
  rw [bigSep_W2, bigSep_W2]
  exact sound_body2 V c t

def rp2 : RegionProof F cfg2 where
  dat := fun V c => dat2 V c
  A_eq := fun _ _ _ => rfl
  q_eq := fun _ _ _ => rfl
  owed_eq := fun _ _ _ => rfl
  rec_eq := fun _ _ _ => rfl
  body := fun V c => body_obligation2 V c
  hin := fun _ _ => .refl
  hout := fun V c => Phi_any2 V c _

end Cert.KernelIdeal.Hand

end
-- ==== Proof.KI.R3Runs.lean ====
import proofs.«427573_j12068858102168_3_alg».proof.Proof.KI.RegionProof

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

noncomputable def iblk3 (V : Vals F) (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S4096 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S51200x64 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4096x64 .bf16 := win3_2.stage (cfg3.slots t 2)
abbrev hs3_2 (t : Fin cfg3.N) : (ms3_2 t).IsWhole := hstage3_2 ((cfg3.slots t 2).cast nbuf3_2)

abbrev scM3_0 : Memref sig .tc .vmem S4096x64 .f32 := Memref.whole cc3_scratch0

abbrev rest3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA (U := UR sig nD τ) spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.KernelIdeal.Hand

end
-- ==== Proof.KI.R3.lean ====
import proofs.«427573_j12068858102168_3_alg».proof.Proof.KI.R1Run
import proofs.«427573_j12068858102168_3_alg».proof.Proof.KI.R1Cond
import proofs.«427573_j12068858102168_3_alg».proof.Proof.KI.R3Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The accumulator after each point, from the two input blocks of the points so far. -/
abbrev acc3 (V : Vals F) (c : Dev nD) : (n : ℕ) → n < grid1.N → Vec F S4096x64 .f32 :=
  gacc (fun t => iblk3 V c 0 t) (fun t => iblk3 V c 1 t)

def dat3 (V : Vals F) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => k1_pay3 (acc3 V c t.val t.isLt)
  Φ t := gPhi c (Pipeline.ΦA (U := UR sig nD τ) spec3 c) (rest3 (F := F) c) scM3_0 (acc3 V c) t.val (Nat.le_of_lt_succ t.isLt)
  q _ := fullShare
  owed _ := 0

/-- The body at any point: the reduction coordinate says which case the point is in, and that case's step applies. -/
theorem body3 (V : Vals F) (c : Dev nD) (t : Fin cfg3.N) :
    iprop((dat3 V c).Φ t.castSucc ∗ (dat3 V c).owesAt () t.castSucc
        ∗ (∃ d, owns (c : Thread nD τ) (ms3_0 t) fullShare ((dat3 V c).before 0 t d))
        ∗ (∃ d, owns (c : Thread nD τ) (ms3_1 t) fullShare ((dat3 V c).before 1 t d))
        ∗ (∃ d, owns (c : Thread nD τ) (ms3_2 t) fullShare ((dat3 V c).before 2 t d)))
      ⊢ wp frame (wpE (defs₀ (F := F)) Variants.none c none) Set.univ
          (cc1_kernel (grid1.coords t) (ms3_0 t) (hs3_0 t) (ms3_1 t) (hs3_1 t) (ms3_2 t) (hs3_2 t) scM3_0 (Memref.isWhole_whole _))
          (fun _ => iprop((dat3 V c).Φ t.succ ∗ (dat3 V c).owesAt () t.succ ∗ (dat3 V c).leavesExact 0 t ∗ (dat3 V c).leavesExact 1 t ∗ (dat3 V c).leavesExact 2 t)) := by
  simp only [show ∀ d, (dat3 V c).before 0 t d = iblk3 V c 0 t from (dat3 V c).before_in_eq_fetched 0 rfl (fun _ => rfl) (fun _ _ _ => rfl) (fun _ => rfl) t,
    show ∀ d, (dat3 V c).before 1 t d = iblk3 V c 1 t from (dat3 V c).before_in_eq_fetched 1 rfl (fun _ => rfl) (fun _ _ _ => rfl) (fun _ => rfl) t]
  rw [show (dat3 V c).owesAt () t.succ = (dat3 V c).owesAt () t.castSucc from rfl,
    show (dat3 V c).Φ t.succ = iprop(iprop(owns (c : Thread nD τ) scM3_0 fullShare (acc3 V c t.val t.isLt) ∗ rest3 (F := F) c) ∗ (∃ r, prngReg c r)) from rfl,
    leaves_live (dat3 V c) 0 t (liveAt1_0 (grid1.coords t)), leaves_live (dat3 V c) 1 t (liveAt1_1 (grid1.coords t))]
  by_cases h0 : t.val % 100 = 0
  · have hB : ¬cond1_1 (grid1.coords t) := fun h => by have := (hcond1_1 t).mp h; omega
    rw [Dat.leavesExact_idle (dat3 V c) 2 t (idleAt1_2 _ hB) (noFlush1_2 t hB)]
    exact (sep_mono_l (gPhi_some c _ _ _ _ (PhiA3_eq c) _ _)).trans
      (step1_A ((hcond1_0 t).mpr h0) hB (gacc_first _ _ t h0))
  · have hA : ¬cond1_0 (grid1.coords t) := fun h => h0 ((hcond1_0 t).mp h)
    rw [show (dat3 V c).Φ t.castSucc = iprop(iprop(owns (c : Thread nD τ) scM3_0 fullShare (acc3 V c (t.val - 1) (Nat.lt_of_le_of_lt (Nat.sub_le _ _) t.isLt)) ∗ rest3 (F := F) c) ∗ (∃ r, prngReg c r))
      from gPhi_pos _ _ _ _ _ _ _ (show t.val ≠ 0 by omega)]
    by_cases hl : t.val % 100 = 99
    · rw [leaves_live (dat3 V c) 2 t (liveAt1_2 _ ((hcond1_1 t).mpr hl))]
      exact step1_C hA ((hcond1_1 t).mpr hl) (gacc_next _ _ t h0)
    · have hB : ¬cond1_1 (grid1.coords t) := fun h => hl ((hcond1_1 t).mp h)
      rw [Dat.leavesExact_idle (dat3 V c) 2 t (idleAt1_2 _ hB) (noFlush1_2 t hB)]
      exact step1_B hA hB (gacc_next _ _ t h0)

def rp3 : RegionProof F cfg3 where
  dat := dat3
  A_eq := fun _ _ _ => rfl
  q_eq := fun _ _ _ => rfl
  owed_eq := fun _ _ _ => rfl
  rec_eq := fun _ _ _ => rfl
  body := fun V c t => by rw [bigSep_W1, bigSep_W1]; exact body3 V c t
  hin := fun V c => Entails.refl _
  hout := fun V c => by rw [PhiA3_eq]; exact gPhi_some c _ _ _ (acc3 V c) (PhiA3_eq c) grid1.N (Nat.le_refl _)

end Cert.KernelIdeal.Hand

end
-- ==== Proof.KI.R4Runs.lean ====
import proofs.«427573_j12068858102168_3_alg».proof.Proof.KI.RegionProof
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
noncomputable def iblk4 (V : Vals F) (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))
abbrev cond4_0 (i : grid4.Coords) : Prop := (Scalar.cmpi .ne (Scalar.extui (Scalar.cmpi .eq (BitVec.ofNat 32 (i 1).val) 0#32)) 0#32) = 1#1
abbrev cond4_1 (i : grid4.Coords) : Prop := k4_cond2 i = 1#1
theorem idleAt4_4 (i : grid4.Coords) (h1 : ¬cond4_1 i) : cfg4.idle 4 i = true := by
  show (!(k4_cond2 i == 1#1)) = true
  rw [Bool.not_eq_true', beq_eq_false_iff_ne]; exact h1
theorem liveAt4_4 (i : grid4.Coords) (h1 : cond4_1 i) : cfg4.idle 4 i = false := by
  show (!(k4_cond2 i == 1#1)) = false
  rw [Bool.not_eq_false', beq_iff_eq]; exact h1
abbrev ms4_0 (t : Fin cfg4.N) : Memref sig .tc .vmem S1024x64 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024 .i32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S64x64 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S2048x64 .bf16 := win4_4.stage (cfg4.slots t 4)
abbrev hs4_4 (t : Fin cfg4.N) : (ms4_4 t).IsWhole := hstage4_4 ((cfg4.slots t 4).cast nbuf4_4)
abbrev scM4_0 : Memref sig .tc .vmem S2048x64 .f32 := Memref.whole cc4_scratch0
theorem PhiA4_eq (c : Dev nD) :
    (Pipeline.ΦA spec4 c : sProp 𝕄)
      = iprop(iprop(iprop((∃ d, owns (c : Thread nD τ) scM4_0 fullShare d)) ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl
theorem skel4_congr_realized : True := by
  have := @cc4_kernel_skel.congr_simp; have := @cc4_kernel.congr_simp
  trivial
end Cert.KernelIdeal.Hand
end
-- ==== Proof.KI.R4Run.lean ====
import proofs.«427573_j12068858102168_3_alg».proof.Proof.KI.R4Runs
import Idealize.ShloMosaic.Lib.Pipeline.Value
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
theorem hz4_1 : (![0] : Fin 1 → Nat) = fun _ => 0 := funext fun a => by fin_cases a <;> rfl
theorem hz4_2 : (![0, 0] : Fin 2 → Nat) = fun _ => 0 := funext fun a => by fin_cases a <;> rfl
variable {c : Dev nD} {i : grid4.Coords} {arg2 : Memref sig .tc .vmem S1024x64 .bf16} {harg2 : arg2.IsWhole} {arg3 : Memref sig .tc .vmem S1024 .i32} {harg3 : arg3.IsWhole} {arg4 : Memref sig .tc .vmem S2048x1 .f32} {harg4 : arg4.IsWhole} {arg5 : Memref sig .tc .vmem S64x64 .f32} {harg5 : arg5.IsWhole} {arg6 : Memref sig .tc .vmem S2048x64 .bf16} {harg6 : arg6.IsWhole} {arg7 : Memref sig .tc .vmem S2048x64 .f32} {harg7 : arg7.IsWhole}
  {x0 : Vec F S1024x64 .bf16} {x1 : Vec F S1024 .i32} {x2 : Vec F S2048x1 .f32} {x3 : Vec F S64x64 .f32} {xs0 a : Vec F S2048x64 .f32}
  {D0 D1 D2 D3 D4 : Type} {g : D4 → Vec F S2048x64 .bf16} {R G O : sProp (MT nD τ sig Unit (Elt F) ℕ (UR sig nD τ) ℕ)}
-- First point of a grid row: whatever the accumulator held, it ends at the first tile added to the initial payload.
theorem step4_A (hc0 : cond4_0 i) (hc1 : ¬cond4_1 i) (ha : a = k4_pay2 i x1 x0 (k4_pay1 (F := F))) :
    iprop(iprop(iprop((∃ d, owns (c : Thread nD τ) arg7 fullShare d) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare x3) ∗ (∃ d : D4, owns (c : Thread nD τ) arg6 fullShare (g d)))
      ⊢ wp frame (wpE (defs₀ (F := F)) Variants.none c none) Set.univ (cc4_kernel i arg2 harg2 arg3 harg3 arg4 harg4 arg5 harg5 arg6 harg6 arg7 harg7) (fun _ => iprop(iprop(iprop(owns (c : Thread nD τ) arg7 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare x3 ∗ (∃ d : D4, owns (c : Thread nD τ) arg6 fullShare (g d)))) := by
  subst ha
  simp only [cc4_kernel_eq_skeleton]; unfold cc4_kernel_skel
  unfold owns
  iintro ⟨⟨⟨⟨%ds0, %fs0, -, HS0⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  isplitl [HS0 Hr Hg]
  · isplitl [HS0 Hr]
    · isplitl [HS0]
      · iexists _; isplitr
        swap; · iexact HS0
        ipureintro
        refine (View.read_writes_eq_canon _ _ _ (View.cover_of_tiledL _ S2048x64.size ?_)).trans ?_
        · sl_kernel_rfl
        (try sl_unfold_words)
        rw [View.canon_cons_unit_zero (S := S2048x64) hz4_2, View.readCov_unit_zero (S := S2048x64) _ hz4_2]
        simp only [View.readAt_eq_ld, harg2.read_unread, harg3.read_unread, View.ld_unit_zero (S := S1024) hz4_1, View.ld_unit_zero (S := S1024x64) hz4_2]
        try rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists d4, _; isplitr; · ipureintro; exact harg6.read_unread _
  iexact H4
-- Later point of a row: the accumulator gains the point's tile.
theorem step4_B (hc0 : ¬cond4_0 i) (hc1 : ¬cond4_1 i) (ha : a = k4_pay2 i x1 x0 xs0) :
    iprop(iprop(iprop(owns (c : Thread nD τ) arg7 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare x3) ∗ (∃ d : D4, owns (c : Thread nD τ) arg6 fullShare (g d)))
      ⊢ wp frame (wpE (defs₀ (F := F)) Variants.none c none) Set.univ (cc4_kernel i arg2 harg2 arg3 harg3 arg4 harg4 arg5 harg5 arg6 harg6 arg7 harg7) (fun _ => iprop(iprop(iprop(owns (c : Thread nD τ) arg7 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare x3 ∗ (∃ d : D4, owns (c : Thread nD τ) arg6 fullShare (g d)))) := by
  subst ha
  simp only [cc4_kernel_eq_skeleton]; unfold cc4_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, %hf4, H4⟩⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0
  sl_exec (disch := first | exact hc0 | exact hc1)
  sl_step
  isplitl [HS0 Hr Hg]
  · isplitl [HS0 Hr]
    · isplitl [HS0]
      · iexists _; isplitr
        swap; · iexact HS0
        ipureintro
        refine (View.read_writes_eq_canon _ _ _ (View.cover_of_tiledL _ S2048x64.size ?_)).trans ?_
        · sl_kernel_rfl
        (try sl_unfold_words)
        rw [View.canon_unit_zero hz4_2]
        simp only [View.readAt_eq_ld, harg2.read_unread, harg3.read_unread, harg7.read_unread, View.ld_unit_zero (S := S1024) hz4_1, View.ld_unit_zero (S := S1024x64) hz4_2, View.ld_unit_zero (S := S2048x64) hz4_2]
        try rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists d4, _; isplitr; · ipureintro; exact harg6.read_unread _
  iexact H4
-- Last point of a row: the accumulator gains its tile, and the result is the accumulator scaled and projected.
theorem step4_C (hc0 : ¬cond4_0 i) (hc1 : cond4_1 i) (ha : a = k4_pay2 i x1 x0 xs0) :
    iprop(iprop(iprop(owns (c : Thread nD τ) arg7 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare x3) ∗ (∃ d : D4, owns (c : Thread nD τ) arg6 fullShare (g d)))
      ⊢ wp frame (wpE (defs₀ (F := F)) Variants.none c none) Set.univ (cc4_kernel i arg2 harg2 arg3 harg3 arg4 harg4 arg5 harg5 arg6 harg6 arg7 harg7) (fun _ => iprop(iprop(iprop(owns (c : Thread nD τ) arg7 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k4_pay3 a x2 x3))) := by
  subst ha
  simp only [cc4_kernel_eq_skeleton]; unfold cc4_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, %hf3, H3⟩, ⟨%d4, %f4, -, H4⟩⟩
  obtain rfl := harg2.eq_unread hf0; obtain rfl := harg3.eq_unread hf1; obtain rfl := harg4.eq_unread hf2; obtain rfl := harg5.eq_unread hf3; obtain rfl := harg7.eq_unread hfs0
  sl_exec (disch := first | exact hc0 | exact hc1)
  sl_step
  isplitl [HS0 Hr Hg]
  · isplitl [HS0 Hr]
    · isplitl [HS0]
      · iexists _; isplitr
        swap; · iexact HS0
        ipureintro
        refine (View.read_writes_eq_canon _ _ _ (View.cover_of_tiledL _ S2048x64.size ?_)).trans ?_
        · sl_kernel_rfl
        (try sl_unfold_words)
        rw [View.canon_unit_zero hz4_2]
        simp only [View.readAt_eq_ld, harg2.read_unread, harg3.read_unread, harg7.read_unread, View.ld_unit_zero (S := S1024) hz4_1, View.ld_unit_zero (S := S1024x64) hz4_2, View.ld_unit_zero (S := S2048x64) hz4_2]
        try rfl
      iexact Hr
    iexact Hg
  isplitl [Ho]; · iexact Ho
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (View.read_writes_eq_canon _ _ _ (View.cover_of_tiledL _ S2048x64.size ?_)).trans ?_
  · sl_kernel_rfl
  (try sl_unfold_words)
  rw [View.canon_unit_zero hz4_2]
  simp only [View.readAt_eq_ld, harg2.read_unread, harg3.read_unread, harg4.read_unread, harg5.read_unread, harg7.read_unread, View.readCov_unit_zero (S := S2048x64) _ hz4_2, View.ld_unit_zero (S := S1024) hz4_1, View.ld_unit_zero (S := S1024x64) hz4_2, View.ld_unit_zero (S := S2048x64) hz4_2, View.ld_unit_zero (S := S2048x1) hz4_2, View.ld_unit_zero (S := S64x64) hz4_2]
  try rfl
end Cert.KernelIdeal.Hand
end
-- ==== Proof.KI.R4Cond.lean ====
import proofs.«427573_j12068858102168_3_alg».proof.Proof.KI.R4Runs
import proofs.«427573_j12068858102168_3_alg».proof.Proof.KI.R2Cond

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hcond4_0 : ∀ t : Fin cfg4.N, cond4_0 (grid4.coords t) ↔ t.val % 832 = 0 := hcond2_0
theorem hcond4_1 : ∀ t : Fin cfg4.N, cond4_1 (grid4.coords t) ↔ t.val % 832 = 831 := hcond2_1
theorem flush4_4 : ∀ t : Fin cfg4.N, (cfg4.win 4).flush t = true ↔ t.val % 832 = 831 := flush2_3
theorem owns_of_writes {c : Dev nD} {S : Shape} {e : EltTy} {m : Memref sig .tc .vmem S e} {L : List (View.Piece (Elt F) S e)} {x : Vec F S e}
    (h : ∀ f, m.view.read (Elt F) (m.view.writes (Elt F) f L) = x) :
    iprop(∃ f, m.view.loc (c : Thread nD τ) ↦[m.view.set]{fullShare} m.view.writes (Elt F) f L) ⊢ (owns (c : Thread nD τ) m fullShare x : sProp 𝕄) := by
  iintro ⟨%f, H⟩
  unfold owns; iexists _; isplitr
  · ipureintro; exact h f
  · iexact H
end Cert.KernelIdeal.Hand
end
-- ==== Proof.KI.R4Acc.lean ====
import proofs.«427573_j12068858102168_3_alg».proof.Proof.KI.R4Run
import proofs.«427573_j12068858102168_3_alg».proof.Proof.KI.R4Cond
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
theorem leavesExact_live {cfg : Cfg sig Λ₀} {c : Dev nD} (dat : Dat τ (Elt F) Unit ℕ (UR sig nD τ) ℕ cfg c) (w : Fin cfg.W) (t : Fin cfg.N)
    (hl : cfg.idle w (cfg.grid.coords t) = false) :
    dat.leavesExact w t = owns (c : Thread nD τ) ((cfg.win w).stage (cfg.slots t w)) fullShare (dat.after w t) := by
  unfold Dat.leavesExact; rw [hl]
section
variable (b1 : Fin cfg4.N → Vec F S1024 .i32) (b0 : Fin cfg4.N → Vec F S1024x64 .bf16)
-- The accumulator after point n: a row of the grid starts from the initial payload, every point adds its tile.
def accG : (n : ℕ) → n < cfg4.N → Vec F S2048x64 .f32
  | 0, hn => k4_pay2 (grid4.coords ⟨0, hn⟩) (b1 ⟨0, hn⟩) (b0 ⟨0, hn⟩) (k4_pay1 (F := F))
  | n + 1, hn => k4_pay2 (grid4.coords ⟨n + 1, hn⟩) (b1 ⟨n + 1, hn⟩) (b0 ⟨n + 1, hn⟩)
      (if (n + 1) % 832 = 0 then k4_pay1 (F := F) else accG n (Nat.lt_of_succ_lt hn))
theorem accG_first (t : Fin cfg4.N) (h0 : t.val % 832 = 0) :
    accG b1 b0 t.val t.isLt = k4_pay2 (grid4.coords t) (b1 t) (b0 t) (k4_pay1 (F := F)) := by
  obtain ⟨n, hn⟩ := t
  cases n with
  | zero => rfl
  | succ n => exact congrArg (k4_pay2 _ _ _) (if_pos h0)
theorem accG_next (t : Fin cfg4.N) (h0 : ¬t.val % 832 = 0) :
    accG b1 b0 t.val t.isLt = k4_pay2 (grid4.coords t) (b1 t) (b0 t)
      (accG b1 b0 (t.val - 1) (Nat.lt_of_le_of_lt (Nat.sub_le _ _) t.isLt)) := by
  obtain ⟨n, hn⟩ := t
  cases n with
  | zero => exact absurd (Nat.zero_mod _) h0
  | succ n => exact congrArg (k4_pay2 _ _ _) (if_neg h0)
end
variable (V : Vals F) (c : Dev nD)
abbrev acc4 : (n : ℕ) → n < cfg4.N → Vec F S2048x64 .f32 := accG (iblk4 V c 1) (iblk4 V c 0)
abbrev rest4 : sProp 𝕄 :=
  Pipeline.scopedRestBut (Ix := Unit) (Name := ℕ) (U := UR sig nD τ) (Lvl := ℕ) (Val := Elt F) spec4 c [cc4_scratch0]
def PhiS4 : (n : ℕ) → n ≤ cfg4.N → sProp 𝕄
  | 0, _ => Pipeline.ΦA spec4 c
  | n + 1, hn => iprop(iprop(owns (c : Thread nD τ) scM4_0 fullShare (acc4 V c n hn) ∗ rest4 (F := F) c) ∗ (∃ r, prngReg c r))
theorem PhiS4_pos (n : ℕ) (h : n ≤ cfg4.N) (hz : n ≠ 0) :
    PhiS4 V c n h = iprop(iprop(owns (c : Thread nD τ) scM4_0 fullShare (acc4 V c (n - 1) (by omega)) ∗ rest4 (F := F) c) ∗ (∃ r, prngReg c r)) := by
  cases n with
  | zero => exact absurd rfl hz
  | succ n => rfl
def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (acc4 V c t.val t.isLt) (iblk4 V c 2 t) (iblk4 V c 3 t)
  Φ t := PhiS4 V c t.val (Nat.le_of_lt_succ t.isLt)
  q _ := fullShare
  owed _ := 0
theorem A_eq4 (w : Fin cfg4.W) : (dat4 V c).A w = V c (Pipeline.arrRef spec4 w) := by
  dsimp only [dat4]
theorem PhiS4_castSucc (t : Fin cfg4.N) :
    (dat4 V c).Φ t.castSucc = PhiS4 V c t.val (Nat.le_of_lt t.isLt) := by
  dsimp only [dat4]; simp only [Fin.coe_castSucc]
variable (t : Fin cfg4.N)
theorem after4_0 : (dat4 V c).after 0 t = iblk4 V c 0 t := by dsimp only [dat4]
theorem after4_1 : (dat4 V c).after 1 t = iblk4 V c 1 t := by dsimp only [dat4]
theorem after4_2 : (dat4 V c).after 2 t = iblk4 V c 2 t := by dsimp only [dat4]
theorem after4_3 : (dat4 V c).after 3 t = iblk4 V c 3 t := by dsimp only [dat4]
theorem after4_4 : (dat4 V c).after 4 t = k4_pay3 (acc4 V c t.val t.isLt) (iblk4 V c 2 t) (iblk4 V c 3 t) := by dsimp only [dat4]
end Cert.KernelIdeal.Hand
end
-- ==== Proof.KI.R4.lean ====
import proofs.«427573_j12068858102168_3_alg».proof.Proof.KI.R4Acc
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : Vals F) (c : Dev nD)
abbrev body4 (t : Fin cfg4.N) : Prog (TpuEff nD τ sig (Elt F) Λ₀ .tc) PUnit :=
  cc4_kernel (grid4.coords t) (ms4_0 t) (hs4_0 t) (ms4_1 t) (hs4_1 t) (ms4_2 t) (hs4_2 t) (ms4_3 t) (hs4_3 t) (ms4_4 t) (hs4_4 t) scM4_0 (Memref.isWhole_whole _)
theorem noFlush4_4 (t : Fin cfg4.N) (h1 : ¬cond4_1 (grid4.coords t)) : (cfg4.win 4).flush t = false :=
  Bool.eq_false_iff.mpr fun h => h1 ((hcond4_1 t).mpr ((flush4_4 t).mp h))
def bodyPre4 (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))
def bodyPost4 (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)
theorem PhiS4_weak (n : ℕ) (h : n ≤ cfg4.N) : PhiS4 V c n h ⊢ (Pipeline.ΦA spec4 c : sProp 𝕄) := by
  by_cases hz : n = 0
  · subst hz; exact Idealize.SL.BI.Entails.refl _
  · rw [PhiS4_pos V c _ _ hz, PhiA4_eq]
    iintro ⟨⟨HS0, Hr⟩, Hg⟩
    isplitl [HS0 Hr]
    · isplitl [HS0]
      · iexists _; iexact HS0
      iexact Hr
    iexact Hg
theorem sound_body4 (t : Fin cfg4.N) :
    bodyPre4 V c t ⊢ wp frame (wpE (defs₀ (F := F)) Variants.none c none) Set.univ (body4 t) (fun _ => bodyPost4 V c t) := by
  unfold bodyPre4 bodyPost4 body4
  simp only [show ∀ d, (dat4 V c).before 0 t d = iblk4 V c 0 t from (dat4 V c).before_in_eq_fetched 0 rfl (fun _ => rfl) (fun _ _ _ => rfl) (fun _ => rfl) t,
    show ∀ d, (dat4 V c).before 1 t d = iblk4 V c 1 t from (dat4 V c).before_in_eq_fetched 1 rfl (fun _ => rfl) (fun _ _ _ => rfl) (fun _ => rfl) t,
    show ∀ d, (dat4 V c).before 2 t d = iblk4 V c 2 t from (dat4 V c).before_in_eq_fetched 2 rfl (fun _ => rfl) (fun _ _ _ => rfl) (fun _ => rfl) t,
    show ∀ d, (dat4 V c).before 3 t d = iblk4 V c 3 t from (dat4 V c).before_in_eq_fetched 3 rfl (fun _ => rfl) (fun _ _ _ => rfl) (fun _ => rfl) t]
  rw [show (dat4 V c).owesAt () t.succ = (dat4 V c).owesAt () t.castSucc from rfl]
  rw [show (dat4 V c).Φ t.succ = iprop(iprop(owns (c : Thread nD τ) scM4_0 fullShare (acc4 V c t.val t.isLt) ∗ rest4 (F := F) c) ∗ (∃ r, prngReg c r)) from rfl]
  rw [leavesExact_live (dat4 V c) 0 t rfl, after4_0, leavesExact_live (dat4 V c) 1 t rfl, after4_1, leavesExact_live (dat4 V c) 2 t rfl, after4_2, leavesExact_live (dat4 V c) 3 t rfl, after4_3]
  rw [PhiS4_castSucc V c t]
  by_cases h1 : t.val % 832 = 831
  · have h0 : ¬t.val % 832 = 0 := by omega
    have c0 : ¬cond4_0 (grid4.coords t) := fun h => h0 ((hcond4_0 t).mp h)
    have c1 : cond4_1 (grid4.coords t) := (hcond4_1 t).mpr h1
    have hz : t.val ≠ 0 := fun e => h0 (by rw [e])
    rw [leavesExact_live (dat4 V c) 4 t (liveAt4_4 _ c1), after4_4, PhiS4_pos V c _ _ hz]
    exact step4_C c0 c1 (accG_next (iblk4 V c 1) (iblk4 V c 0) t h0)
  · have c1 : ¬cond4_1 (grid4.coords t) := fun h => h1 ((hcond4_1 t).mp h)
    rw [Dat.leavesExact_idle (dat4 V c) 4 t (idleAt4_4 (grid4.coords t) c1) (noFlush4_4 t c1)]
    by_cases h0 : t.val % 832 = 0
    · refine (sep_mono_l (PhiS4_weak V c _ _)).trans ?_
      rw [PhiA4_eq]
      exact step4_A ((hcond4_0 t).mpr h0) c1 (accG_first (iblk4 V c 1) (iblk4 V c 0) t h0)
    · have hz : t.val ≠ 0 := fun e => h0 (by rw [e])
      rw [PhiS4_pos V c _ _ hz]
      exact step4_B (fun h => h0 ((hcond4_0 t).mp h)) c1 (accG_next (iblk4 V c 1) (iblk4 V c 0) t h0)
theorem body_obligation4 : BodyObligation (dat4 (F := F) V c) (defs₀ (F := F)) Variants.none () Set.univ := fun t => by
  rw [bigSep_W4, bigSep_W4]
  exact sound_body4 V c t
theorem hin4 : (Pipeline.ΦA spec4 c : sProp 𝕄) ⊢ (dat4 V c).Φ 0 :=
  Idealize.SL.BI.Entails.refl _
theorem hout4 : (dat4 V c).Φ (Fin.last cfg4.N) ⊢ (Pipeline.ΦA spec4 c : sProp 𝕄) :=
  PhiS4_weak V c _ (Nat.le_of_lt_succ (Fin.last cfg4.N).isLt)
def rp4 : RegionProof F cfg4 where
  dat := dat4
  A_eq := A_eq4
  q_eq := fun _ _ _ => rfl
  owed_eq := fun _ _ _ => rfl
  rec_eq := fun _ _ _ => rfl
  body := body_obligation4
  hin := hin4
  hout := hout4
end Cert.KernelIdeal.Hand
end
-- ==== Proof.KI.R5Runs.lean ====
import proofs.«427573_j12068858102168_3_alg».proof.Proof.KI.RegionProof

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

noncomputable def iblk5 (V : Vals F) (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev ms5_0 (t : Fin cfg5.N) : Memref sig .tc .vmem S4096 .i32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S51200x64 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x64 .bf16 := win5_2.stage (cfg5.slots t 2)
abbrev hs5_2 (t : Fin cfg5.N) : (ms5_2 t).IsWhole := hstage5_2 ((cfg5.slots t 2).cast nbuf5_2)

abbrev scM5_0 : Memref sig .tc .vmem S4096x64 .f32 := Memref.whole cc5_scratch0

abbrev rest5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA (U := UR sig nD τ) spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.KernelIdeal.Hand

end
-- ==== Proof.KI.R5.lean ====
import proofs.«427573_j12068858102168_3_alg».proof.Proof.KI.R1Run
import proofs.«427573_j12068858102168_3_alg».proof.Proof.KI.R1Cond
import proofs.«427573_j12068858102168_3_alg».proof.Proof.KI.R5Runs

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

/-- The accumulator after each point, from the two input blocks of the points so far. -/
abbrev acc5 (V : Vals F) (c : Dev nD) : (n : ℕ) → n < grid1.N → Vec F S4096x64 .f32 :=
  gacc (fun t => iblk5 V c 0 t) (fun t => iblk5 V c 1 t)

def dat5 (V : Vals F) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => k1_pay3 (acc5 V c t.val t.isLt)
  Φ t := gPhi c (Pipeline.ΦA (U := UR sig nD τ) spec5 c) (rest5 (F := F) c) scM5_0 (acc5 V c) t.val (Nat.le_of_lt_succ t.isLt)
  q _ := fullShare
  owed _ := 0

/-- The body at any point: the reduction coordinate says which case the point is in, and that case's step applies. -/
theorem body5 (V : Vals F) (c : Dev nD) (t : Fin cfg5.N) :
    iprop((dat5 V c).Φ t.castSucc ∗ (dat5 V c).owesAt () t.castSucc
        ∗ (∃ d, owns (c : Thread nD τ) (ms5_0 t) fullShare ((dat5 V c).before 0 t d))
        ∗ (∃ d, owns (c : Thread nD τ) (ms5_1 t) fullShare ((dat5 V c).before 1 t d))
        ∗ (∃ d, owns (c : Thread nD τ) (ms5_2 t) fullShare ((dat5 V c).before 2 t d)))
      ⊢ wp frame (wpE (defs₀ (F := F)) Variants.none c none) Set.univ
          (cc1_kernel (grid1.coords t) (ms5_0 t) (hs5_0 t) (ms5_1 t) (hs5_1 t) (ms5_2 t) (hs5_2 t) scM5_0 (Memref.isWhole_whole _))
          (fun _ => iprop((dat5 V c).Φ t.succ ∗ (dat5 V c).owesAt () t.succ ∗ (dat5 V c).leavesExact 0 t ∗ (dat5 V c).leavesExact 1 t ∗ (dat5 V c).leavesExact 2 t)) := by
  simp only [show ∀ d, (dat5 V c).before 0 t d = iblk5 V c 0 t from (dat5 V c).before_in_eq_fetched 0 rfl (fun _ => rfl) (fun _ _ _ => rfl) (fun _ => rfl) t,
    show ∀ d, (dat5 V c).before 1 t d = iblk5 V c 1 t from (dat5 V c).before_in_eq_fetched 1 rfl (fun _ => rfl) (fun _ _ _ => rfl) (fun _ => rfl) t]
  rw [show (dat5 V c).owesAt () t.succ = (dat5 V c).owesAt () t.castSucc from rfl,
    show (dat5 V c).Φ t.succ = iprop(iprop(owns (c : Thread nD τ) scM5_0 fullShare (acc5 V c t.val t.isLt) ∗ rest5 (F := F) c) ∗ (∃ r, prngReg c r)) from rfl,
    leaves_live (dat5 V c) 0 t (liveAt1_0 (grid1.coords t)), leaves_live (dat5 V c) 1 t (liveAt1_1 (grid1.coords t))]
  by_cases h0 : t.val % 100 = 0
  · have hB : ¬cond1_1 (grid1.coords t) := fun h => by have := (hcond1_1 t).mp h; omega
    rw [Dat.leavesExact_idle (dat5 V c) 2 t (idleAt1_2 _ hB) (noFlush1_2 t hB)]
    exact (sep_mono_l (gPhi_some c _ _ _ _ (PhiA5_eq c) _ _)).trans
      (step1_A ((hcond1_0 t).mpr h0) hB (gacc_first _ _ t h0))
  · have hA : ¬cond1_0 (grid1.coords t) := fun h => h0 ((hcond1_0 t).mp h)
    rw [show (dat5 V c).Φ t.castSucc = iprop(iprop(owns (c : Thread nD τ) scM5_0 fullShare (acc5 V c (t.val - 1) (Nat.lt_of_le_of_lt (Nat.sub_le _ _) t.isLt)) ∗ rest5 (F := F) c) ∗ (∃ r, prngReg c r))
      from gPhi_pos _ _ _ _ _ _ _ (show t.val ≠ 0 by omega)]
    by_cases hl : t.val % 100 = 99
    · rw [leaves_live (dat5 V c) 2 t (liveAt1_2 _ ((hcond1_1 t).mpr hl))]
      exact step1_C hA ((hcond1_1 t).mpr hl) (gacc_next _ _ t h0)
    · have hB : ¬cond1_1 (grid1.coords t) := fun h => hl ((hcond1_1 t).mp h)
      rw [Dat.leavesExact_idle (dat5 V c) 2 t (idleAt1_2 _ hB) (noFlush1_2 t hB)]
      exact step1_B hA hB (gacc_next _ _ t h0)

def rp5 : RegionProof F cfg5 where
  dat := dat5
  A_eq := fun _ _ _ => rfl
  q_eq := fun _ _ _ => rfl
  owed_eq := fun _ _ _ => rfl
  rec_eq := fun _ _ _ => rfl
  body := fun V c t => by rw [bigSep_W1, bigSep_W1]; exact body5 V c t
  hin := fun V c => Entails.refl _
  hout := fun V c => by rw [PhiA5_eq]; exact gPhi_some c _ _ _ (acc5 V c) (PhiA5_eq c) grid1.N (Nat.le_refl _)

end Cert.KernelIdeal.Hand

end
-- ==== Proof.KI.R6Cond.lean ====
import proofs.«427573_j12068858102168_3_alg».proof.Proof.KI.R4Cond
noncomputable section
namespace Cert.KernelIdeal.Hand
open Idealize.ShloMosaic Idealize.ShloMosaic.TcCoe
open Idealize.SL Idealize.SL.Sem
open Cert.KernelIdeal
abbrev cond6_0 (i : grid6.Coords) : Prop := (Scalar.cmpi .ne (Scalar.extui (Scalar.cmpi .eq (BitVec.ofNat 32 (i 1).val) 0#32)) 0#32) = 1#1
abbrev cond6_1 (i : grid6.Coords) : Prop := k6_cond2 i = 1#1
-- Regions 4 and 6 run over one grid with the same conditions and the same result window index, so region 4's facts serve.
theorem hcond6_0 : ∀ t : Fin cfg6.N, cond6_0 (grid6.coords t) ↔ t.val % 832 = 0 := hcond4_0
theorem hcond6_1 : ∀ t : Fin cfg6.N, cond6_1 (grid6.coords t) ↔ t.val % 832 = 831 := hcond4_1
theorem flush6_3 : ∀ t : Fin cfg6.N, (cfg6.win 3).flush t = true ↔ t.val % 832 = 831 := flush4_4
end Cert.KernelIdeal.Hand
end
-- ==== Proof.KI.R6Runs.lean ====
import proofs.«427573_j12068858102168_3_alg».proof.Proof.KI.RegionProof
import proofs.«427573_j12068858102168_3_alg».proof.Proof.KI.R6Cond

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ
noncomputable def iblk6 (V : Vals F) (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))
theorem idleAt6_3_of : ∀ t : Fin cfg6.N, ¬cond6_1 (grid6.coords t) → cfg6.idle 3 (grid6.coords t) = true := fun t h1 => by
  show (!(k6_cond2 (grid6.coords t) == 1#1)) = true
  rw [Bool.not_eq_true', beq_eq_false_iff_ne]; exact h1
theorem liveAt6_3_C : ∀ t : Fin cfg6.N, ¬cond6_0 (grid6.coords t) → cond6_1 (grid6.coords t) → cfg6.idle 3 (grid6.coords t) = false := fun t _ h1 => by
  show (!(k6_cond2 (grid6.coords t) == 1#1)) = false
  rw [Bool.not_eq_false', beq_iff_eq]; exact h1
abbrev ms6_0 (t : Fin cfg6.N) : Memref sig .tc .vmem S1024x64 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024 .i32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x1 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S2048x64 .f32 := win6_3.stage (cfg6.slots t 3)
abbrev hs6_3 (t : Fin cfg6.N) : (ms6_3 t).IsWhole := hstage6_3 ((cfg6.slots t 3).cast nbuf6_3)
abbrev scM6_0 : Memref sig .tc .vmem S2048x64 .f32 := Memref.whole cc6_scratch0
theorem PhiA6_eq (c : Dev nD) :
    (Pipeline.ΦA (U := UR sig nD τ) spec6 c : sProp 𝕄)
      = iprop(iprop(iprop((∃ d, owns (c : Thread nD τ) scM6_0 fullShare d))
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl
end Cert.KernelIdeal.Hand
end
-- ==== Proof.KI.R6RunA.lean ====
import proofs.«427573_j12068858102168_3_alg».proof.Proof.KI.R6Runs
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

theorem hz6_1 : (![0] : Fin 1 → Nat) = fun _ => 0 := funext fun a => by fin_cases a <;> rfl
theorem hz6_2 : (![0, 0] : Fin 2 → Nat) = fun _ => 0 := funext fun a => by fin_cases a <;> rfl

section
variable {c : Dev nD} {i : grid6.Coords} {arg2 : Memref sig .tc .vmem S1024x64 .bf16} {harg2 : arg2.IsWhole} {arg3 : Memref sig .tc .vmem S1024 .i32} {harg3 : arg3.IsWhole} {arg4 : Memref sig .tc .vmem S2048x1 .f32} {harg4 : arg4.IsWhole} {arg5 : Memref sig .tc .vmem S2048x64 .f32} {harg5 : arg5.IsWhole} {arg6 : Memref sig .tc .vmem S2048x64 .f32} {harg6 : arg6.IsWhole}
  {x0 : Vec F S1024x64 .bf16} {x1 : Vec F S1024 .i32} {x2 : Vec F S2048x1 .f32} {xs0 : Vec F S2048x64 .f32}
  {D0 D1 D2 D3 : Type} {g : D3 → Vec F S2048x64 .f32} {R G O : sProp (MT nD τ sig Unit (Elt F) ℕ (UR sig nD τ) ℕ)} {a : Vec F S2048x64 .f32}

/-- The body at the first step of a row, framed: the accumulator is taken at anything and left at the step from the initial value. -/
theorem step6_A (hc0 : cond6_0 i) (hc1 : ¬cond6_1 i) (ha : a = k6_pay2 i x1 x0 (k6_pay1 (F := F))) :
    iprop(iprop(iprop((∃ d, owns (c : Thread nD τ) arg6 fullShare d) ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare (g d)))
      ⊢ wp frame (wpE (defs₀ (F := F)) Variants.none c none) Set.univ (cc6_kernel i arg2 harg2 arg3 harg3 arg4 harg4 arg5 harg5 arg6 harg6) (fun _ => iprop(iprop(iprop(owns (c : Thread nD τ) arg6 fullShare a ∗ R) ∗ G) ∗ O ∗ owns (c : Thread nD τ) arg2 fullShare x0 ∗ owns (c : Thread nD τ) arg3 fullShare x1 ∗ owns (c : Thread nD τ) arg4 fullShare x2 ∗ (∃ d : D3, owns (c : Thread nD τ) arg5 fullShare (g d)))) := by
  subst ha
  simp only [cc6_kernel_eq_skeleton]; unfold cc6_kernel_skel
  unfold owns
  iintro ⟨⟨⟨⟨%ds0, %fs0, -, HS0⟩, Hr⟩, Hg⟩, Ho, ⟨%d0, %f0, %hf0, H0⟩, ⟨%d1, %f1, %hf1, H1⟩, ⟨%d2, %f2, %hf2, H2⟩, ⟨%d3, %f3, %hf3, H3⟩⟩
  obtain rfl := harg2.eq_unread hf0; obtain rfl := harg3.eq_unread hf1; obtain rfl := harg4.eq_unread hf2; obtain rfl := harg5.eq_unread hf3
  sl_exec (disch := first | exact hc0 | exact hc1)
  sl_step
  iframe Hr Hg Ho
  isplitl [HS0]
  · iexists _; isplitr
    swap; · iexact HS0
    ipureintro
    refine (View.read_writes_eq_canon _ _ _ (View.cover_of_tiledL _ S2048x64.size ?_)).trans ?_
    · sl_kernel_rfl
    sl_unfold_words
    rw [View.canon_cons_unit_zero (S := S2048x64) hz6_2]
    simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists d3, _; isplitr; · ipureintro; exact harg5.read_unread _
  iexact H3

/-- At a middle step: the accumulator is taken at `xs0` and left one step further. -/
theorem step6_B (hc0 : ¬cond6_0 i) (hc1 : ¬cond6_1 i) (ha : a = k6_pay2 i x1 x0 xs0) :
    iprop(iprop(iprop(owns (c : Thread nD τ) arg6 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare (g d)))
      ⊢ wp frame (wpE (defs₀ (F := F)) Variants.none c none) Set.univ (cc6_kernel i arg2 harg2 arg3 harg3 arg4 harg4 arg5 harg5 arg6 harg6) (fun _ => iprop(iprop(iprop(owns (c : Thread nD τ) arg6 fullShare a ∗ R) ∗ G) ∗ O ∗ owns (c : Thread nD τ) arg2 fullShare x0 ∗ owns (c : Thread nD τ) arg3 fullShare x1 ∗ owns (c : Thread nD τ) arg4 fullShare x2 ∗ (∃ d : D3, owns (c : Thread nD τ) arg5 fullShare (g d)))) := by
  subst ha
  simp only [cc6_kernel_eq_skeleton]; unfold cc6_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, %hf3, H3⟩⟩
  obtain rfl := harg2.eq_unread hf0; obtain rfl := harg3.eq_unread hf1; obtain rfl := harg4.eq_unread hf2; obtain rfl := harg5.eq_unread hf3
  obtain rfl := harg6.eq_unread hfs0
  sl_exec (disch := first | exact hc0 | exact hc1)
  sl_step
  iframe Hr Hg Ho
  isplitl [HS0]
  · iexists _; isplitr
    swap; · iexact HS0
    ipureintro
    refine (View.read_writes_eq_canon _ _ _ (View.cover_of_tiledL _ S2048x64.size ?_)).trans ?_
    · sl_kernel_rfl
    sl_unfold_words
    rw [View.canon_unit_zero hz6_2]
    simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists d3, _; isplitr; · ipureintro; exact harg5.read_unread _
  iexact H3

/-- At the last step of a row: as at a middle step, and the result block is left at the accumulator scaled. -/
theorem step6_C (hc0 : ¬cond6_0 i) (hc1 : cond6_1 i) (ha : a = k6_pay2 i x1 x0 xs0) :
    iprop(iprop(iprop(owns (c : Thread nD τ) arg6 fullShare xs0 ∗ R) ∗ G) ∗ O ∗ (∃ d : D0, owns (c : Thread nD τ) arg2 fullShare x0) ∗ (∃ d : D1, owns (c : Thread nD τ) arg3 fullShare x1) ∗ (∃ d : D2, owns (c : Thread nD τ) arg4 fullShare x2) ∗ (∃ d : D3, owns (c : Thread nD τ) arg5 fullShare (g d)))
      ⊢ wp frame (wpE (defs₀ (F := F)) Variants.none c none) Set.univ (cc6_kernel i arg2 harg2 arg3 harg3 arg4 harg4 arg5 harg5 arg6 harg6) (fun _ => iprop(iprop(iprop(owns (c : Thread nD τ) arg6 fullShare a ∗ R) ∗ G) ∗ O ∗ owns (c : Thread nD τ) arg2 fullShare x0 ∗ owns (c : Thread nD τ) arg3 fullShare x1 ∗ owns (c : Thread nD τ) arg4 fullShare x2 ∗ owns (c : Thread nD τ) arg5 fullShare (k6_pay3 a x2))) := by
  subst ha
  simp only [cc6_kernel_eq_skeleton]; unfold cc6_kernel_skel
  unfold owns
  iintro ⟨⟨⟨⟨%fs0, %hfs0, HS0⟩, Hr⟩, Hg⟩, Ho, ⟨%d0, %f0, %hf0, H0⟩, ⟨%d1, %f1, %hf1, H1⟩, ⟨%d2, %f2, %hf2, H2⟩, ⟨%d3, %f3, -, H3⟩⟩
  obtain rfl := harg2.eq_unread hf0; obtain rfl := harg3.eq_unread hf1; obtain rfl := harg4.eq_unread hf2
  obtain rfl := harg6.eq_unread hfs0
  sl_exec (disch := first | exact hc0 | exact hc1)
  sl_step
  iframe Hr Hg Ho
  isplitl [HS0]
  · iexists _; isplitr
    swap; · iexact HS0
    ipureintro
    refine (View.read_writes_eq_canon _ _ _ (View.cover_of_tiledL _ S2048x64.size ?_)).trans ?_
    · sl_kernel_rfl
    sl_unfold_words
    rw [View.canon_unit_zero hz6_2]
    simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  iexists _; isplitr
  swap; · iexact H3
  ipureintro
  refine (View.read_writes_eq_canon _ _ _ (View.cover_of_tiledL _ S2048x64.size ?_)).trans ?_
  · sl_kernel_rfl
  sl_unfold_words
  rw [View.canon_unit_zero hz6_2]
  simp only [View.readAt_eq_ld, harg2.read_unread, harg3.read_unread, harg4.read_unread, harg5.read_unread, harg6.read_unread, View.ld_unit_zero (S := S1024x64) hz6_2, View.ld_unit_zero (S := S1024) hz6_1, View.ld_unit_zero (S := S2048x1) hz6_2, View.ld_unit_zero (S := S2048x64) hz6_2, View.readCov_unit_zero (S := S2048x64) _ hz6_2]

end

end Cert.KernelIdeal.Hand

end
-- ==== Proof.KI.R6Pieces.lean ====
import proofs.«427573_j12068858102168_3_alg».proof.Proof.KI.R6RunA
import proofs.«427573_j12068858102168_3_alg».proof.Proof.KI.R4Acc

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : Vals F) (c : Dev nD)

abbrev acc6 : (n : ℕ) → n < cfg6.N → Vec F S2048x64 .f32 := accG (iblk6 V c 1) (iblk6 V c 0)

abbrev rest6 : sProp 𝕄 :=
  Pipeline.scopedRestBut (Ix := Unit) (Name := ℕ) (U := UR sig nD τ) (Lvl := ℕ) (Val := Elt F) spec6 c [cc6_scratch0]

def PhiS6 : (n : ℕ) → n ≤ cfg6.N → sProp 𝕄
  | 0, _ => Pipeline.ΦA (U := UR sig nD τ) spec6 c
  | n + 1, hn => iprop(iprop(owns (c : Thread nD τ) scM6_0 fullShare (acc6 V c n hn) ∗ rest6 (F := F) c) ∗ (∃ r, prngReg c r))

theorem PhiS6_pos (n : ℕ) (h : n ≤ cfg6.N) (hz : n ≠ 0) :
    PhiS6 V c n h = iprop(iprop(owns (c : Thread nD τ) scM6_0 fullShare (acc6 V c (n - 1) (by omega)) ∗ rest6 (F := F) c) ∗ (∃ r, prngReg c r)) := by
  cases n with
  | zero => exact absurd rfl hz
  | succ n => rfl

def dat6 : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val t.isLt) (iblk6 V c 2 t)
  Φ t := PhiS6 V c t.val (Nat.le_of_lt_succ t.isLt)
  q _ := fullShare
  owed _ := 0

theorem after6_3 (t : Fin cfg6.N) : (dat6 V c).after 3 t = k6_pay3 (acc6 V c t.val t.isLt) (iblk6 V c 2 t) := rfl

end Cert.KernelIdeal.Hand

end
-- ==== Proof.KI.R6.lean ====
import proofs.«427573_j12068858102168_3_alg».proof.Proof.KI.R6Pieces

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat)
open Cert.KernelIdeal Cert.KernelIdeal.Gen

variable {F : FTy → Type} [FloatOps F]

local notation "𝕄" => MT nD τ sig Unit (Elt F) ℕ (UR sig nD τ) ℕ

variable (V : Vals F) (c : Dev nD)

theorem PhiS6_weak (n : ℕ) (h : n ≤ cfg6.N) : PhiS6 V c n h ⊢ iprop(iprop(iprop((∃ d, owns (c : Thread nD τ) scM6_0 fullShare d)) ∗ rest6 (F := F) c) ∗ (∃ r, prngReg c r)) := by
  cases n with
  | zero => rw [← PhiA6_eq (F := F) c]; exact Entails.refl _
  | succ n =>
    show iprop(iprop(owns (c : Thread nD τ) scM6_0 fullShare (acc6 V c n h) ∗ rest6 (F := F) c) ∗ (∃ r, prngReg c r)) ⊢ _
    iintro ⟨⟨HS0, Hr⟩, Hg⟩
    iframe Hr Hg
    iexists _; iexact HS0

/-- The body at any point: the row coordinate says which case the point is in, and that case's step applies. -/
theorem sound_body6 (t : Fin cfg6.N) :
    iprop((dat6 V c).Φ t.castSucc ∗ (dat6 V c).owesAt () t.castSucc
        ∗ (∃ d, owns (c : Thread nD τ) (ms6_0 t) fullShare ((dat6 V c).before 0 t d))
        ∗ (∃ d, owns (c : Thread nD τ) (ms6_1 t) fullShare ((dat6 V c).before 1 t d))
        ∗ (∃ d, owns (c : Thread nD τ) (ms6_2 t) fullShare ((dat6 V c).before 2 t d))
        ∗ (∃ d, owns (c : Thread nD τ) (ms6_3 t) fullShare ((dat6 V c).before 3 t d)))
      ⊢ wp frame (wpE (defs₀ (F := F)) Variants.none c none) Set.univ
          (cc6_kernel (grid6.coords t) (ms6_0 t) (hs6_0 t) (ms6_1 t) (hs6_1 t) (ms6_2 t) (hs6_2 t) (ms6_3 t) (hs6_3 t) scM6_0 (Memref.isWhole_whole _))
          (fun _ => iprop((dat6 V c).Φ t.succ ∗ (dat6 V c).owesAt () t.succ ∗ (dat6 V c).leavesExact 0 t ∗ (dat6 V c).leavesExact 1 t ∗ (dat6 V c).leavesExact 2 t ∗ (dat6 V c).leavesExact 3 t)) := by
  simp only [show ∀ d, (dat6 V c).before 0 t d = iblk6 V c 0 t from (dat6 V c).before_in_eq_fetched 0 rfl (fun _ => rfl) (fun _ _ _ => rfl) (fun _ => rfl) t,
    show ∀ d, (dat6 V c).before 1 t d = iblk6 V c 1 t from (dat6 V c).before_in_eq_fetched 1 rfl (fun _ => rfl) (fun _ _ _ => rfl) (fun _ => rfl) t,
    show ∀ d, (dat6 V c).before 2 t d = iblk6 V c 2 t from (dat6 V c).before_in_eq_fetched 2 rfl (fun _ => rfl) (fun _ _ _ => rfl) (fun _ => rfl) t]
  rw [show (dat6 V c).owesAt () t.succ = (dat6 V c).owesAt () t.castSucc from rfl,
    show (dat6 V c).Φ t.succ = iprop(iprop(owns (c : Thread nD τ) scM6_0 fullShare (acc6 V c t.val t.isLt) ∗ rest6 (F := F) c) ∗ (∃ r, prngReg c r)) from rfl,
    show (dat6 V c).Φ t.castSucc = PhiS6 V c t.val (Nat.le_of_lt t.isLt) from rfl,
    leavesExact_live (dat6 V c) 0 t rfl, leavesExact_live (dat6 V c) 1 t rfl, leavesExact_live (dat6 V c) 2 t rfl]
  by_cases h1 : t.val % 832 = 831
  · have h0 : ¬t.val % 832 = 0 := by omega
    have c1 : cond6_1 (grid6.coords t) := (hcond6_1 t).mpr h1
    rw [leavesExact_live (dat6 V c) 3 t (liveAt6_3_C t (fun h => h0 ((hcond6_0 t).mp h)) c1), PhiS6_pos V c _ _ (show t.val ≠ 0 by omega)]
    exact step6_C (fun h => h0 ((hcond6_0 t).mp h)) c1 (accG_next (iblk6 V c 1) (iblk6 V c 0) t h0)
  · have c1 : ¬cond6_1 (grid6.coords t) := fun h => h1 ((hcond6_1 t).mp h)
    rw [Dat.leavesExact_idle (dat6 V c) 3 t (idleAt6_3_of t c1) (Bool.eq_false_iff.mpr fun h => h1 ((flush6_3 t).mp h))]
    by_cases h0 : t.val % 832 = 0
    · exact (sep_mono_l (PhiS6_weak V c _ _)).trans (step6_A ((hcond6_0 t).mpr h0) c1 (accG_first (iblk6 V c 1) (iblk6 V c 0) t h0))
    · rw [PhiS6_pos V c _ _ (show t.val ≠ 0 by omega)]
      exact step6_B (fun h => h0 ((hcond6_0 t).mp h)) c1 (accG_next (iblk6 V c 1) (iblk6 V c 0) t h0)

def rp6 : RegionProof F cfg6 where
  dat := dat6
  A_eq := fun _ _ _ => rfl
  q_eq := fun _ _ _ => rfl
  owed_eq := fun _ _ _ => rfl
  rec_eq := fun _ _ _ => rfl
  body := fun V c t => by rw [bigSep_W6, bigSep_W6]; exact sound_body6 V c t
  hin := fun V c => Entails.refl _
  hout := fun V c => by rw [PhiA6_eq]; exact PhiS6_weak V c _ (Nat.le_of_lt_succ (Fin.last cfg6.N).isLt)

end Cert.KernelIdeal.Hand

end
-- ==== Proof.Spec.lean ====
import Idealize.ShloMosaic.PureOps.Ideal
import Mathlib.Algebra.BigOperators.Group.Finset.Basic

noncomputable section

open scoped BigOperators
open Idealize.ShloMosaic

namespace Cert.Spec

def code (n : ℕ) : BitVec 32 := BitVec.ofNat 32 n

def ind (p : Prop) [Decidable p] : EReal := if p then 1 else 0

def lin {ι κ κ' : Type} [Fintype κ] (x : ι → κ → EReal) (w : κ' → κ → EReal) (i : ι) (f : κ') : EReal :=
  ∑ j, x i j * w f j

def gath {ε φ : Type} (N : ℕ) (src : ε → BitVec 32) (x : Fin N → φ → EReal) (e : ε) (f : φ) : EReal :=
  ∑ n : Fin N, ind (src e = code n.val) * x n f

def scat {φ : Type} (L : ℕ) (dst : Fin L → BitVec 32) (g : Fin L → φ → EReal) (n : ℕ) (f : φ) : EReal :=
  ∑ e : Fin L, ind (code n = dst e) * g e f

def deg (L : ℕ) (dst : Fin L → BitVec 32) (n : ℕ) : EReal :=
  ∑ e : Fin L, ind (code n = dst e)

def one : EReal := Ideal.ofBits .f32 0x3F800000#32

def invd (d : EReal) : EReal := Ideal.div one (max d one)

def agg (E N : ℕ) (src dst : Fin E → BitVec 32) (z : Fin N → Fin 64 → EReal) (n : Fin N) (f : Fin 64) : EReal :=
  scat E dst (gath N src z) n.val f * invd (deg E dst n.val)

def refLayer (E N : ℕ) (src dst : Fin E → BitVec 32) (x : Fin N → Fin 64 → EReal) (w : Fin 64 → Fin 64 → EReal) :
    Fin N → Fin 64 → EReal :=
  lin (agg E N src dst x) w

end Cert.Spec

end
-- ==== Proof.Val.GatherCommon.lean ====
import proofs.«427573_j12068858102168_3_alg».proof.Proof.Spec
import proofs.«427573_j12068858102168_3_alg».proof.Proof.Gen.KernelIdeal.Skeleton
import Idealize.ShloMosaic.Lib.ValueIdx
import Idealize.ShloMosaic.Lib.ValueLayout
import Idealize.ShloMosaic.PureOps.Ideal.Laws
import Idealize.ShloMosaic.Lib.Pipeline.Value
import Mathlib.Data.Fintype.BigOperators

noncomputable section

open scoped BigOperators
open Idealize.ShloMosaic Idealize.ShloMosaic.ValueIdx
open Cert.KernelIdeal Cert.KernelIdeal.Gen

namespace Cert.KernelIdeal.Val

theorem code_word (k r : ℕ) :
    IntOp.addi (Scalar.muli (BitVec.ofNat 32 k) 512#32) (BitVec.ofNat 32 r) = Cert.Spec.code (512 * k + r) := by
  unfold IntOp.addi Scalar.muli IntOp.muli Cert.Spec.code
  apply BitVec.eq_of_toNat_eq
  simp only [BitVec.toNat_add, BitVec.toNat_mul, BitVec.toNat_ofNat]
  omega

theorem onehot_word (a b : BitVec 32) :
    (FloatOps.sitofp (F := Ideal) .f32 ((IntOp.cmpi .eq a b).setWidth 32) : EReal) = Cert.Spec.ind (a = b) := by
  show (((((IntOp.cmpi .eq a b).setWidth 32).toInt : ℤ) : ℝ) : EReal) = _
  unfold IntOp.cmpi Cert.Spec.ind
  by_cases h : a = b
  · subst h; simp
  · have hb : (a == b) = false := by simpa using h
    simp [hb, h]

-- A product of two matrices into the zero accumulator, at an entry: the sum over the one contracted coordinate.
theorem matmul2_apply {M K N : ℕ} {φ₁ φ₂ : FTy} (D : DotDims ⟨2, ![M, K]⟩ ⟨2, ![K, N]⟩ ⟨2, ![M, N]⟩)
    (hk : D.contr.rank = 1) (hs : D.contr.size ⟨0, by omega⟩ = K) (hl : D.lhsContracting = [1]) (hr : D.rhsContracting = [0])
    (h0 : ∀ j k, (D.lhsIdx j k 0).val = (j 0).val) (h1 : ∀ j k, (D.rhsIdx j k 1).val = (j 1).val)
    (A : FVec Ideal ⟨2, ![M, K]⟩ φ₁) (B : FVec Ideal ⟨2, ![K, N]⟩ φ₂) (r : Fin M) (f : Fin N) :
    FloatOps.matmul D none A B (constant (F := Ideal) ⟨2, ![M, N]⟩ .f32 0x00000000#32) (ix2 r f)
      = ∑ q : Fin K, A (ix2 r q) * B (ix2 q f) := by
  rw [Ideal.matmul_constant_zero_apply, ← Equiv.sum_comp (contrEquiv1 D K hk hs).symm]
  refine Finset.sum_congr rfl fun q _ => ?_
  have hq := contrEquiv1_symm_val D K hk hs q
  refine congrArg₂ (· * ·) (congrArg A (funext fun a => Fin.ext ?_)) (congrArg B (funext fun a => Fin.ext ?_))
  · match a with
    | ⟨0, _⟩ => exact h0 _ _
    | ⟨1, _⟩ => exact (D.lhsIdx_val_of_single hl _ _).trans hq
  · match a with
    | ⟨0, _⟩ => exact (D.rhsIdx_val_of_single hr _ _).trans hq
    | ⟨1, _⟩ => exact h1 _ _

theorem gdot_apply (lhs : FVec Ideal S4096x512 .bf16) (rhs : FVec Ideal S512x64 .bf16) (e : Fin 4096) (f : Fin 64) :
    FloatOps.matmul dot_S4096x512_S512x64_S4096x64_1_0_0_1_n_n none lhs rhs (constant (F := Ideal) S4096x64 .f32 0x00000000#32) (ix2 e f)
      = ∑ r : Fin 512, lhs (ix2 e r) * rhs (ix2 r f) :=
  matmul2_apply dot_S4096x512_S512x64_S4096x64_1_0_0_1_n_n rfl rfl rfl rfl
    (fun j k => by simp [DotDims.lhsIdx, dot_S4096x512_S512x64_S4096x64_1_0_0_1_n_n]; rfl)
    (fun j k => by simp [DotDims.rhsIdx, dot_S4096x512_S512x64_S4096x64_1_0_0_1_n_n]; rfl) lhs rhs e f

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem srcCol_apply (src : IVec S4096 32) (e : Fin 4096) (r : Fin 512) :
    broadcastTo S4096x512 (shapeCast S4096x1 (shapeCast S4096 src shapeCasts_S4096_S4096) shapeCasts_S4096_S4096x1)
      broadcasts_S4096x1_S4096x512 (ix2 e r) = src (ix1 e) := by
  rw [broadcastTo_a1_ab_apply, shapeCast_a_a1_apply, shapeCast_self]

theorem nodeRow_apply (w : BitVec 32) (e : Fin 4096) (r : Fin 512) :
    broadcastTo S4096x512 (addi (broadcast S1x512 w) (iota .tc S1x512 32 [1] iota_S1x512_d1_w32))
      broadcasts_S1x512_S4096x512 (ix2 e r) = IntOp.addi w (BitVec.ofNat 32 r.val) := by
  refine (broadcastTo_1b_ab_apply _ _ e r).trans ?_
  show IntOp.addi w (iota .tc S1x512 32 [1] iota_S1x512_d1_w32 (ix2 (0 : Fin 1) r)) = _
  rw [iota_single_apply]

theorem onehot_apply (k : ℕ) (src : IVec S4096 32) (e : Fin 4096) (r : Fin 512) :
    truncf (F := Ideal) .bf16 (sitofp (F := Ideal) .f32 (extui 32 (cmpi .eq
        (broadcastTo S4096x512 (shapeCast S4096x1 (shapeCast S4096 src shapeCasts_S4096_S4096) shapeCasts_S4096_S4096x1)
          broadcasts_S4096x1_S4096x512)
        (broadcastTo S4096x512 (addi (broadcast S1x512 (Scalar.muli (BitVec.ofNat 32 k) 512#32))
          (iota .tc S1x512 32 [1] iota_S1x512_d1_w32)) broadcasts_S1x512_S4096x512)) natLt_1_32)) bitsLt_bf16_f32 (ix2 e r)
      = Cert.Spec.ind (src (ix1 e) = Cert.Spec.code (512 * k + r.val)) := by
  change FloatOps.sitofp (F := Ideal) .f32 ((IntOp.cmpi .eq _ _).setWidth 32) = _
  rw [srcCol_apply, nodeRow_apply, code_word]
  exact onehot_word _ _

theorem sum_range_tile_succ {M : Type*} [AddCommMonoid M] (T k : ℕ) (g : ℕ → M) :
    ∑ n ∈ Finset.range (T * (k + 1)), g n = ∑ n ∈ Finset.range (T * k), g n + ∑ r : Fin T, g (T * k + r.val) := by
  rw [Nat.mul_succ, Finset.sum_range_add, Fin.sum_univ_eq_sum_range (fun r => g (T * k + r)) T]

end Cert.KernelIdeal.Val

end
-- ==== Proof.Val.V0Blocks.lean ====
import proofs.«427573_j12068858102168_3_alg».proof.Proof.KI.R0Data
import proofs.«427573_j12068858102168_3_alg».proof.Proof.Val.GatherCommon
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

theorem pay0_apply (x0 : Vec Ideal S2048x64 .f32) (x1 : Vec Ideal S64x64 .f32) (p : Fin 2048) (q : Fin 64) :
    k0_pay1 (F := Ideal) x0 x1 (ix2 p q) = ∑ k : Fin 64, x0 (ix2 p k) * x1 (ix2 q k) := by
  simp only [k0_pay1]
  rw [truncf_apply]
  simp only [matmul]
  rw [matmul2_apply dot_S2048x64_S64x64_S2048x64_1_0_0_1_n_n rfl rfl rfl rfl
    (fun j k => by simp [DotDims.lhsIdx, dot_S2048x64_S64x64_S2048x64_1_0_0_1_n_n]; rfl)
    (fun j k => by simp [DotDims.rhsIdx, dot_S2048x64_S64x64_S2048x64_1_0_0_1_n_n]; rfl)]
  refine Finset.sum_congr rfl fun k _ => ?_
  rw [truncf_apply, shapeCast_self, transpose_ix2_apply, truncf_apply, shapeCast_self]

def xw0 (a : S51200x64.Idx → EReal) (w : S64x64.Idx → EReal) : S51200x64.Idx → EReal :=
  fun j => Cert.Spec.lin (fun (i : Fin 51200) (k : Fin 64) => a (ix2 i k)) (fun (f : Fin 64) (k : Fin 64) => w (ix2 f k)) (j 0) (j 1)

theorem hz0 : (![0, 0] : Fin 2 → Nat) = fun _ => 0 := funext fun a => by fin_cases a <;> rfl

theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

theorem flushed0_eq (V : Vals Ideal) (c : Dev nD) (t : Fin cfg0.N) :
    (dat0 V c).flushed 2 t = ((cfg0.win 2).blk t).view.read (Elt Ideal) (xw0 (V c main_v9) (V c main_v11)) := by
  show (cfg0.win 2).cut (grid0.coords t) ((dat0 V c).after 2 t) = _
  rw [after0_2]
  unfold out0_2
  rw [View.canon_unit_zero hz0]
  simp only [View.ld_unit_zero (S := S2048x64) hz0, View.ld_unit_zero (S := S64x64) hz0]
  obtain ⟨e00, e01, e10, e11, e20, e21⟩ := idx_facts0 t
  funext j
  obtain ⟨p, q, rfl⟩ : ∃ (p : Fin 2048) (q : Fin 64), (j : S2048x64.Idx) = ix2 p q := ⟨j 0, j 1, eq_ix2 j⟩
  show k0_pay1 (F := Ideal) (iblk0 V c 0 t) (iblk0 V c 1 t) (ix2 p q)
    = xw0 (V c main_v9) (V c main_v11) (((cfg0.win 2).blk t).view.emb (ix2 p q))
  refine (pay0_apply _ _ p q).trans ?_
  unfold xw0 Cert.Spec.lin
  refine Finset.sum_congr rfl fun k _ => ?_
  have h0 : (iblk0 V c 0 t : S2048x64.Idx → EReal) (ix2 p k)
      = (V c main_v9 : S51200x64.Idx → EReal) (ix2 ((((cfg0.win 2).blk t).view.emb (ix2 p q)) 0) k) := by
    show (V c main_v9 : S51200x64.Idx → EReal) (((cfg0.win 0).blk t).view.emb (ix2 p k)) = _
    refine congrArg _ (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 64 + 1 * k.val = k.val; omega
  have h1 : (iblk0 V c 1 t : S64x64.Idx → EReal) (ix2 q k)
      = (V c main_v11 : S64x64.Idx → EReal) (ix2 ((((cfg0.win 2).blk t).view.emb (ix2 p q)) 1) k) := by
    show (V c main_v11 : S64x64.Idx → EReal) (((cfg0.win 1).blk t).view.emb (ix2 q k)) = _
    refine congrArg _ (funext fun a => Fin.ext ?_)
    match a with
    | ⟨0, _⟩ => show win0_1.index t (0 : Fin 2) * 64 + 1 * q.val = win0_2.index t (1 : Fin 2) * 64 + 1 * q.val; omega
    | ⟨1, _⟩ => show win0_1.index t (1 : Fin 2) * 64 + 1 * k.val = k.val; omega
  exact congrArg₂ (· * ·) h0 h1

theorem mem_blk0 (t : Fin cfg0.N) (i : S51200x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v12).slice (win0_2.rect t)).set ↔ _
  rw [View.set_slice_whole, Rect.mem_set_unit]
  exact Iff.rfl

theorem flush0_out : ∀ t : Fin cfg0.N, (cfg0.win 2).flush t = true :=
  (by decide +kernel : ∀ t : Fin grid0.N, win0_2.flush t = true)

theorem covered0 (i : S51200x64.Idx) : ∃ t : Fin cfg0.N, (cfg0.win 2).flush t = true ∧ i ∈ ((cfg0.win 2).blk t).view.set := by
  have hi0 : (i 0).val < 51200 := (i 0).isLt
  have hi1 : (i 1).val < 64 := (i 1).isLt
  have hN : cfg0.N = 25 := N_0
  refine ⟨⟨(i 0).val / 2048, by rw [hN]; omega⟩, flush0_out _, ?_⟩
  rw [mem_blk0]
  obtain ⟨-, -, -, -, e0, e1⟩ := idx_facts0 ⟨(i 0).val / 2048, by rw [hN]; omega⟩
  intro a
  match a with
  | ⟨0, _⟩ =>
    show win0_2.index _ (0 : Fin 2) * 2048 ≤ (i 0).val ∧ (i 0).val < win0_2.index _ (0 : Fin 2) * 2048 + 2048
    rw [e0]; show (i 0).val / 2048 * 2048 ≤ (i 0).val ∧ (i 0).val < (i 0).val / 2048 * 2048 + 2048
    omega
  | ⟨1, _⟩ =>
    show win0_2.index _ (1 : Fin 2) * 64 ≤ (i 1).val ∧ (i 1).val < win0_2.index _ (1 : Fin 2) * 64 + 64
    rw [e1]; omega

theorem arr0 (V : Vals Ideal) (c : Dev nD) :
    (dat0 V c).arrAt 2 cfg0.N = xw0 (V c main_v9) (V c main_v11) :=
  (dat0 V c).arrAt_eq_of_cover 2 (xw0 (V c main_v9) (V c main_v11)) (fun t _ => flushed0_eq V c t) covered0

end Cert.KernelIdeal.Val

end
-- ==== Proof.Val.Pay1.lean ====
import proofs.«427573_j12068858102168_3_alg».proof.Proof.Val.GatherCommon

noncomputable section

open scoped BigOperators
open Idealize.ShloMosaic Idealize.ShloMosaic.ValueIdx
open Cert.KernelIdeal Cert.KernelIdeal.Gen

namespace Cert.KernelIdeal.Val

theorem k1_pay1_apply (e : Fin 4096) (f : Fin 64) : k1_pay1 (F := Ideal) (ix2 e f) = 0 := by
  unfold k1_pay1
  refine (congrFun (shapeCast_self _ shapeCasts_S4096x64_S4096x64) (ix2 e f)).trans ?_
  exact Ideal.ofBits_zero_f32

theorem k1_pay3_apply (v : Vec Ideal S4096x64 .f32) (j : S4096x64.Idx) : k1_pay3 (F := Ideal) v j = v j := rfl

theorem k1_pay2_apply (i : grid1.Coords) (src : Vec Ideal S4096 .i32) (xs : Vec Ideal S512x64 .bf16)
    (acc : Vec Ideal S4096x64 .f32) (e : Fin 4096) (f : Fin 64) :
    k1_pay2 (F := Ideal) i src xs acc (ix2 e f)
      = acc (ix2 e f) + ∑ r : Fin 512,
          Cert.Spec.ind ((src (ix1 e) : BitVec 32) = Cert.Spec.code (512 * (i 1).val + r.val)) * xs (ix2 r f) := by
  unfold k1_pay2
  refine (congrFun (shapeCast_self _ shapeCasts_S4096x64_S4096x64) (ix2 e f)).trans ?_
  refine congrArg (acc (ix2 e f) + ·) ?_
  refine (gdot_apply _ _ e f).trans ?_
  refine Finset.sum_congr rfl fun r _ => ?_
  refine congrArg₂ (· * ·) ?_ ?_
  · exact onehot_apply (i 1).val src e r
  · exact congrFun (shapeCast_self xs shapeCasts_S512x64_S512x64) (ix2 r f)

theorem slice1_apply (i : grid1.Coords) (X : Vec Ideal S51200x64 .bf16) (r : Fin 512) (f : Fin 64)
    (h : 512 * (i 1).val + r.val < 51200) :
    View.ld (Val := Elt Ideal) X (Rect.unit (s := S51200x64) (k1_off1 i) S512x64.size (k1_off1_inb i)) (ix2 r f)
      = X (ix2 (⟨512 * (i 1).val + r.val, h⟩ : Fin 51200) f) := by
  show X _ = X _
  refine congrArg X (funext fun a => Fin.ext ?_)
  match a with
  | ⟨0, _⟩ =>
    show k1_off1 i 0 + 1 * r.val = 512 * (i 1).val + r.val
    rw [k1_off1_eq]
    show 512 * (i 1).val + 1 * r.val = _
    omega
  | ⟨1, _⟩ =>
    show k1_off1 i 1 + 1 * f.val = f.val
    rw [k1_off1_eq]
    show 0 + 1 * f.val = _
    omega

end Cert.KernelIdeal.Val

end
-- ==== Proof.Val.V1.lean ====
import proofs.«427573_j12068858102168_3_alg».proof.Proof.Val.Pay1
import proofs.«427573_j12068858102168_3_alg».proof.Proof.KI.R1

noncomputable section

open scoped BigOperators
open Idealize.ShloMosaic Idealize.ShloMosaic.ValueIdx
open Idealize.ShloMosaic.Pipeline (Dat Cfg Window)
open Cert.KernelIdeal Cert.KernelIdeal.Gen Cert.KernelIdeal.Hand

namespace Cert.KernelIdeal.Val

theorem indexSrc1 (t : Fin cfg1.N) : win1_0.index t (0 : Fin 1) = t.val / 100 := outBlk1_row t

/-- The source block of point `t` starts at edge `4096 * (t / 100)`. -/
theorem srcBlk1_apply (src : S851968.Idx → BitVec 32) (t : Fin cfg1.N) (e : Fin 4096) (E : Fin 851968)
    (hE : E.val = 4096 * (t.val / 100) + e.val) : src (((cfg1.win 0).blk t).view.emb (ix1 e)) = src (ix1 E) := by
  refine congrArg src (funext fun a => Fin.ext ?_)
  match a with
  | ⟨0, _⟩ =>
    show win1_0.index t (0 : Fin 1) * 4096 + 1 * e.val = E.val
    rw [indexSrc1, hE]; omega

theorem featBlk1_apply (feat : S51200x64.Idx → EReal) (t : Fin cfg1.N) (n : Fin 51200) (f : Fin 64) :
    feat (((cfg1.win 1).blk t).view.emb (ix2 n f)) = feat (ix2 n f) := by
  refine congrArg feat (funext fun a => Fin.ext ?_)
  match a with
  | ⟨0, _⟩ =>
    show win1_1.index t (0 : Fin 2) * 51200 + 1 * n.val = n.val
    rw [show win1_1.index t (0 : Fin 2) = 0 from rfl]; omega
  | ⟨1, _⟩ =>
    show win1_1.index t (1 : Fin 2) * 64 + 1 * f.val = f.val
    rw [show win1_1.index t (1 : Fin 2) = 0 from rfl]; omega

section
variable (src : S851968.Idx → BitVec 32) (feat : S51200x64.Idx → EReal)

/-- The summand of node `n`: the indicator that `E`'s source is `n`, times `n`'s feature. -/
def term1 (E : Fin 851968) (f : Fin 64) (n : ℕ) : EReal :=
  if h : n < 51200 then Cert.Spec.ind (src (ix1 E) = Cert.Spec.code n) * feat (ix2 (⟨n, h⟩ : Fin 51200) f) else 0

/-- A step extends the partial sum by 512 nodes, since its slice starts at node `512 * (t % 100)`. -/
theorem step1 (t : Fin grid1.N) (x0 : Vec Ideal S4096 .i32) (xf : Vec Ideal S51200x64 .bf16) (acc : Vec Ideal S4096x64 .f32) (e : Fin 4096) (f : Fin 64)
    (E : Fin 851968) (hx0 : x0 (ix1 e) = src (ix1 E)) (hxf : ∀ n f, xf (ix2 n f) = feat (ix2 n f))
    (hacc : acc (ix2 e f) = ∑ m ∈ Finset.range (512 * (t.val % 100)), term1 src feat E f m) :
    gstep (F := Ideal) (grid1.coords t) x0 xf acc (ix2 e f) = ∑ m ∈ Finset.range (512 * (t.val % 100 + 1)), term1 src feat E f m := by
  refine (k1_pay2_apply (grid1.coords t) x0 _ acc e f).trans ?_
  rw [hacc, sum_range_tile_succ]
  refine congrArg (_ + ·) (Finset.sum_congr rfl fun r _ => ?_)
  have hs : (grid1.coords t 1).val = t.val % 100 := gridStep1 t
  have hr : 512 * (t.val % 100) + r.val < 51200 := by have := r.isLt; have := Nat.mod_lt t.val (by decide : 100 > 0); omega
  have hr' : 512 * (grid1.coords t 1).val + r.val < 51200 := by rw [hs]; exact hr
  rw [slice1_apply (grid1.coords t) xf r f hr', hxf, hx0]
  unfold term1
  rw [dif_pos hr]
  have hn : (⟨512 * (grid1.coords t 1).val + r.val, hr'⟩ : Fin 51200) = ⟨512 * (t.val % 100) + r.val, hr⟩ := Fin.ext (by
    show 512 * (grid1.coords t 1).val + r.val = 512 * (t.val % 100) + r.val
    rw [hs])
  rw [hn, hs]

variable (x0 : Fin grid1.N → Vec Ideal S4096 .i32) (xf : Fin grid1.N → Vec Ideal S51200x64 .bf16)
  (h0 : ∀ (t : Fin grid1.N) (e : Fin 4096) (E : Fin 851968), E.val = 4096 * (t.val / 100) + e.val → x0 t (ix1 e) = src (ix1 E))
  (hf : ∀ (t : Fin grid1.N) (n : Fin 51200) (f : Fin 64), xf t (ix2 n f) = feat (ix2 n f))
include h0 hf

/-- By induction along a block's steps the accumulator is the partial sum over the nodes so far. -/
theorem gacc_sum : ∀ (n : ℕ) (t : Fin grid1.N), t.val = n → ∀ (e : Fin 4096) (f : Fin 64)
    (E : Fin 851968), E.val = 4096 * (t.val / 100) + e.val →
    gacc x0 xf t.val t.isLt (ix2 e f) = ∑ m ∈ Finset.range (512 * (t.val % 100 + 1)), term1 src feat E f m := by
  intro n
  induction n using Nat.strong_induction_on with
  | _ n ih =>
    intro t ht e f E hE
    by_cases h : t.val % 100 = 0
    · rw [gacc_first _ _ t h]
      exact step1 src feat t _ _ _ e f E (h0 t e E hE) (hf t) (by rw [k1_pay1_apply, h]; simp)
    · rw [gacc_next _ _ t h]
      refine step1 src feat t _ _ _ e f E (h0 t e E hE) (hf t) ?_
      have hk : (t.val - 1) % 100 + 1 = t.val % 100 := by omega
      rw [← hk]
      exact ih (t.val - 1) (by omega) ⟨t.val - 1, Nat.lt_of_le_of_lt (Nat.sub_le _ _) t.isLt⟩ rfl e f E
        (by show E.val = 4096 * ((t.val - 1) / 100) + e.val; rw [hE]; omega)

/-- After the hundredth step the partial sum runs over all `51200 = 512 * 100` nodes. -/
theorem gout_last (t : Fin grid1.N) (hl : t.val % 100 = 99) (e : Fin 4096) (f : Fin 64)
    (E : Fin 851968) (hE : E.val = 4096 * (t.val / 100) + e.val) :
    k1_pay3 (F := Ideal) (gacc x0 xf t.val t.isLt) (ix2 e f) = Cert.Spec.gath 51200 (fun e : Fin 851968 => src (ix1 e)) (fun (n : Fin 51200) (f : Fin 64) => feat (ix2 n f)) E f := by
  refine (k1_pay3_apply _ (ix2 e f)).trans ?_
  rw [gacc_sum src feat x0 xf h0 hf _ t rfl e f E hE, hl]
  unfold Cert.Spec.gath
  rw [show 512 * (99 + 1) = 51200 from rfl, Finset.sum_range]
  exact Finset.sum_congr rfl fun n _ => dif_pos n.isLt

end

/-- Row `e` of point `t`'s block is row `4096 * (t / 100) + e` of the array. -/
theorem blk1_read (t : Fin cfg1.N) (X : Vec Ideal S4096x64 .bf16) (G : S851968x64.Idx → EReal)
    (h : ∀ (e : Fin 4096) (f : Fin 64) (E : Fin 851968), E.val = 4096 * (t.val / 100) + e.val → X (ix2 e f) = G (ix2 E f)) :
    (cfg1.win 2).cut (grid1.coords t) X = ((cfg1.win 2).blk t).view.read (Elt Ideal) G := by
  funext y
  obtain ⟨e, f, rfl⟩ : ∃ (e : Fin 4096) (f : Fin 64), y = ix2 e f := ⟨y 0, y 1, eq_ix2 y⟩
  show X (ix2 e f) = G (((cfg1.win 2).blk t).view.emb (ix2 e f))
  have hE : ((((cfg1.win 2).blk t).view.emb (ix2 e f)) 0).val = 4096 * (t.val / 100) + e.val := by
    show win1_2.index t (0 : Fin 2) * 4096 + 1 * e.val = _
    rw [outBlk1_row]; omega
  have hf : (((cfg1.win 2).blk t).view.emb (ix2 e f)) 1 = f := Fin.ext (by
    show win1_2.index t (1 : Fin 2) * 64 + 1 * f.val = f.val
    rw [outBlk1_col]; omega)
  refine (h e f ((((cfg1.win 2).blk t).view.emb (ix2 e f)) 0) hE).trans ?_
  refine congrArg G (funext fun a => ?_)
  match a with
  | ⟨0, _⟩ => rfl
  | ⟨1, _⟩ => exact hf.symm

abbrev gathered (src : S851968.Idx → BitVec 32) (feat : S51200x64.Idx → EReal) : S851968x64.Idx → EReal := fun j =>
  Cert.Spec.gath 51200 (fun e : Fin 851968 => src (ix1 e)) (fun (n : Fin 51200) (f : Fin 64) => feat (ix2 n f)) (j 0) (j 1)

theorem flushed1_eq (src : S851968.Idx → BitVec 32) (feat : S51200x64.Idx → EReal)
    (x0 : Fin grid1.N → Vec Ideal S4096 .i32) (xf : Fin grid1.N → Vec Ideal S51200x64 .bf16)
    (h0 : ∀ (t : Fin grid1.N) (e : Fin 4096) (E : Fin 851968), E.val = 4096 * (t.val / 100) + e.val → x0 t (ix1 e) = src (ix1 E))
    (hf : ∀ (t : Fin grid1.N) (n : Fin 51200) (f : Fin 64), xf t (ix2 n f) = feat (ix2 n f)) (t : Fin cfg1.N) (hl : t.val % 100 = 99) :
    (cfg1.win 2).cut (grid1.coords t) (k1_pay3 (F := Ideal) (gacc x0 xf t.val t.isLt)) = ((cfg1.win 2).blk t).view.read (Elt Ideal) (gathered src feat) :=
  blk1_read t _ _ fun e f E hE => gout_last src feat x0 xf h0 hf t hl e f E hE

/-- Row `r` lies in the block of the last step of edge block `r / 4096`. -/
theorem cover1 (i : S851968x64.Idx) : ∃ t : Fin cfg1.N, (cfg1.win 2).flush t = true ∧ i ∈ ((cfg1.win 2).blk t).view.set := by
  have hrow : (i 0).val < 851968 := (i 0).isLt
  have hcol : (i 1).val < 64 := (i 1).isLt
  have hN : cfg1.N = 20800 := N_1
  have ht : 100 * ((i 0).val / 4096) + 99 < cfg1.N := by rw [hN]; omega
  refine ⟨⟨_, ht⟩, (flush1_2 _).mpr (by show (100 * ((i 0).val / 4096) + 99) % 100 = 99; omega), ?_⟩
  show i ∈ ((View.whole main_v13).slice (win1_2.rect ⟨_, ht⟩)).set
  rw [View.set_slice_whole, Rect.mem_set_unit]
  intro a
  match a with
  | ⟨0, _⟩ =>
    show win1_2.index _ (0 : Fin 2) * 4096 ≤ (i 0).val ∧ (i 0).val < win1_2.index _ (0 : Fin 2) * 4096 + 4096
    rw [outBlk1_row]
    show (100 * ((i 0).val / 4096) + 99) / 100 * 4096 ≤ (i 0).val ∧ (i 0).val < (100 * ((i 0).val / 4096) + 99) / 100 * 4096 + 4096
    omega
  | ⟨1, _⟩ =>
    show win1_2.index _ (1 : Fin 2) * 64 ≤ (i 1).val ∧ (i 1).val < win1_2.index _ (1 : Fin 2) * 64 + 64
    rw [outBlk1_col]; omega

/-- The last steps' blocks tile the array, and each holds its rows of the gathered sum. -/
theorem final1 (V : Vals Ideal) (c : Dev nD) :
    ((rp1 (F := Ideal)).dat V c).arrAt 2 cfg1.N = fun j =>
      Cert.Spec.gath 51200 (fun e : Fin 851968 => (V c main_v7 : S851968.Idx → BitVec 32) (ValueIdx.ix1 e))
        (fun (n : Fin 51200) (f : Fin 64) => (V c main_v12 : S51200x64.Idx → EReal) (ValueIdx.ix2 n f)) (j 0) (j 1) :=
  (dat1 V c).arrAt_eq_of_cover 2 (gathered (V c main_v7) (V c main_v12))
    (fun t hf => flushed1_eq (V c main_v7) (V c main_v12) (fun t => iblk1 V c 0 t) (fun t => iblk1 V c 1 t)
      (fun t e E hE => srcBlk1_apply (V c main_v7) t e E hE) (fun t n f => featBlk1_apply (V c main_v12) t n f) t ((flush1_2 t).mp hf)) cover1

end Cert.KernelIdeal.Val

end
-- ==== Proof.Val.V2Pay.lean ====
import proofs.«427573_j12068858102168_3_alg».proof.Proof.Val.GatherCommon
import proofs.«427573_j12068858102168_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Val.Scat2

open Idealize.ShloMosaic Idealize.ShloMosaic.ValueIdx
open Cert.KernelIdeal Cert.KernelIdeal.Gen

theorem node_word (i r : ℕ) :
    IntOp.addi (Scalar.muli (BitVec.ofNat 32 i) 2048#32) (BitVec.ofNat 32 r) = Cert.Spec.code (2048 * i + r) := by
  unfold Cert.Spec.code IntOp.addi Scalar.muli IntOp.muli
  rw [BitVec.ofNat_add, BitVec.ofNat_mul, BitVec.mul_comm]

theorem matmulA_apply {φ₁ φ₂ : FTy} (A : FVec Ideal S2048x1024 φ₁) (B : FVec Ideal S1024x64 φ₂) (r : Fin 2048) (f : Fin 64) :
    matmul dot_S2048x1024_S1024x64_S2048x64_1_0_0_1_n_n none A B (constant (F := Ideal) S2048x64 .f32 0x00000000#32) (ix2 r f)
      = ∑ q : Fin 1024, A (ix2 r q) * B (ix2 q f) :=
  matmul2_apply dot_S2048x1024_S1024x64_S2048x64_1_0_0_1_n_n rfl rfl rfl rfl
    (fun j k => by simp [DotDims.lhsIdx, dot_S2048x1024_S1024x64_S2048x64_1_0_0_1_n_n]; rfl)
    (fun j k => by simp [DotDims.rhsIdx, dot_S2048x1024_S1024x64_S2048x64_1_0_0_1_n_n]; rfl) A B r f

theorem matmulB_apply {φ₁ φ₂ : FTy} (A : FVec Ideal S2048x64 φ₁) (B : FVec Ideal S64x64 φ₂) (r : Fin 2048) (f : Fin 64) :
    matmul dot_S2048x64_S64x64_S2048x64_1_0_0_1_n_n none A B (constant (F := Ideal) S2048x64 .f32 0x00000000#32) (ix2 r f)
      = ∑ k : Fin 64, A (ix2 r k) * B (ix2 k f) :=
  matmul2_apply dot_S2048x64_S64x64_S2048x64_1_0_0_1_n_n rfl rfl rfl rfl
    (fun j k => by simp [DotDims.lhsIdx, dot_S2048x64_S64x64_S2048x64_1_0_0_1_n_n]; rfl)
    (fun j k => by simp [DotDims.rhsIdx, dot_S2048x64_S64x64_S2048x64_1_0_0_1_n_n]; rfl) A B r f

theorem rowsum_apply (x : FVec Ideal S2048x1024 .f32) (hφ : FKind.Formats .f32)
    (hacc : (0x00000000#32 : BitVec FTy.f32.bits) = FKind.add.neutral .f32 hφ) (r : Fin 2048) :
    multiReduction .add [1] S2048 x 0x00000000#32 reduces_S2048x1024_S2048 hφ hacc (ix1 r) = ∑ q : Fin 1024, x (ix2 r q) := by
  refine (Ideal.multiReduction_add_single x 0x00000000#32 reduces_S2048x1024_S2048 hφ hacc (ix1 r)).trans ?_
  show ∑ q : Fin 1024, x (reduces_S2048x1024_S2048.lift (ix1 r) q) = _
  refine Finset.sum_congr rfl fun q _ => congrArg x ?_
  funext ax; apply Fin.ext
  match ax with
  | ⟨0, _⟩ => rfl
  | ⟨1, _⟩ => rfl

theorem rowword_apply (b : BitVec 32) (r : Fin 2048) (q : Fin 1024) :
    broadcastTo S2048x1024 (addi (broadcast S2048x1 b) (iota .tc S2048x1 32 [0] iota_S2048x1_d0_w32))
        broadcasts_S2048x1_S2048x1024 (ix2 r q)
      = IntOp.addi b (BitVec.ofNat 32 r.val) := by
  refine (broadcastTo_a1_ab_apply _ _ r q).trans ?_
  show IntOp.addi b (iota .tc S2048x1 32 [0] iota_S2048x1_d0_w32 (ix2 r (0 : Fin 1))) = _
  rw [iota_single_apply]

theorem colword_apply (d : IVec S1024 32) (r : Fin 2048) (q : Fin 1024) :
    broadcastTo S2048x1024 (shapeCast S1x1024 (shapeCast S1024 d shapeCasts_S1024_S1024) shapeCasts_S1024_S1x1024)
        broadcasts_S1x1024_S2048x1024 (ix2 r q)
      = d (ix1 q) := by
  rw [broadcastTo_1b_ab_apply, shapeCast_a_1a_apply, shapeCast_self]

theorem k2_pay3_apply (i : grid2.Coords) (d : Vec Ideal S1024 .i32) (r : Fin 2048) (q : Fin 1024) :
    k2_pay3 (F := Ideal) i d (ix2 r q) = Cert.Spec.ind (Cert.Spec.code (2048 * (i 0).val + r.val) = d (ix1 q)) := by
  unfold k2_pay3
  refine (congrArg₂ (fun a b => FloatOps.sitofp (F := Ideal) .f32 ((IntOp.cmpi .eq a b).setWidth 32))
    (rowword_apply (Scalar.muli (BitVec.ofNat 32 (i 0).val) 2048#32) r q) (colword_apply d r q)).trans ?_
  rw [onehot_word, node_word]

theorem k2_pay4_apply (i : grid2.Coords) (d : Vec Ideal S1024 .i32) (g : Vec Ideal S1024x64 .bf16) (acc : Vec Ideal S2048x64 .f32)
    (r : Fin 2048) (f : Fin 64) :
    k2_pay4 (F := Ideal) i d g acc (ix2 r f)
      = acc (ix2 r f) + ∑ q : Fin 1024, Cert.Spec.ind (Cert.Spec.code (2048 * (i 0).val + r.val) = d (ix1 q)) * g (ix2 q f) := by
  unfold k2_pay4
  refine (congrFun (shapeCast_self _ _) (ix2 r f)).trans ?_
  refine congrArg (acc (ix2 r f) + ·) ?_
  refine (matmulA_apply _ _ r f).trans ?_
  refine Finset.sum_congr rfl fun q _ => ?_
  exact congrArg₂ (· * ·) (k2_pay3_apply i d r q) (congrFun (shapeCast_self g _) (ix2 q f))

theorem k2_pay5_apply (i : grid2.Coords) (d : Vec Ideal S1024 .i32) (ad : Vec Ideal S2048x1 .f32) (r : Fin 2048) :
    k2_pay5 (F := Ideal) i d ad (ix2 r (0 : Fin 1))
      = ad (ix2 r (0 : Fin 1)) + ∑ q : Fin 1024, Cert.Spec.ind (Cert.Spec.code (2048 * (i 0).val + r.val) = d (ix1 q)) := by
  unfold k2_pay5
  refine (congrFun (shapeCast_self _ _) (ix2 r (0 : Fin 1))).trans ?_
  refine congrArg (ad (ix2 r (0 : Fin 1)) + ·) ?_
  refine (shapeCast_a_a1_apply _ _ r (0 : Fin 1)).trans ?_
  refine (rowsum_apply _ _ _ r).trans ?_
  exact Finset.sum_congr rfl fun q _ => k2_pay3_apply i d r q

theorem k2_pay6_apply (ad : Vec Ideal S2048x1 .f32) (r : Fin 2048) :
    k2_pay6 (F := Ideal) ad (ix2 r (0 : Fin 1)) = Cert.Spec.invd (ad (ix2 r (0 : Fin 1))) := rfl

theorem k2_pay7_apply (ad : Vec Ideal S2048x1 .f32) (acc : Vec Ideal S2048x64 .f32) (w : Vec Ideal S64x64 .f32)
    (r : Fin 2048) (f : Fin 64) :
    k2_pay7 (F := Ideal) ad acc w (ix2 r f)
      = ∑ k : Fin 64, (acc (ix2 r k) * Cert.Spec.invd (ad (ix2 r (0 : Fin 1)))) * w (ix2 f k) := by
  unfold k2_pay7
  refine (matmulB_apply _ _ r f).trans ?_
  refine Finset.sum_congr rfl fun k _ => ?_
  refine congrArg₂ (· * ·) ?_ ?_
  · exact congrArg (acc (ix2 r k) * ·) ((broadcastTo_a1_ab_apply _ _ r k).trans (k2_pay6_apply ad r))
  · refine (transpose_ix2_apply _ _ k f).trans ?_
    exact congrFun (shapeCast_self w _) (ix2 f k)

end Cert.KernelIdeal.Val.Scat2

end
-- ==== Proof.Val.V2Idx.lean ====
import proofs.«427573_j12068858102168_3_alg».proof.Proof.Gen.KernelIdeal

namespace Cert.KernelIdeal.Val.Scat2

open Idealize.ShloMosaic
open Cert.KernelIdeal Cert.KernelIdeal.Gen

theorem idx_facts2 : ∀ t : Fin cfg2.N,
    win2_0.index t (0 : Fin 2) = t.val % 832 ∧ win2_0.index t (1 : Fin 2) = 0
    ∧ win2_1.index t (0 : Fin 1) = t.val % 832
    ∧ win2_2.index t (0 : Fin 2) = 0 ∧ win2_2.index t (1 : Fin 2) = 0
    ∧ win2_3.index t (0 : Fin 2) = t.val / 832 ∧ win2_3.index t (1 : Fin 2) = 0
    ∧ win2_4.index t (0 : Fin 2) = t.val / 832 ∧ win2_4.index t (1 : Fin 2) = 0
    ∧ (grid2.coords t 0).val = t.val / 832 :=
  (by decide +kernel : ∀ t : Fin grid2.N, _)

end Cert.KernelIdeal.Val.Scat2
-- ==== Proof.Val.ScatterFold.lean ====
import Mathlib.Algebra.BigOperators.Fin
import Mathlib.Algebra.BigOperators.Group.Finset.Basic

open scoped BigOperators

namespace Cert.KernelIdeal.Val

variable {M : Type*} [AddCommMonoid M] {L : ℕ}

def extZ (h : Fin L → M) (e : ℕ) : M := if hlt : e < L then h ⟨e, hlt⟩ else 0

theorem extZ_of_lt (h : Fin L → M) {e : ℕ} (hlt : e < L) : extZ h e = h ⟨e, hlt⟩ := dif_pos hlt

def psum (h : Fin L → M) (k : ℕ) : M := ∑ e ∈ Finset.range k, extZ h e

theorem psum_zero (h : Fin L → M) : psum h 0 = 0 := Finset.sum_range_zero _

theorem psum_tile (h : Fin L → M) (T l : ℕ) :
    psum h (T * (l + 1)) = psum h (T * l) + ∑ q : Fin T, extZ h (T * l + q.val) := by
  unfold psum
  rw [Nat.mul_succ, Finset.sum_range_add]
  exact congrArg (fun s => ∑ e ∈ Finset.range (T * l), extZ h e + s) (Finset.sum_range fun x => extZ h (T * l + x))

theorem psum_full (h : Fin L → M) : psum h L = ∑ e : Fin L, h e := by
  unfold psum
  rw [Finset.sum_range]
  exact Finset.sum_congr rfl fun e _ => extZ_of_lt h e.isLt

end Cert.KernelIdeal.Val
-- ==== Proof.Val.V2Math.lean ====
import proofs.«427573_j12068858102168_3_alg».proof.Proof.Val.V2Pay
import proofs.«427573_j12068858102168_3_alg».proof.Proof.Val.V2Idx
import proofs.«427573_j12068858102168_3_alg».proof.Proof.Val.ScatterFold
import proofs.«427573_j12068858102168_3_alg».proof.Proof.Gen.KernelIdeal.Launch

noncomputable section

open scoped BigOperators

namespace Cert.KernelIdeal.Val.Scat2

open Idealize.ShloMosaic Idealize.ShloMosaic.ValueIdx
open Cert.KernelIdeal Cert.KernelIdeal.Gen

variable (Ga : Vec Ideal S851968x64 .bf16) (Da : Vec Ideal S851968 .i32) (Wa : Vec Ideal S64x64 .f32)

abbrev gtile (t : Fin cfg2.N) : Vec Ideal S1024x64 .bf16 := ((cfg2.win 0).blk t).view.read (Elt Ideal) Ga
abbrev dtile (t : Fin cfg2.N) : Vec Ideal S1024 .i32 := ((cfg2.win 1).blk t).view.read (Elt Ideal) Da
abbrev wtile (t : Fin cfg2.N) : Vec Ideal S64x64 .f32 := ((cfg2.win 2).blk t).view.read (Elt Ideal) Wa

theorem point_lt (t : Fin cfg2.N) : t.val < 20800 := lt_of_lt_of_eq t.isLt N_2

theorem tile_lt (t : Fin cfg2.N) (q : Fin 1024) : 1024 * (t.val % 832) + q.val < 851968 := by
  have := Nat.mod_lt t.val (show 0 < 832 by decide); have := q.isLt; omega

theorem row_lt (t : Fin cfg2.N) (r : Fin 2048) : 2048 * (t.val / 832) + r.val < 51200 := by
  have := point_lt t; have := r.isLt; omega

theorem gtile_apply (t : Fin cfg2.N) (q : Fin 1024) (f : Fin 64) :
    gtile Ga t (ix2 q f) = Ga (ix2 ⟨1024 * (t.val % 832) + q.val, tile_lt t q⟩ f) := by
  show Ga (((cfg2.win 0).blk t).view.emb (ix2 q f)) = _
  refine congrArg Ga ?_
  obtain ⟨e0, e1, -⟩ := idx_facts2 t
  funext a; apply Fin.ext
  match a with
  | ⟨0, _⟩ => show win2_0.index t (0 : Fin 2) * 1024 + 1 * q.val = 1024 * (t.val % 832) + q.val; rw [e0]; omega
  | ⟨1, _⟩ => show win2_0.index t (1 : Fin 2) * 64 + 1 * f.val = f.val; rw [e1]; omega

theorem dtile_apply (t : Fin cfg2.N) (q : Fin 1024) :
    dtile Da t (ix1 q) = Da (ix1 ⟨1024 * (t.val % 832) + q.val, tile_lt t q⟩) := by
  show Da (((cfg2.win 1).blk t).view.emb (ix1 q)) = _
  refine congrArg Da ?_
  obtain ⟨-, -, e2, -⟩ := idx_facts2 t
  funext a; apply Fin.ext
  match a with
  | ⟨0, _⟩ => show win2_1.index t (0 : Fin 1) * 1024 + 1 * q.val = 1024 * (t.val % 832) + q.val; rw [e2]; omega

theorem wtile_apply (t : Fin cfg2.N) (f k : Fin 64) : wtile Wa t (ix2 f k) = Wa (ix2 f k) := by
  show Wa (((cfg2.win 2).blk t).view.emb (ix2 f k)) = _
  refine congrArg Wa ?_
  obtain ⟨-, -, -, e3, e4, -⟩ := idx_facts2 t
  funext a; apply Fin.ext
  match a with
  | ⟨0, _⟩ => show win2_2.index t (0 : Fin 2) * 64 + 1 * f.val = f.val; rw [e3]; omega
  | ⟨1, _⟩ => show win2_2.index t (1 : Fin 2) * 64 + 1 * k.val = k.val; rw [e4]; omega

def hS (n : ℕ) (f : Fin 64) : Fin 851968 → EReal :=
  fun e => Cert.Spec.ind (Cert.Spec.code n = Da (ix1 e)) * Ga (ix2 e f)

def hC (n : ℕ) : Fin 851968 → EReal := fun e => Cert.Spec.ind (Cert.Spec.code n = Da (ix1 e))

theorem k2_pay1_apply (j : S2048x64.Idx) : k2_pay1 (F := Ideal) j = 0 := by
  unfold k2_pay1
  refine (congrFun (shapeCast_self _ _) j).trans ?_
  exact Ideal.ofBits_zero_f32

theorem k2_pay2_apply (j : S2048x1.Idx) : k2_pay2 (F := Ideal) j = 0 := by
  unfold k2_pay2
  refine (congrFun (shapeCast_self _ _) j).trans ?_
  exact Ideal.ofBits_zero_f32

theorem acc_tile (t : Fin cfg2.N) (b l : ℕ) (hb : t.val / 832 = b) (hl : t.val % 832 = l) (acc : Vec Ideal S2048x64 .f32)
    (r : Fin 2048) (f : Fin 64) (hacc : acc (ix2 r f) = psum (hS Ga Da (2048 * b + r.val) f) (1024 * l)) :
    k2_pay4 (F := Ideal) (grid2.coords t) (dtile Da t) (gtile Ga t) acc (ix2 r f)
      = psum (hS Ga Da (2048 * b + r.val) f) (1024 * (l + 1)) := by
  refine (k2_pay4_apply (grid2.coords t) (dtile Da t) (gtile Ga t) acc r f).trans ?_
  rw [psum_tile, hacc]
  obtain ⟨-, -, -, -, -, -, -, -, -, e9⟩ := idx_facts2 t
  refine congrArg (_ + ·) (Finset.sum_congr rfl fun q _ => ?_)
  have hq : 1024 * l + q.val < 851968 := by have := tile_lt t q; rw [hl] at this; exact this
  rw [extZ_of_lt _ hq, dtile_apply, gtile_apply, e9]
  subst hb hl
  rfl

theorem deg_tile (t : Fin cfg2.N) (b l : ℕ) (hb : t.val / 832 = b) (hl : t.val % 832 = l) (ad : Vec Ideal S2048x1 .f32)
    (r : Fin 2048) (had : ad (ix2 r (0 : Fin 1)) = psum (hC Da (2048 * b + r.val)) (1024 * l)) :
    k2_pay5 (F := Ideal) (grid2.coords t) (dtile Da t) ad (ix2 r (0 : Fin 1))
      = psum (hC Da (2048 * b + r.val)) (1024 * (l + 1)) := by
  refine (k2_pay5_apply (grid2.coords t) (dtile Da t) ad r).trans ?_
  rw [psum_tile, had]
  obtain ⟨-, -, -, -, -, -, -, -, -, e9⟩ := idx_facts2 t
  refine congrArg (_ + ·) (Finset.sum_congr rfl fun q _ => ?_)
  have hq : 1024 * l + q.val < 851968 := by have := tile_lt t q; rw [hl] at this; exact this
  rw [extZ_of_lt _ hq, dtile_apply, e9]
  subst hb hl
  rfl

theorem acc_inv (A : (n : ℕ) → n < cfg2.N → Vec Ideal S2048x64 .f32)
    (hreset : ∀ t : Fin cfg2.N, t.val % 832 = 0 →
      A t.val t.isLt = k2_pay4 (F := Ideal) (grid2.coords t) (dtile Da t) (gtile Ga t) (k2_pay1 (F := Ideal)))
    (hstep : ∀ t : Fin cfg2.N, ¬t.val % 832 = 0 →
      A t.val t.isLt = k2_pay4 (F := Ideal) (grid2.coords t) (dtile Da t) (gtile Ga t)
        (A (t.val - 1) (Nat.lt_of_le_of_lt (Nat.sub_le _ _) t.isLt))) :
    ∀ (n : ℕ) (hn : n < cfg2.N) (r : Fin 2048) (f : Fin 64),
      A n hn (ix2 r f) = psum (hS Ga Da (2048 * (n / 832) + r.val) f) (1024 * (n % 832 + 1))
  | 0, hn, r, f => by
    have hs : A 0 hn = _ := hreset ⟨0, hn⟩ rfl
    rw [hs]
    exact acc_tile Ga Da ⟨0, hn⟩ (0 / 832) (0 % 832) rfl rfl _ r f
      ((k2_pay1_apply _).trans (psum_zero _).symm)
  | n + 1, hn, r, f => by
    by_cases h0 : (n + 1) % 832 = 0
    · have hs : A (n + 1) hn = _ := hreset ⟨n + 1, hn⟩ h0
      rw [hs]
      refine acc_tile Ga Da ⟨n + 1, hn⟩ ((n + 1) / 832) ((n + 1) % 832) rfl rfl _ r f ?_
      rw [h0]
      exact (k2_pay1_apply _).trans (psum_zero _).symm
    · have hs : A (n + 1) hn = _ := hstep ⟨n + 1, hn⟩ h0
      have e1 : (n + 1) / 832 = n / 832 := by omega
      have e2 : (n + 1) % 832 = n % 832 + 1 := by omega
      rw [hs, e1, e2]
      refine acc_tile Ga Da ⟨n + 1, hn⟩ (n / 832) (n % 832 + 1) e1 e2 _ r f ?_
      exact acc_inv A hreset hstep n (Nat.lt_of_succ_lt hn) r f

theorem deg_inv (B : (n : ℕ) → n < cfg2.N → Vec Ideal S2048x1 .f32)
    (hreset : ∀ t : Fin cfg2.N, t.val % 832 = 0 →
      B t.val t.isLt = k2_pay5 (F := Ideal) (grid2.coords t) (dtile Da t) (k2_pay2 (F := Ideal)))
    (hstep : ∀ t : Fin cfg2.N, ¬t.val % 832 = 0 →
      B t.val t.isLt = k2_pay5 (F := Ideal) (grid2.coords t) (dtile Da t)
        (B (t.val - 1) (Nat.lt_of_le_of_lt (Nat.sub_le _ _) t.isLt))) :
    ∀ (n : ℕ) (hn : n < cfg2.N) (r : Fin 2048),
      B n hn (ix2 r (0 : Fin 1)) = psum (hC Da (2048 * (n / 832) + r.val)) (1024 * (n % 832 + 1))
  | 0, hn, r => by
    have hs : B 0 hn = _ := hreset ⟨0, hn⟩ rfl
    rw [hs]
    exact deg_tile Da ⟨0, hn⟩ (0 / 832) (0 % 832) rfl rfl _ r
      ((k2_pay2_apply _).trans (psum_zero _).symm)
  | n + 1, hn, r => by
    by_cases h0 : (n + 1) % 832 = 0
    · have hs : B (n + 1) hn = _ := hreset ⟨n + 1, hn⟩ h0
      rw [hs]
      refine deg_tile Da ⟨n + 1, hn⟩ ((n + 1) / 832) ((n + 1) % 832) rfl rfl _ r ?_
      rw [h0]
      exact (k2_pay2_apply _).trans (psum_zero _).symm
    · have hs : B (n + 1) hn = _ := hstep ⟨n + 1, hn⟩ h0
      have e1 : (n + 1) / 832 = n / 832 := by omega
      have e2 : (n + 1) % 832 = n % 832 + 1 := by omega
      rw [hs, e1, e2]
      refine deg_tile Da ⟨n + 1, hn⟩ (n / 832) (n % 832 + 1) e1 e2 _ r ?_
      exact deg_inv B hreset hstep n (Nat.lt_of_succ_lt hn) r

abbrev Dw : Fin 851968 → BitVec 32 := fun e => Da (ix1 e)
abbrev Gw : Fin 851968 → Fin 64 → EReal := fun e k => Ga (ix2 e k)
abbrev Ww : Fin 64 → Fin 64 → EReal := fun f k => Wa (ix2 f k)

theorem psum_scat (n : ℕ) (f : Fin 64) : psum (hS Ga Da n f) 851968 = Cert.Spec.scat 851968 (Dw Da) (Gw Ga) n f :=
  psum_full _

theorem psum_deg (n : ℕ) : psum (hC Da n) 851968 = Cert.Spec.deg 851968 (Dw Da) n :=
  psum_full _

abbrev aggRow (n : Fin 51200) (k : Fin 64) : EReal :=
  Cert.Spec.scat 851968 (Dw Da) (Gw Ga) n.val k * Cert.Spec.invd (Cert.Spec.deg 851968 (Dw Da) n.val)

theorem out_apply (t : Fin cfg2.N) (h1 : t.val % 832 = 831) (accv : Vec Ideal S2048x64 .f32) (degv : Vec Ideal S2048x1 .f32)
    (hacc : ∀ (r : Fin 2048) (f : Fin 64),
      accv (ix2 r f) = psum (hS Ga Da (2048 * (t.val / 832) + r.val) f) (1024 * (t.val % 832 + 1)))
    (hdeg : ∀ r : Fin 2048,
      degv (ix2 r (0 : Fin 1)) = psum (hC Da (2048 * (t.val / 832) + r.val)) (1024 * (t.val % 832 + 1)))
    (r : Fin 2048) (f : Fin 64) :
    k2_pay7 (F := Ideal) degv accv (wtile Wa t) (ix2 r f)
      = Cert.Spec.lin (aggRow Ga Da) (Ww Wa) ⟨2048 * (t.val / 832) + r.val, row_lt t r⟩ f := by
  refine (k2_pay7_apply degv accv (wtile Wa t) r f).trans ?_
  unfold Cert.Spec.lin
  refine Finset.sum_congr rfl fun k _ => ?_
  rw [hacc, hdeg, wtile_apply, h1, psum_scat, psum_deg]

theorem invdeg_apply (t : Fin cfg2.N) (h1 : t.val % 832 = 831) (degv : Vec Ideal S2048x1 .f32)
    (hdeg : ∀ r : Fin 2048,
      degv (ix2 r (0 : Fin 1)) = psum (hC Da (2048 * (t.val / 832) + r.val)) (1024 * (t.val % 832 + 1)))
    (r : Fin 2048) :
    k2_pay6 (F := Ideal) degv (ix2 r (0 : Fin 1))
      = Cert.Spec.invd (Cert.Spec.deg 851968 (Dw Da) (2048 * (t.val / 832) + r.val)) := by
  refine (k2_pay6_apply degv r).trans ?_
  rw [hdeg, h1, psum_deg]

theorem emb3_apply (t : Fin cfg2.N) (r : Fin 2048) (f : Fin 64) :
    (((cfg2.win 3).blk t).view.emb (ix2 r f) : S51200x64.Idx) = ix2 ⟨2048 * (t.val / 832) + r.val, row_lt t r⟩ f := by
  obtain ⟨-, -, -, -, -, e5, e6, -⟩ := idx_facts2 t
  funext a; apply Fin.ext
  match a with
  | ⟨0, _⟩ => show win2_3.index t (0 : Fin 2) * 2048 + 1 * r.val = 2048 * (t.val / 832) + r.val; rw [e5]; omega
  | ⟨1, _⟩ => show win2_3.index t (1 : Fin 2) * 64 + 1 * f.val = f.val; rw [e6]; omega

theorem emb4_apply (t : Fin cfg2.N) (r : Fin 2048) (u : Fin 1) :
    (((cfg2.win 4).blk t).view.emb (ix2 r u) : S51200x1.Idx) = ix2 ⟨2048 * (t.val / 832) + r.val, row_lt t r⟩ u := by
  obtain ⟨-, -, -, -, -, -, -, e7, e8, -⟩ := idx_facts2 t
  funext a; apply Fin.ext
  match a with
  | ⟨0, _⟩ => show win2_4.index t (0 : Fin 2) * 2048 + 1 * r.val = 2048 * (t.val / 832) + r.val; rw [e7]; omega
  | ⟨1, _⟩ => show win2_4.index t (1 : Fin 2) * 1 + 1 * u.val = u.val; rw [e8]; omega

theorem read_blk3 (X : Vec Ideal S51200x64 .bf16) (t : Fin cfg2.N) (r : Fin 2048) (f : Fin 64) :
    ((cfg2.win 3).blk t).view.read (Elt Ideal) X (ix2 r f)
      = X (ix2 ⟨2048 * (t.val / 832) + r.val, row_lt t r⟩ f) := by
  show X (((cfg2.win 3).blk t).view.emb (ix2 r f)) = _
  rw [emb3_apply]

theorem read_blk4 (X : Vec Ideal S51200x1 .f32) (t : Fin cfg2.N) (r : Fin 2048) (u : Fin 1) :
    ((cfg2.win 4).blk t).view.read (Elt Ideal) X (ix2 r u)
      = X (ix2 ⟨2048 * (t.val / 832) + r.val, row_lt t r⟩ u) := by
  show X (((cfg2.win 4).blk t).view.emb (ix2 r u)) = _
  rw [emb4_apply]

theorem cut3_apply (X : Vec Ideal S2048x64 .bf16) (t : Fin cfg2.N) (r : Fin 2048) (f : Fin 64) :
    (cfg2.win 3).cut (grid2.coords t) X (ix2 r f) = X (ix2 r f) := rfl

theorem cut4_apply (X : Vec Ideal S2048x1 .f32) (t : Fin cfg2.N) (r : Fin 2048) (u : Fin 1) :
    (cfg2.win 4).cut (grid2.coords t) X (ix2 r u) = X (ix2 r u) := rfl

def lastPt (b : ℕ) (hb : b < 25) : Fin cfg2.N := ⟨832 * b + 831, by rw [show cfg2.N = 20800 from N_2]; omega⟩

theorem lastPt_mod (b : ℕ) (hb : b < 25) : (lastPt b hb).val % 832 = 831 := by
  show (832 * b + 831) % 832 = 831; omega

theorem lastPt_div (b : ℕ) (hb : b < 25) : (lastPt b hb).val / 832 = b := by
  show (832 * b + 831) / 832 = b; omega

-- Row i₀ is row i₀ % 2048 of the block of its node block's last point.
theorem cover3 (i : S51200x64.Idx) (hb : (i 0).val / 2048 < 25) :
    i ∈ ((cfg2.win 3).blk (lastPt ((i 0).val / 2048) hb)).view.set := by
  refine (congrArg (fun x => x ∈ _)
    ((emb3_apply (lastPt _ hb) ⟨(i 0).val % 2048, Nat.mod_lt _ (by decide)⟩ (i 1)).trans ?_)).mp (View.emb_mem_set _ _)
  funext a; apply Fin.ext
  match a with
  | ⟨0, _⟩ => show 2048 * ((lastPt _ hb).val / 832) + (i 0).val % 2048 = (i 0).val; rw [lastPt_div]; omega
  | ⟨1, _⟩ => rfl

theorem cover4 (i : S51200x1.Idx) (hb : (i 0).val / 2048 < 25) :
    i ∈ ((cfg2.win 4).blk (lastPt ((i 0).val / 2048) hb)).view.set := by
  refine (congrArg (fun x => x ∈ _)
    ((emb4_apply (lastPt _ hb) ⟨(i 0).val % 2048, Nat.mod_lt _ (by decide)⟩ (i 1)).trans ?_)).mp (View.emb_mem_set _ _)
  funext a; apply Fin.ext
  match a with
  | ⟨0, _⟩ => show 2048 * ((lastPt _ hb).val / 832) + (i 0).val % 2048 = (i 0).val; rw [lastPt_div]; omega
  | ⟨1, _⟩ => rfl

end Cert.KernelIdeal.Val.Scat2

end
-- ==== Proof.Val.V2.lean ====
import proofs.«427573_j12068858102168_3_alg».proof.Proof.Val.V2Math
import proofs.«427573_j12068858102168_3_alg».proof.Proof.KI.R2
noncomputable section
open scoped BigOperators
namespace Cert.KernelIdeal.Val.Scat2
open Idealize.ShloMosaic Idealize.ShloMosaic.TcCoe Idealize.ShloMosaic.ValueIdx
open Idealize.ShloMosaic.Pipeline (Dat)
open Cert.KernelIdeal Cert.KernelIdeal.Gen Cert.KernelIdeal.Hand
attribute [local irreducible] Cert.Spec.scat Cert.Spec.deg Cert.Spec.lin Cert.Spec.invd
variable (V : Vals Ideal) (c : Dev nD)
abbrev Garr : Vec Ideal S851968x64 .bf16 := V c main_v13
abbrev Darr : Vec Ideal S851968 .i32 := V c main_v8
abbrev Warr : Vec Ideal S64x64 .f32 := V c main_v15
abbrev accAt (n : ℕ) (hn : n < cfg2.N) : Vec Ideal S2048x64 .f32 := (accsAt2 V c n hn).1
abbrev degAt (n : ℕ) (hn : n < cfg2.N) : Vec Ideal S2048x1 .f32 := (accsAt2 V c n hn).2
theorem acc_eq (n : ℕ) (hn : n < cfg2.N) (r : Fin 2048) (f : Fin 64) :
    accAt V c n hn (ix2 r f)
      = psum (hS (Garr V c) (Darr V c) (2048 * (n / 832) + r.val) f) (1024 * (n % 832 + 1)) :=
  acc_inv (Garr V c) (Darr V c) (fun n hn => accAt V c n hn) (fun t h => congrArg Prod.fst (accsAt2_first V c t h))
    (fun t h => congrArg Prod.fst (accsAt2_next V c t h)) n hn r f
theorem deg_eq (n : ℕ) (hn : n < cfg2.N) (r : Fin 2048) :
    degAt V c n hn (ix2 r (0 : Fin 1)) = psum (hC (Darr V c) (2048 * (n / 832) + r.val)) (1024 * (n % 832 + 1)) :=
  deg_inv (Darr V c) (fun n hn => degAt V c n hn) (fun t h => congrArg Prod.snd (accsAt2_first V c t h))
    (fun t h => congrArg Prod.snd (accsAt2_next V c t h)) n hn r
abbrev outArr : Vec Ideal S51200x64 .bf16 :=
  fun j => Cert.Spec.lin (aggRow (Garr V c) (Darr V c)) (Ww (Warr V c)) (j 0) (j 1)
abbrev invdegArr : Vec Ideal S51200x1 .f32 :=
  fun j => Cert.Spec.invd (Cert.Spec.deg 851968 (Dw (Darr V c)) (j 0).val)
theorem flushed3_eq (t : Fin cfg2.N) (hf : (cfg2.win 3).flush t = true) :
    (dat2 V c).flushed 3 t = ((cfg2.win 3).blk t).view.read (Elt Ideal) (outArr V c) := by
  have h1 : t.val % 832 = 831 := (flush2_3 t).mp hf
  funext y
  obtain ⟨r, f, rfl⟩ : ∃ (r : Fin 2048) (f : Fin 64), y = ix2 r f := ⟨y 0, y 1, eq_ix2 y⟩
  refine Eq.trans ?_ (read_blk3 (outArr V c) t r f).symm
  refine (cut3_apply ((dat2 V c).after 3 t) t r f).trans ((congrFun (after2_3 V c t) (ix2 r f)).trans ?_)
  exact out_apply (Garr V c) (Darr V c) (Warr V c) t h1 _ _ (acc_eq V c t.val t.isLt) (deg_eq V c t.val t.isLt) r f
theorem flushed4_eq (t : Fin cfg2.N) (hf : (cfg2.win 4).flush t = true) :
    (dat2 V c).flushed 4 t = ((cfg2.win 4).blk t).view.read (Elt Ideal) (invdegArr V c) := by
  have h1 : t.val % 832 = 831 := (flush2_4 t).mp hf
  funext y
  obtain ⟨r, u, rfl⟩ : ∃ (r : Fin 2048) (u : Fin 1), y = ix2 r u := ⟨y 0, y 1, eq_ix2 y⟩
  obtain rfl : u = 0 := Subsingleton.elim _ _
  refine Eq.trans ?_ (read_blk4 (invdegArr V c) t r (0 : Fin 1)).symm
  refine (cut4_apply ((dat2 V c).after 4 t) t r (0 : Fin 1)).trans ((congrFun (after2_4 V c t) (ix2 r (0 : Fin 1))).trans ?_)
  exact invdeg_apply (Darr V c) t h1 _ (deg_eq V c t.val t.isLt) r
theorem arr3_eq : (dat2 V c).arrAt 3 cfg2.N = outArr V c :=
  (dat2 V c).arrAt_eq_of_cover 3 (outArr V c) (flushed3_eq V c) fun i =>
    have hb : (i 0).val / 2048 < 25 := by have : (i 0).val < 51200 := (i 0).isLt; omega
    ⟨lastPt ((i 0).val / 2048) hb, (flush2_3 _).mpr (lastPt_mod _ hb), cover3 i hb⟩
theorem arr4_eq : (dat2 V c).arrAt 4 cfg2.N = invdegArr V c :=
  (dat2 V c).arrAt_eq_of_cover 4 (invdegArr V c) (flushed4_eq V c) fun i =>
    have hb : (i 0).val / 2048 < 25 := by have : (i 0).val < 51200 := (i 0).isLt; omega
    ⟨lastPt ((i 0).val / 2048) hb, (flush2_4 _).mpr (lastPt_mod _ hb), cover4 i hb⟩
end Cert.KernelIdeal.Val.Scat2
namespace Cert.KernelIdeal.Val
open Idealize.ShloMosaic Idealize.ShloMosaic.TcCoe Idealize.ShloMosaic.ValueIdx
open Cert.KernelIdeal Cert.KernelIdeal.Gen Cert.KernelIdeal.Hand
attribute [local irreducible] Cert.Spec.scat Cert.Spec.deg Cert.Spec.lin Cert.Spec.invd
theorem final2_invdeg (V : Vals Ideal) (c : Dev nD) :
    ((rp2 (F := Ideal)).dat V c).arrAt 4 cfg2.N
      = fun j => Cert.Spec.invd (Cert.Spec.deg 851968
          (fun e : Fin 851968 => (V c main_v8 : S851968.Idx → BitVec 32) (ix1 e)) (j 0).val) :=
  Scat2.arr4_eq V c
theorem final2_out (V : Vals Ideal) (c : Dev nD) :
    ((rp2 (F := Ideal)).dat V c).arrAt 3 cfg2.N
      = fun j => Cert.Spec.lin
          (fun (n : Fin 51200) (k : Fin 64) =>
            Cert.Spec.scat 851968 (fun e : Fin 851968 => (V c main_v8 : S851968.Idx → BitVec 32) (ix1 e))
                (fun (e : Fin 851968) (k : Fin 64) => (V c main_v13 : S851968x64.Idx → EReal) (ix2 e k)) n.val k
              * Cert.Spec.invd (Cert.Spec.deg 851968
                  (fun e : Fin 851968 => (V c main_v8 : S851968.Idx → BitVec 32) (ix1 e)) n.val))
          (fun (f k : Fin 64) => (V c main_v15 : S64x64.Idx → EReal) (ix2 f k)) (j 0) (j 1) :=
  Scat2.arr3_eq V c
end Cert.KernelIdeal.Val
end
-- ==== Proof.Val.V3.lean ====
import proofs.«427573_j12068858102168_3_alg».proof.Proof.Val.V1
import proofs.«427573_j12068858102168_3_alg».proof.Proof.KI.R3

noncomputable section

open scoped BigOperators
open Idealize.ShloMosaic Idealize.ShloMosaic.ValueIdx
open Idealize.ShloMosaic.Pipeline (Dat Cfg Window)
open Cert.KernelIdeal Cert.KernelIdeal.Gen Cert.KernelIdeal.Hand

namespace Cert.KernelIdeal.Val

theorem final3 (V : Vals Ideal) (c : Dev nD) :
    ((rp3 (F := Ideal)).dat V c).arrAt 2 cfg3.N = fun j =>
      Cert.Spec.gath 51200 (fun e : Fin 851968 => (V c main_v7 : S851968.Idx → BitVec 32) (ValueIdx.ix1 e))
        (fun (n : Fin 51200) (f : Fin 64) => (V c main_v16_0 : S51200x64.Idx → EReal) (ValueIdx.ix2 n f)) (j 0) (j 1) :=
  (dat3 V c).arrAt_eq_of_cover 2 (gathered (V c main_v7) (V c main_v16_0))
    (fun t hf => flushed1_eq (V c main_v7) (V c main_v16_0) (fun t => iblk3 V c 0 t) (fun t => iblk3 V c 1 t)
      (fun t e E hE => srcBlk1_apply (V c main_v7) t e E hE) (fun t n f => featBlk1_apply (V c main_v16_0) t n f) t ((flush1_2 t).mp hf)) cover1

end Cert.KernelIdeal.Val

end
-- ==== Proof.Val.Pay46.lean ====
import proofs.«427573_j12068858102168_3_alg».proof.Proof.Val.GatherCommon
noncomputable section
open scoped BigOperators
namespace Cert.KernelIdeal.Val.Scatter
open Idealize.ShloMosaic Idealize.ShloMosaic.ValueIdx
open Cert.KernelIdeal Cert.KernelIdeal.Gen
theorem code_row (i0 r : ℕ) :
    IntOp.addi (Scalar.muli (BitVec.ofNat 32 i0) 2048#32) (BitVec.ofNat 32 r) = Cert.Spec.code (2048 * i0 + r) := by
  show BitVec.ofNat 32 i0 * 2048#32 + BitVec.ofNat 32 r = BitVec.ofNat 32 (2048 * i0 + r)
  apply BitVec.eq_of_toNat_eq
  simp only [BitVec.toNat_add, BitVec.toNat_mul, BitVec.toNat_ofNat, Nat.reducePow, Nat.reduceMod]
  omega
theorem transpose_64_apply {α : Type} (x : S64x64.Idx → α) (h : S64x64.Transposes [1, 0] S64x64) (p q : Fin 64) :
    transpose S64x64 [1, 0] x h (ix2 p q) = x (ix2 q p) :=
  transpose_apply [1, 0] x h (ix2 p q) (ix2 q p) fun ax => by
    match ax with
    | ⟨0, _⟩ => rfl
    | ⟨1, _⟩ => rfl
theorem onehot_entry (i0 : ℕ) (d : IVec S1024 32) (r : Fin 2048) (q : Fin 1024) :
    (truncf .bf16 (sitofp (F := Ideal) .f32 (extui 32 (cmpi .eq
        (broadcastTo S2048x1024 (addi (broadcast S2048x1 (Scalar.muli (BitVec.ofNat 32 i0) 2048#32))
          (iota .tc S2048x1 32 [0] iota_S2048x1_d0_w32)) broadcasts_S2048x1_S2048x1024)
        (broadcastTo S2048x1024 (shapeCast S1x1024 (shapeCast S1024 d shapeCasts_S1024_S1024) shapeCasts_S1024_S1x1024)
          broadcasts_S1x1024_S2048x1024)) natLt_1_32)) bitsLt_bf16_f32 : FVec Ideal S2048x1024 .bf16) (ix2 r q)
      = Cert.Spec.ind (Cert.Spec.code (2048 * i0 + r.val) = d (ix1 q)) := by
  show FloatOps.sitofp (F := Ideal) .f32 ((IntOp.cmpi .eq
      (broadcastTo S2048x1024 (addi (broadcast S2048x1 (Scalar.muli (BitVec.ofNat 32 i0) 2048#32))
          (iota .tc S2048x1 32 [0] iota_S2048x1_d0_w32)) broadcasts_S2048x1_S2048x1024 (ix2 r q))
      (broadcastTo S2048x1024 (shapeCast S1x1024 (shapeCast S1024 d shapeCasts_S1024_S1024) shapeCasts_S1024_S1x1024)
          broadcasts_S1x1024_S2048x1024 (ix2 r q))).setWidth 32) = _
  rw [broadcastTo_a1_ab_apply, broadcastTo_1b_ab_apply, shapeCast_a_1a_apply, shapeCast_self, onehot_word]
  show Cert.Spec.ind (IntOp.addi (Scalar.muli (BitVec.ofNat 32 i0) 2048#32)
      (iota .tc S2048x1 32 [0] iota_S2048x1_d0_w32 (ix2 r (0 : Fin 1))) = d (ix1 q)) = _
  rw [iota_single_apply]
  show Cert.Spec.ind (IntOp.addi (Scalar.muli (BitVec.ofNat 32 i0) 2048#32) (BitVec.ofNat 32 r.val) = d (ix1 q)) = _
  rw [code_row]
theorem k4_pay2_apply (i : grid4.Coords) (d : Vec Ideal S1024 .i32) (g : Vec Ideal S1024x64 .bf16)
    (acc : Vec Ideal S2048x64 .f32) (r : Fin 2048) (f : Fin 64) :
    k4_pay2 i d g acc (ix2 r f) = acc (ix2 r f)
      + ∑ q : Fin 1024, Cert.Spec.ind (Cert.Spec.code (2048 * (i 0).val + r.val) = d (ix1 q)) * g (ix2 q f) := by
  unfold k4_pay2
  try dsimp only
  refine (congrFun (shapeCast_self _ _) (ix2 r f)).trans ?_
  show acc (ix2 r f) + _ = _
  refine congrArg (fun s => acc (ix2 r f) + s) ?_
  refine (matmul2_apply dot_S2048x1024_S1024x64_S2048x64_1_0_0_1_n_n rfl rfl rfl rfl (fun j k => by simp [DotDims.lhsIdx, dot_S2048x1024_S1024x64_S2048x64_1_0_0_1_n_n]; rfl) (fun j k => by simp [DotDims.rhsIdx, dot_S2048x1024_S1024x64_S2048x64_1_0_0_1_n_n]; rfl) _ _ r f).trans ?_
  refine Finset.sum_congr rfl fun q _ => ?_
  exact congrArg₂ (fun a b : EReal => a * b) (onehot_entry (i 0).val d r q) (congrFun (shapeCast_self g _) (ix2 q f))
theorem k4_pay1_apply (j : S2048x64.Idx) : (k4_pay1 (F := Ideal)) j = 0 := by
  unfold k4_pay1
  try dsimp only
  refine (congrFun (shapeCast_self _ _) j).trans ?_
  exact Ideal.ofBits_zero_f32
theorem k6_pay2_apply (i : grid6.Coords) (d : Vec Ideal S1024 .i32) (g : Vec Ideal S1024x64 .bf16)
    (acc : Vec Ideal S2048x64 .f32) (r : Fin 2048) (f : Fin 64) :
    k6_pay2 i d g acc (ix2 r f) = acc (ix2 r f)
      + ∑ q : Fin 1024, Cert.Spec.ind (Cert.Spec.code (2048 * (i 0).val + r.val) = d (ix1 q)) * g (ix2 q f) :=
  k4_pay2_apply i d g acc r f
theorem k6_pay1_apply (j : S2048x64.Idx) : (k6_pay1 (F := Ideal)) j = 0 := k4_pay1_apply j
theorem k6_pay3_apply (acc : Vec Ideal S2048x64 .f32) (inv : Vec Ideal S2048x1 .f32) (r : Fin 2048) (f : Fin 64) :
    k6_pay3 acc inv (ix2 r f) = acc (ix2 r f) * inv (ix2 r (0 : Fin 1)) := by
  unfold k6_pay3
  try dsimp only
  show acc (ix2 r f) * _ = _
  refine congrArg (fun s => acc (ix2 r f) * s) ?_
  refine (broadcastTo_a1_ab_apply _ _ r f).trans ?_
  exact congrFun (shapeCast_self inv _) (ix2 r (0 : Fin 1))
theorem k4_pay3_apply (acc : Vec Ideal S2048x64 .f32) (inv : Vec Ideal S2048x1 .f32) (w : Vec Ideal S64x64 .f32)
    (r : Fin 2048) (f : Fin 64) :
    k4_pay3 acc inv w (ix2 r f) = ∑ k : Fin 64, (acc (ix2 r k) * inv (ix2 r (0 : Fin 1))) * w (ix2 f k) := by
  unfold k4_pay3
  try dsimp only
  refine (matmul2_apply dot_S2048x64_S64x64_S2048x64_1_0_0_1_n_n rfl rfl rfl rfl (fun j k => by simp [DotDims.lhsIdx, dot_S2048x64_S64x64_S2048x64_1_0_0_1_n_n]; rfl) (fun j k => by simp [DotDims.rhsIdx, dot_S2048x64_S64x64_S2048x64_1_0_0_1_n_n]; rfl) _ _ r f).trans ?_
  refine Finset.sum_congr rfl fun k _ => ?_
  refine congrArg₂ (fun a b : EReal => a * b) ?_ ?_
  · show acc (ix2 r k) * _ = _
    refine congrArg (fun s => acc (ix2 r k) * s) ?_
    refine (broadcastTo_a1_ab_apply _ _ r k).trans ?_
    exact congrFun (shapeCast_self inv _) (ix2 r (0 : Fin 1))
  · refine (transpose_64_apply _ _ k f).trans ?_
    exact congrFun (shapeCast_self w _) (ix2 f k)
end Cert.KernelIdeal.Val.Scatter
end
-- ==== Proof.Val.Idx46.lean ====
import proofs.«427573_j12068858102168_3_alg».proof.Proof.Gen.KernelIdeal.Launch
namespace Cert.KernelIdeal.Val.Scatter
open Idealize.ShloMosaic Cert.KernelIdeal Cert.KernelIdeal.Gen
theorem coords4_0 (t : Fin cfg4.N) : (grid4.coords t 0).val = t.val / 832 := by
  have hN : cfg4.N = 20800 := N_4
  have ht := t.isLt
  show t.val / grid4.stride 0 % grid4.bound 0 = t.val / 832
  rw [show grid4.stride 0 = 832 from by decide, show grid4.bound 0 = 25 from rfl]
  omega
theorem coords4_1 (t : Fin cfg4.N) : (grid4.coords t 1).val = t.val % 832 := by
  show t.val / grid4.stride 1 % grid4.bound 1 = t.val % 832
  rw [show grid4.stride 1 = 1 from by decide, show grid4.bound 1 = 832 from rfl]
  omega
theorem word4_0 (t : Fin cfg4.N) : (BitVec.ofNat 32 (grid4.coords t 0).val).toNat = t.val / 832 := by
  have hN : cfg4.N = 20800 := N_4
  have ht := t.isLt
  rw [coords4_0, BitVec.toNat_ofNat]
  omega
theorem word4_1 (t : Fin cfg4.N) : (BitVec.ofNat 32 (grid4.coords t 1).val).toNat = t.val % 832 := by
  rw [coords4_1, BitVec.toNat_ofNat]
  omega
-- Each index below is a grid coordinate as a 32-bit word, or 0; regions 4 and 6 have the same grid.
theorem idx4_00 : ∀ t : Fin cfg4.N, win4_0.index t (0 : Fin 2) = t.val % 832 := word4_1
theorem idx4_01 : ∀ t : Fin cfg4.N, win4_0.index t (1 : Fin 2) = 0 := fun _ => rfl
theorem idx4_10 : ∀ t : Fin cfg4.N, win4_1.index t (0 : Fin 1) = t.val % 832 := word4_1
theorem idx4_20 : ∀ t : Fin cfg4.N, win4_2.index t (0 : Fin 2) = t.val / 832 := word4_0
theorem idx4_21 : ∀ t : Fin cfg4.N, win4_2.index t (1 : Fin 2) = 0 := fun _ => rfl
theorem idx4_30 : ∀ t : Fin cfg4.N, win4_3.index t (0 : Fin 2) = 0 := fun _ => rfl
theorem idx4_31 : ∀ t : Fin cfg4.N, win4_3.index t (1 : Fin 2) = 0 := fun _ => rfl
theorem idx4_40 : ∀ t : Fin cfg4.N, win4_4.index t (0 : Fin 2) = t.val / 832 := word4_0
theorem idx4_41 : ∀ t : Fin cfg4.N, win4_4.index t (1 : Fin 2) = 0 := fun _ => rfl
theorem coords6_0 : ∀ t : Fin cfg6.N, (grid6.coords t 0).val = t.val / 832 := coords4_0
theorem idx6_00 : ∀ t : Fin cfg6.N, win6_0.index t (0 : Fin 2) = t.val % 832 := word4_1
theorem idx6_01 : ∀ t : Fin cfg6.N, win6_0.index t (1 : Fin 2) = 0 := fun _ => rfl
theorem idx6_10 : ∀ t : Fin cfg6.N, win6_1.index t (0 : Fin 1) = t.val % 832 := word4_1
theorem idx6_20 : ∀ t : Fin cfg6.N, win6_2.index t (0 : Fin 2) = t.val / 832 := word4_0
theorem idx6_21 : ∀ t : Fin cfg6.N, win6_2.index t (1 : Fin 2) = 0 := fun _ => rfl
theorem idx6_30 : ∀ t : Fin cfg6.N, win6_3.index t (0 : Fin 2) = t.val / 832 := word4_0
theorem idx6_31 : ∀ t : Fin cfg6.N, win6_3.index t (1 : Fin 2) = 0 := fun _ => rfl
end Cert.KernelIdeal.Val.Scatter
-- ==== Proof.Val.V4Acc.lean ====
import proofs.«427573_j12068858102168_3_alg».proof.Proof.Val.Pay46
import proofs.«427573_j12068858102168_3_alg».proof.Proof.Val.ScatterFold
import proofs.«427573_j12068858102168_3_alg».proof.Proof.Val.Idx46
import proofs.«427573_j12068858102168_3_alg».proof.Proof.KI.R4Acc
import Idealize.ShloMosaic.Lib.Pipeline.Value
noncomputable section
open scoped BigOperators
namespace Cert.KernelIdeal.Val.Scatter
open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand
variable (V : Vals Ideal) (c : Dev nD)
abbrev dst4 : S851968.Idx → BitVec 32 := V c main_v8
abbrev gat4 : S851968x64.Idx → EReal := V c main_v17
abbrev inv4 : S51200x1.Idx → EReal := V c main_v16_1
abbrev wgt4 : S64x64.Idx → EReal := V c main_v19
abbrev gblk4 (t : Fin cfg4.N) : Vec Ideal S1024x64 .bf16 := iblk4 V c 0 t
abbrev dblk4 (t : Fin cfg4.N) : Vec Ideal S1024 .i32 := iblk4 V c 1 t
abbrev nblk4 (t : Fin cfg4.N) : Vec Ideal S2048x1 .f32 := iblk4 V c 2 t
abbrev wblk4 (t : Fin cfg4.N) : Vec Ideal S64x64 .f32 := iblk4 V c 3 t
theorem dblk4_apply (t : Fin cfg4.N) (q : Fin 1024) (hq : 1024 * (t.val % 832) + q.val < 851968) :
    dblk4 V c t (ix1 q) = dst4 V c (ix1 ⟨1024 * (t.val % 832) + q.val, hq⟩) := by
  have e1 := idx4_10 t
  show dst4 V c (((cfg4.win 1).blk t).view.emb (ix1 q)) = dst4 V c (ix1 ⟨_, hq⟩)
  refine congrArg (dst4 V c) (funext fun a => Fin.ext ?_)
  match a with
  | ⟨0, _⟩ =>
    show win4_1.index t (0 : Fin 1) * 1024 + 1 * q.val = 1024 * (t.val % 832) + q.val
    rw [e1]; omega
theorem emb4_0 (t : Fin cfg4.N) (q : Fin 1024) (f : Fin 64) (hq : 1024 * (t.val % 832) + q.val < 851968) :
    ((cfg4.win 0).blk t).view.emb (ix2 q f) = (ix2 (⟨1024 * (t.val % 832) + q.val, hq⟩ : Fin 851968) f : S851968x64.Idx) := by
  have e00 := idx4_00 t
  have e01 := idx4_01 t
  funext a; apply Fin.ext
  match a with
  | ⟨0, _⟩ =>
    show win4_0.index t (0 : Fin 2) * 1024 + 1 * q.val = 1024 * (t.val % 832) + q.val
    rw [e00]; omega
  | ⟨1, _⟩ =>
    show win4_0.index t (1 : Fin 2) * 64 + 1 * f.val = f.val
    rw [e01]; omega
theorem gblk4_apply (t : Fin cfg4.N) (q : Fin 1024) (f : Fin 64) (hq : 1024 * (t.val % 832) + q.val < 851968) :
    gblk4 V c t (ix2 q f) = gat4 V c (ix2 ⟨1024 * (t.val % 832) + q.val, hq⟩ f) :=
  congrArg (gat4 V c) (emb4_0 t q f hq)
theorem nblk4_apply (t : Fin cfg4.N) (r : Fin 2048) (hn : 2048 * (t.val / 832) + r.val < 51200) :
    nblk4 V c t (ix2 r (0 : Fin 1)) = inv4 V c (ix2 ⟨2048 * (t.val / 832) + r.val, hn⟩ (0 : Fin 1)) := by
  have e20 := idx4_20 t
  have e21 := idx4_21 t
  show inv4 V c (((cfg4.win 2).blk t).view.emb (ix2 r (0 : Fin 1))) = inv4 V c (ix2 ⟨_, hn⟩ (0 : Fin 1))
  refine congrArg (inv4 V c) (funext fun a => Fin.ext ?_)
  match a with
  | ⟨0, _⟩ =>
    show win4_2.index t (0 : Fin 2) * 2048 + 1 * r.val = 2048 * (t.val / 832) + r.val
    rw [e20]; omega
  | ⟨1, _⟩ =>
    show win4_2.index t (1 : Fin 2) * 1 + 1 * 0 = 0
    rw [e21]
theorem wblk4_apply (t : Fin cfg4.N) (f k : Fin 64) : wblk4 V c t (ix2 f k) = wgt4 V c (ix2 f k) := by
  have e30 := idx4_30 t
  have e31 := idx4_31 t
  show wgt4 V c (((cfg4.win 3).blk t).view.emb (ix2 f k)) = wgt4 V c (ix2 f k)
  refine congrArg (wgt4 V c) (funext fun a => Fin.ext ?_)
  match a with
  | ⟨0, _⟩ =>
    show win4_3.index t (0 : Fin 2) * 64 + 1 * f.val = f.val
    rw [e30]; omega
  | ⟨1, _⟩ =>
    show win4_3.index t (1 : Fin 2) * 64 + 1 * k.val = k.val
    rw [e31]; omega
section Fold
variable (g : S851968x64.Idx → EReal) (gb : Fin cfg4.N → Vec Ideal S1024x64 .bf16)
  (hgb : ∀ (t : Fin cfg4.N) (q : Fin 1024) (f : Fin 64) (hq : 1024 * (t.val % 832) + q.val < 851968),
    gb t (ix2 q f) = g (ix2 ⟨1024 * (t.val % 832) + q.val, hq⟩ f))
abbrev hsh (n : ℕ) (f : Fin 64) : Fin 851968 → EReal := fun e =>
  Cert.Spec.ind (Cert.Spec.code n = dst4 V c (ix1 e)) * g (ix2 e f)
include hgb
theorem tile4 (t : Fin cfg4.N) (r : Fin 2048) (f : Fin 64) :
    ∑ q : Fin 1024, Cert.Spec.ind (Cert.Spec.code (2048 * (grid4.coords t 0).val + r.val) = dblk4 V c t (ix1 q))
        * gb t (ix2 q f)
      = ∑ q : Fin 1024, extZ (hsh V c g (2048 * (t.val / 832) + r.val) f) (1024 * (t.val % 832) + q.val) := by
  have e0 := coords4_0 t
  refine Finset.sum_congr rfl fun q _ => ?_
  have hq : 1024 * (t.val % 832) + q.val < 851968 := by have := q.isLt; omega
  rw [extZ_of_lt _ hq, dblk4_apply V c t q hq, hgb t q f hq, e0]
-- An accumulator that restarts at the head of each grid row and adds one tile a point is the partial sum up to the point's tile.
theorem acc_step (t : Fin cfg4.N) (r : Fin 2048) (f : Fin 64)
    (ih : ¬t.val % 832 = 0 → accG (dblk4 V c) gb (t.val - 1) (Nat.lt_of_le_of_lt (Nat.sub_le _ _) t.isLt) (ix2 r f)
      = psum (hsh V c g (2048 * ((t.val - 1) / 832) + r.val) f) (1024 * ((t.val - 1) % 832 + 1))) :
    accG (dblk4 V c) gb t.val t.isLt (ix2 r f)
      = psum (hsh V c g (2048 * (t.val / 832) + r.val) f) (1024 * (t.val % 832 + 1)) := by
  by_cases h0 : t.val % 832 = 0
  · rw [accG_first _ _ t h0]
    refine (k4_pay2_apply (grid4.coords t) (dblk4 V c t) (gb t) (k4_pay1 (F := Ideal)) r f).trans ?_
    refine (congrArg₂ (fun a b : EReal => a + b) (k4_pay1_apply (ix2 r f)) (tile4 V c g gb hgb t r f)).trans ?_
    rw [psum_tile, h0, Nat.mul_zero, psum_zero]
  · have e1 : (t.val - 1) / 832 = t.val / 832 := by omega
    have e2 : (t.val - 1) % 832 + 1 = t.val % 832 := by omega
    have hprev := ih h0
    rw [e1, e2] at hprev
    rw [accG_next _ _ t h0]
    refine (k4_pay2_apply (grid4.coords t) (dblk4 V c t) (gb t) _ r f).trans ?_
    refine (congrArg₂ (fun a b : EReal => a + b) hprev (tile4 V c g gb hgb t r f)).trans ?_
    rw [psum_tile]
theorem acc_eq : ∀ (n : ℕ) (hn : n < cfg4.N) (r : Fin 2048) (f : Fin 64),
    accG (dblk4 V c) gb n hn (ix2 r f) = psum (hsh V c g (2048 * (n / 832) + r.val) f) (1024 * (n % 832 + 1))
  | 0, hn, r, f => acc_step V c g gb hgb ⟨0, hn⟩ r f fun h => absurd rfl h
  | n + 1, hn, r, f => acc_step V c g gb hgb ⟨n + 1, hn⟩ r f fun _ => acc_eq n (Nat.lt_of_succ_lt hn) r f
end Fold
theorem acc4_eq (n : ℕ) (hn : n < cfg4.N) (r : Fin 2048) (f : Fin 64) :
    acc4 V c n hn (ix2 r f) = psum (hsh V c (gat4 V c) (2048 * (n / 832) + r.val) f) (1024 * (n % 832 + 1)) :=
  acc_eq V c (gat4 V c) (gblk4 V c) (gblk4_apply V c) n hn r f
def res4 : S51200x64.Idx → EReal := fun j =>
  Cert.Spec.lin (fun (n : Fin 51200) (k : Fin 64) =>
      Cert.Spec.scat 851968 (fun e => dst4 V c (ix1 e)) (fun e k => gat4 V c (ix2 e k)) n.val k * inv4 V c (ix2 n (0 : Fin 1)))
    (fun f k => wgt4 V c (ix2 f k)) (j 0) (j 1)
theorem res4_apply (n : Fin 51200) (f : Fin 64) :
    res4 V c (ix2 n f) = ∑ k : Fin 64,
      (Cert.Spec.scat 851968 (fun e => dst4 V c (ix1 e)) (fun e k => gat4 V c (ix2 e k)) n.val k
        * inv4 V c (ix2 n (0 : Fin 1))) * wgt4 V c (ix2 f k) := rfl
theorem out4_eq (t : Fin cfg4.N) (h1 : t.val % 832 = 831) (r : Fin 2048) (f : Fin 64)
    (hn : 2048 * (t.val / 832) + r.val < 51200) :
    k4_pay3 (acc4 V c t.val t.isLt) (nblk4 V c t) (wblk4 V c t) (ix2 r f) = res4 V c (ix2 ⟨2048 * (t.val / 832) + r.val, hn⟩ f) := by
  rw [res4_apply]
  refine (k4_pay3_apply _ (nblk4 V c t) (wblk4 V c t) r f).trans (Finset.sum_congr rfl fun k _ => ?_)
  refine congrArg₂ (fun a b : EReal => a * b) (congrArg₂ (fun a b : EReal => a * b) ?_ (nblk4_apply V c t r hn)) (wblk4_apply V c t f k)
  rw [acc4_eq V c t.val t.isLt r k, h1]
  exact psum_full _
theorem flushed4_of (G : S51200x64.Idx → EReal) (X : Vec Ideal S2048x64 .bf16) (t : Fin cfg4.N)
    (h : ∀ (r : Fin 2048) (f : Fin 64) (hn : 2048 * (t.val / 832) + r.val < 51200),
      X (ix2 r f) = G (ix2 ⟨2048 * (t.val / 832) + r.val, hn⟩ f)) :
    (cfg4.win 4).cut (grid4.coords t) X = ((cfg4.win 4).blk t).view.read (Elt Ideal) G := by
  have hN : cfg4.N = 20800 := N_4
  have htN := t.isLt
  have e30 := idx4_40 t
  have e31 := idx4_41 t
  funext y
  have hy0 : (y 0).val < 2048 := (y 0).isLt
  have hy1 : (y 1).val < 64 := (y 1).isLt
  have hn : 2048 * (t.val / 832) + (y 0).val < 51200 := by omega
  have hx : (cfg4.win 4).xinj (grid4.coords t) y = ix2 (⟨(y 0).val, hy0⟩ : Fin 2048) (⟨(y 1).val, hy1⟩ : Fin 64) :=
    funext fun a => Fin.ext (by match a with | ⟨0, _⟩ => rfl | ⟨1, _⟩ => rfl)
  have he : ((cfg4.win 4).blk t).view.emb y
      = (ix2 (⟨2048 * (t.val / 832) + (y 0).val, hn⟩ : Fin 51200) (⟨(y 1).val, hy1⟩ : Fin 64) : S51200x64.Idx) := by
    funext a; apply Fin.ext
    match a with
    | ⟨0, _⟩ =>
      show win4_4.index t (0 : Fin 2) * 2048 + 1 * (y 0).val = 2048 * (t.val / 832) + (y 0).val
      rw [e30]; omega
    | ⟨1, _⟩ =>
      show win4_4.index t (1 : Fin 2) * 64 + 1 * (y 1).val = (y 1).val
      rw [e31]; omega
  show X ((cfg4.win 4).xinj (grid4.coords t) y) = G (((cfg4.win 4).blk t).view.emb y)
  rw [hx, he]
  exact h ⟨(y 0).val, hy0⟩ ⟨(y 1).val, hy1⟩ hn
theorem flushed4_eq (t : Fin cfg4.N) (h1 : t.val % 832 = 831) :
    (dat4 V c).flushed 4 t = ((cfg4.win 4).blk t).view.read (Elt Ideal) (res4 V c) := by
  show (cfg4.win 4).cut (grid4.coords t) ((dat4 V c).after 4 t) = _
  rw [after4_4]
  exact flushed4_of (res4 V c) _ t (out4_eq V c t h1)
theorem cover4 (i : S51200x64.Idx) :
    ∃ t : Fin cfg4.N, t.val % 832 = 831 ∧ i ∈ ((cfg4.win 4).blk t).view.set := by
  have hi0 : (i 0).val < 51200 := (i 0).isLt
  have hi1 : (i 1).val < 64 := (i 1).isLt
  have hN : cfg4.N = 20800 := N_4
  have ht : 832 * ((i 0).val / 2048) + 831 < cfg4.N := by rw [hN]; omega
  have e30 := idx4_40 ⟨832 * ((i 0).val / 2048) + 831, ht⟩
  have e31 := idx4_41 ⟨832 * ((i 0).val / 2048) + 831, ht⟩
  refine ⟨⟨832 * ((i 0).val / 2048) + 831, ht⟩, (by show (832 * ((i 0).val / 2048) + 831) % 832 = 831; omega), ?_⟩
  show i ∈ ((View.whole main_v20).slice (win4_4.rect ⟨832 * ((i 0).val / 2048) + 831, ht⟩)).set
  rw [View.set_slice_whole, Rect.mem_set_unit]
  intro a
  match a with
  | ⟨0, _⟩ =>
    show win4_4.index ⟨832 * ((i 0).val / 2048) + 831, ht⟩ (0 : Fin 2) * 2048 ≤ (i 0).val
      ∧ (i 0).val < win4_4.index ⟨832 * ((i 0).val / 2048) + 831, ht⟩ (0 : Fin 2) * 2048 + 2048
    rw [e30]
    show (832 * ((i 0).val / 2048) + 831) / 832 * 2048 ≤ (i 0).val ∧ (i 0).val < (832 * ((i 0).val / 2048) + 831) / 832 * 2048 + 2048
    omega
  | ⟨1, _⟩ =>
    show win4_4.index ⟨832 * ((i 0).val / 2048) + 831, ht⟩ (1 : Fin 2) * 64 ≤ (i 1).val
      ∧ (i 1).val < win4_4.index ⟨832 * ((i 0).val / 2048) + 831, ht⟩ (1 : Fin 2) * 64 + 64
    rw [e31]; omega
end Cert.KernelIdeal.Val.Scatter
end
-- ==== Proof.Val.V4.lean ====
import proofs.«427573_j12068858102168_3_alg».proof.Proof.Val.V4Acc
import proofs.«427573_j12068858102168_3_alg».proof.Proof.KI.R4

noncomputable section

open scoped BigOperators

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.KernelIdeal.Val.Scatter

theorem final4 (V : Vals Ideal) (c : Dev nD) :
    ((rp4 (F := Ideal)).dat V c).arrAt 4 cfg4.N = fun j =>
      Cert.Spec.lin (fun (n : Fin 51200) (k : Fin 64) =>
          Cert.Spec.scat 851968 (fun e : Fin 851968 => (V c main_v8 : S851968.Idx → BitVec 32) (ix1 e))
            (fun e k => (V c main_v17 : S851968x64.Idx → EReal) (ix2 e k)) n.val k
            * (fun n : Fin 51200 => (V c main_v16_1 : S51200x1.Idx → EReal) (ix2 n 0)) n)
        (fun f k => (V c main_v19 : S64x64.Idx → EReal) (ix2 f k)) (j 0) (j 1) :=
  (dat4 V c).arrAt_eq_of_cover 4 (res4 V c) (fun t hf => flushed4_eq V c t ((flush4_4 t).mp hf))
    fun i => (cover4 i).elim fun t h => ⟨t, (flush4_4 t).mpr h.1, h.2⟩

end Cert.KernelIdeal.Val

end
-- ==== Proof.Val.V5.lean ====
import proofs.«427573_j12068858102168_3_alg».proof.Proof.Val.V1
import proofs.«427573_j12068858102168_3_alg».proof.Proof.KI.R5

noncomputable section

open scoped BigOperators
open Idealize.ShloMosaic Idealize.ShloMosaic.ValueIdx
open Idealize.ShloMosaic.Pipeline (Dat Cfg Window)
open Cert.KernelIdeal Cert.KernelIdeal.Gen Cert.KernelIdeal.Hand

namespace Cert.KernelIdeal.Val

theorem final5 (V : Vals Ideal) (c : Dev nD) :
    ((rp5 (F := Ideal)).dat V c).arrAt 2 cfg5.N = fun j =>
      Cert.Spec.gath 51200 (fun e : Fin 851968 => (V c main_v7 : S851968.Idx → BitVec 32) (ValueIdx.ix1 e))
        (fun (n : Fin 51200) (f : Fin 64) => (V c main_v20 : S51200x64.Idx → EReal) (ValueIdx.ix2 n f)) (j 0) (j 1) :=
  (dat5 V c).arrAt_eq_of_cover 2 (gathered (V c main_v7) (V c main_v20))
    (fun t hf => flushed1_eq (V c main_v7) (V c main_v20) (fun t => iblk5 V c 0 t) (fun t => iblk5 V c 1 t)
      (fun t e E hE => srcBlk1_apply (V c main_v7) t e E hE) (fun t n f => featBlk1_apply (V c main_v20) t n f) t ((flush1_2 t).mp hf)) cover1

end Cert.KernelIdeal.Val

end
-- ==== Proof.Val.V6Acc.lean ====
import proofs.«427573_j12068858102168_3_alg».proof.Proof.Val.V4Acc
import proofs.«427573_j12068858102168_3_alg».proof.Proof.KI.R6Pieces
noncomputable section
open scoped BigOperators
namespace Cert.KernelIdeal.Val.Scatter
open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand
variable (V : Vals Ideal) (c : Dev nD)
abbrev dst6 : S851968.Idx → BitVec 32 := V c main_v8
abbrev gat6 : S851968x64.Idx → EReal := V c main_v21
abbrev inv6 : S51200x1.Idx → EReal := V c main_v16_1
abbrev gblk6 (t : Fin cfg6.N) : Vec Ideal S1024x64 .bf16 := iblk6 V c 0 t
abbrev nblk6 (t : Fin cfg6.N) : Vec Ideal S2048x1 .f32 := iblk6 V c 2 t

theorem gblk6_apply (t : Fin cfg6.N) (q : Fin 1024) (f : Fin 64) (hq : 1024 * (t.val % 832) + q.val < 851968) :
    gblk6 V c t (ix2 q f) = gat6 V c (ix2 ⟨1024 * (t.val % 832) + q.val, hq⟩ f) :=
  congrArg (gat6 V c) (emb4_0 t q f hq)
theorem acc6_eq (n : ℕ) (hn : n < cfg6.N) (r : Fin 2048) (f : Fin 64) :
    acc6 V c n hn (ix2 r f) = psum (hsh V c (gat6 V c) (2048 * (n / 832) + r.val) f) (1024 * (n % 832 + 1)) :=
  acc_eq V c (gat6 V c) (gblk6 V c) (gblk6_apply V c) n hn r f
def res6 : S51200x64.Idx → EReal := fun j =>
  Cert.Spec.scat 851968 (fun e => dst6 V c (ix1 e)) (fun e k => gat6 V c (ix2 e k)) (j 0).val (j 1)
    * inv6 V c (ix2 (j 0) (0 : Fin 1))
theorem out6_eq (t : Fin cfg6.N) (h1 : t.val % 832 = 831) (r : Fin 2048) (f : Fin 64)
    (hn : 2048 * (t.val / 832) + r.val < 51200) :
    k6_pay3 (acc6 V c t.val t.isLt) (nblk6 V c t) (ix2 r f) = res6 V c (ix2 ⟨2048 * (t.val / 832) + r.val, hn⟩ f) := by
  refine (k6_pay3_apply _ (nblk6 V c t) r f).trans ?_
  refine congrArg₂ (fun a b : EReal => a * b) ((acc6_eq V c t.val t.isLt r f).trans ?_) (nblk4_apply V c t r hn)
  rw [h1]
  exact psum_full _
theorem flushed6_eq (t : Fin cfg6.N) (h1 : t.val % 832 = 831) :
    (dat6 V c).flushed 3 t = ((cfg6.win 3).blk t).view.read (Elt Ideal) (res6 V c) := by
  show (cfg6.win 3).cut (grid6.coords t) ((dat6 V c).after 3 t) = _
  rw [after6_3]
  exact flushed4_of (res6 V c) _ t (out6_eq V c t h1)
theorem cover6 (i : S51200x64.Idx) :
    ∃ t : Fin cfg6.N, t.val % 832 = 831 ∧ i ∈ ((cfg6.win 3).blk t).view.set := cover4 i
end Cert.KernelIdeal.Val.Scatter
end
-- ==== Proof.Val.V6.lean ====
import proofs.«427573_j12068858102168_3_alg».proof.Proof.Val.V6Acc
import proofs.«427573_j12068858102168_3_alg».proof.Proof.KI.R6

noncomputable section

open scoped BigOperators

namespace Cert.KernelIdeal.Val

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.KernelIdeal.Val.Scatter

theorem final6 (V : Vals Ideal) (c : Dev nD) :
    ((rp6 (F := Ideal)).dat V c).arrAt 3 cfg6.N = fun j =>
      Cert.Spec.scat 851968 (fun e : Fin 851968 => (V c main_v8 : S851968.Idx → BitVec 32) (ix1 e))
        (fun e k => (V c main_v21 : S851968x64.Idx → EReal) (ix2 e k)) (j 0).val (j 1)
        * (fun n : Fin 51200 => (V c main_v16_1 : S51200x1.Idx → EReal) (ix2 n 0)) (j 0) :=
  (dat6 V c).arrAt_eq_of_cover 3 (res6 V c) (fun t hf => flushed6_eq V c t ((flush6_3 t).mp hf))
    fun i => (cover6 i).elim fun t h => ⟨t, (flush6_3 t).mpr h.1, h.2⟩

end Cert.KernelIdeal.Val

end
-- ==== Proof.Val.HostVals.lean ====
import proofs.«427573_j12068858102168_3_alg».proof.Proof.KI.ChainVals
import proofs.«427573_j12068858102168_3_alg».proof.Proof.Spec
import Idealize.ShloMosaic.Lib.Pipeline.Value
import Idealize.ShloMosaic.Lib.ValueLayout
import Idealize.ShloMosaic.Lib.ValueIdx
import Idealize.ShloMosaic.Lib.KernelVsHost
import Idealize.ShloMosaic.PureOps.Ideal.Laws

noncomputable section

namespace Cert.KernelIdeal.Val

open Cert.KernelIdeal Cert.KernelIdeal.Gen Cert.KernelIdeal.Hand
open Idealize.ShloMosaic Idealize.ShloMosaic.TcCoe Idealize.SL.Sem
open Idealize.ShloMosaic.ValueIdx

variable (m : (ℓ : Loc nD τ sig) → Buf (Elt Ideal) ℓ) (c : Dev nD)

/-- A padded edge row at entry `e`: the list's row `r` below 800000, then the self loop of node `e - 800000`, then node 51199. -/
theorem edgePad_apply (r : Fin 2) (A : S2x800000.Idx → BitVec 32) (e : Fin 851968) :
    (edgePad (F := Ideal) r A : S851968.Idx → BitVec 32) (ix1 e)
      = if h5 : e.val < 850000 then (if h : e.val < 800000 then A (ix2 r ⟨e.val, h⟩) else Cert.Spec.code (e.val - 800000))
        else Cert.Spec.code 51199 := by
  unfold edgePad edgeRow
  by_cases h5 : e.val < 850000
  · rw [dif_pos h5]
    refine (pad_apply_of_inside _ _ _ _ _ _ _ (ix1 e) (ix1 (⟨e.val, h5⟩ : Fin 850000)) ?_).trans ?_
    · intro a
      match a with
      | ⟨0, _⟩ => show e.val = 0 + e.val * (0 + 1); omega
    · by_cases h : e.val < 800000
      · rw [dif_pos h]
        refine (concatenate_pair_apply_left (t := S850000) (s₁ := S800000) (s₂ := S50000) _ _ _ _ (ix1 (⟨e.val, h5⟩ : Fin 850000)) (by rfl) (ix1 (⟨e.val, h⟩ : Fin 800000)) ?_).trans ?_
        · intro b
          match b with
          | ⟨0, _⟩ => rfl
        · rw [shapeCast_1a_a_apply]
          exact slice2_axis0_apply r.val _ _ (0 : Fin 1) ⟨e.val, h⟩ r rfl
      · rw [dif_neg h]
        refine (concatenate_pair_apply_right (t := S850000) (s₁ := S800000) (s₂ := S50000) _ _ _ _ (ix1 (⟨e.val, h5⟩ : Fin 850000)) (by rfl) (by rfl)
          (ix1 (⟨e.val - 800000, by omega⟩ : Fin 50000)) ?_ ?_).trans ?_
        · intro b hb
          match b with
          | ⟨0, _⟩ => exact absurd (Fin.ext rfl) hb
        · show (e.val - 800000) + 800000 = e.val
          omega
        · rfl
  · rw [dif_neg h5]
    refine pad_apply_of_not_inside _ _ _ _ _ _ _ (ix1 e) (0 : Fin 1) ?_
    intro hin
    have h3 : (e.val - 0) / (0 + 1) < 850000 := hin.2.2
    omega

theorem xPad_apply (n : Fin 51200) (k : Fin 64) :
    (xPad (F := Ideal) m c : S51200x64.Idx → EReal) (ix2 n k)
      = (if h : n.val < 50000 then (m ((c : Thread nD τ).loc main_arg0) : S50000x64.Idx → EReal) (ix2 ⟨n.val, h⟩ k) else 0 : EReal) := by
  unfold xPad
  by_cases h : n.val < 50000
  · rw [dif_pos h]
    refine pad_apply_of_inside _ _ _ _ _ _ _ (ix2 n k) (ix2 (⟨n.val, h⟩ : Fin 50000) k) ?_
    intro a
    match a with
    | ⟨0, _⟩ => show n.val = 0 + n.val * (0 + 1); omega
    | ⟨1, _⟩ => show k.val = 0 + k.val * (0 + 1); omega
  · rw [dif_neg h]
    refine (pad_apply_of_not_inside _ _ _ _ _ _ _ (ix2 n k) (0 : Fin 2) ?_).trans ?_
    · intro hin
      have h3 : (n.val - 0) / (0 + 1) < 50000 := hin.2.2
      omega
    · exact Ideal.ofBits_zero_f32

theorem wMat_apply (l : Fin 3) (A : S3x64x64.Idx → EReal) (f k : Fin 64) :
    (wMat (F := Ideal) l A : S64x64.Idx → EReal) (ix2 f k) = A (ix3 l f k) := by
  unfold wMat
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

theorem v23_apply (W : Valuation τ sig (Elt Ideal)) (i : Fin 50000) (k : Fin 64) :
    (StableHlo.after hostOps7 W (Proc.devRef .tc main_v23) : S50000x64.Idx → EReal) (ix2 i k)
      = (W (Proc.devRef .tc main_v22) : S51200x64.Idx → EReal) (ix2 ⟨i.val, Nat.lt_of_lt_of_le i.isLt (by decide)⟩ k) := by
  rw [hostOps7_main_v23]
  exact slice2_axis0_apply 0 _ _ i k _ (Nat.zero_add _).symm

end Cert.KernelIdeal.Val

end
-- ==== Proof.Val.Glue.lean ====
import proofs.«427573_j12068858102168_3_alg».proof.Proof.KI.ChainVals
import proofs.«427573_j12068858102168_3_alg».proof.Proof.KI.R0
import proofs.«427573_j12068858102168_3_alg».proof.Proof.KI.R1
import proofs.«427573_j12068858102168_3_alg».proof.Proof.KI.R2
import proofs.«427573_j12068858102168_3_alg».proof.Proof.KI.R3
import proofs.«427573_j12068858102168_3_alg».proof.Proof.KI.R4
import proofs.«427573_j12068858102168_3_alg».proof.Proof.KI.R5
import proofs.«427573_j12068858102168_3_alg».proof.Proof.KI.R6
import proofs.«427573_j12068858102168_3_alg».proof.Proof.Val.V0Blocks
import proofs.«427573_j12068858102168_3_alg».proof.Proof.Val.V1
import proofs.«427573_j12068858102168_3_alg».proof.Proof.Val.V2
import proofs.«427573_j12068858102168_3_alg».proof.Proof.Val.V3
import proofs.«427573_j12068858102168_3_alg».proof.Proof.Val.V4
import proofs.«427573_j12068858102168_3_alg».proof.Proof.Val.V5
import proofs.«427573_j12068858102168_3_alg».proof.Proof.Val.V6
import proofs.«427573_j12068858102168_3_alg».proof.Proof.Val.HostVals
import proofs.«427573_j12068858102168_3_alg».proof.Proof.Spec

noncomputable section

namespace Cert.KernelIdeal.Compose

open Cert.KernelIdeal Cert.KernelIdeal.Gen Cert.KernelIdeal.Hand Cert.KernelIdeal.Val
open Idealize.ShloMosaic Idealize.ShloMosaic.TcCoe Idealize.SL.Sem
open Idealize.ShloMosaic.ValueIdx

attribute [local irreducible] Cert.Spec.scat Cert.Spec.gath Cert.Spec.deg Cert.Spec.lin Cert.Spec.invd

abbrev rpsI : Regions Ideal := regions rp0 rp1 rp2 rp3 rp4 rp5 rp6

variable (m : (ℓ : Loc nD τ sig) → Buf (Elt Ideal) ℓ) (c : Dev nD)

def cSrc : Fin 851968 → BitVec 32 := fun e => (srcPad (F := Ideal) m c : S851968.Idx → BitVec 32) (ix1 e)
def cDst : Fin 851968 → BitVec 32 := fun e => (dstPad (F := Ideal) m c : S851968.Idx → BitVec 32) (ix1 e)
def cX : Fin 51200 → Fin 64 → EReal := fun n k => (xPad (F := Ideal) m c : S51200x64.Idx → EReal) (ix2 n k)
def cW (l : Fin 3) : Fin 64 → Fin 64 → EReal := fun f k => (wMatAt (F := Ideal) m l c : S64x64.Idx → EReal) (ix2 f k)

/-- Each layer's linear map is applied BEFORE that layer's aggregation. -/
def cL0 : Fin 51200 → Fin 64 → EReal := Cert.Spec.lin (cX m c) (cW m c 0)
def cL1 : Fin 51200 → Fin 64 → EReal := Cert.Spec.lin (Cert.Spec.agg 851968 51200 (cSrc m c) (cDst m c) (cL0 m c)) (cW m c 1)
def cL2 : Fin 51200 → Fin 64 → EReal := Cert.Spec.lin (Cert.Spec.agg 851968 51200 (cSrc m c) (cDst m c) (cL1 m c)) (cW m c 2)
def cOut : Fin 51200 → Fin 64 → EReal := Cert.Spec.agg 851968 51200 (cSrc m c) (cDst m c) (cL2 m c)

theorem arr_r0 : ((rp0 (F := Ideal)).dat (V7 m) c).arrAt 2 cfg0.N = fun j => cL0 m c (j 0) (j 1) := by
  refine (arr0 (V7 m) c).trans ?_
  rw [V7_main_v9, V7_main_v11]; rfl

theorem arr_r1 : ((rp1 (F := Ideal)).dat (V8 m rpsI) c).arrAt 2 cfg1.N
    = fun j => Cert.Spec.gath 51200 (cSrc m c) (cL0 m c) (j 0) (j 1) := by
  rw [final1, V8_main_v7, V8_main_v12, arr_r0]; rfl

theorem arr_r2_inv : ((rp2 (F := Ideal)).dat (V10 m rpsI) c).arrAt 4 cfg2.N
    = fun j => Cert.Spec.invd (Cert.Spec.deg 851968 (cDst m c) (j 0).val) := by
  rw [final2_invdeg, V10_main_v8]; rfl

theorem arr_r2_out : ((rp2 (F := Ideal)).dat (V10 m rpsI) c).arrAt 3 cfg2.N = fun j => cL1 m c (j 0) (j 1) := by
  rw [final2_out, V10_main_v8, V10_main_v13, V10_main_v15, arr_r1]; rfl

theorem arr_r3 : ((rp3 (F := Ideal)).dat (V11 m rpsI) c).arrAt 2 cfg3.N
    = fun j => Cert.Spec.gath 51200 (cSrc m c) (cL1 m c) (j 0) (j 1) := by
  rw [final3, V11_main_v7, V11_main_v16_0, arr_r2_out]; rfl

theorem arr_r4 : ((rp4 (F := Ideal)).dat (V13 m rpsI) c).arrAt 4 cfg4.N = fun j => cL2 m c (j 0) (j 1) := by
  rw [final4, V13_main_v8, V13_main_v17, V13_main_v16_1, V13_main_v19, arr_r3, arr_r2_inv]; rfl

theorem arr_r5 : ((rp5 (F := Ideal)).dat (V14 m rpsI) c).arrAt 2 cfg5.N
    = fun j => Cert.Spec.gath 51200 (cSrc m c) (cL2 m c) (j 0) (j 1) := by
  rw [final5, V14_main_v7, V14_main_v20, arr_r4]; rfl

theorem arr_r6 : ((rp6 (F := Ideal)).dat (V15 m rpsI) c).arrAt 3 cfg6.N = fun j => cOut m c (j 0) (j 1) := by
  rw [final6, V15_main_v8, V15_main_v21, V15_main_v16_1, arr_r5, arr_r2_inv]; rfl

theorem result_apply (i : Fin 50000) (k : Fin 64) :
    (W17 m rpsI c (Proc.devRef .tc main_v23) : S50000x64.Idx → EReal) (ix2 i k)
      = cOut m c ⟨i.val, Nat.lt_of_lt_of_le i.isLt (by decide)⟩ k := by
  refine (v23_apply (W16 m rpsI c) i k).trans ?_
  rw [W16_main_v22, arr_r6]
  rfl

end Cert.KernelIdeal.Compose

end
-- ==== Proof.Ref.Ops.lean ====
import proofs.«427573_j12068858102168_3_alg».proof.Proof.Gen.ReferenceIdeal
import Idealize.ShloMosaic.Lib.ValueIdxRank1
import Idealize.ShloMosaic.Lib.Pipeline.Value

noncomputable section

open scoped BigOperators

namespace Cert.ReferenceIdeal.RefValue

open Cert.ReferenceIdeal Cert.ReferenceIdeal.Facts₀ Idealize.ShloMosaic Idealize.ShloMosaic.ValueIdx

theorem sum_idx1 {M : Type*} [AddCommMonoid M] {n : Nat} (f : (⟨1, ![n]⟩ : Shape).Idx → M) :
    ∑ i, f i = ∑ a : Fin n, f (ix1 a) :=
  (Equiv.sum_comp idxEquiv1.symm f).symm

-- An update lands at `i` exactly when, on every axis, its start plus its window coordinate is `i`'s coordinate.
theorem resultIdx?_eq_some {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · next hh => cases h; exact (Int.toNat_of_nonneg (hh a).1).symm
    · cases h
  · intro h
    split
    · exact congrArg some (funext fun a => Fin.ext (by have := h a; show (_ : ℤ).toNat = _; omega))
    · next hn => exact (hn fun a => by have := h a; have := (i a).isLt; omega).elim

section Rows
variable (idx : IVec S850000x1 32) (e : Fin 850000) (f : Fin 64)

theorem gather_siIdx (c : Fin gather_S50000x64_S850000x1_S850000x64_1_0_n_n_0_1_164.startIndexMap.length) :
    gather_S50000x64_S850000x1_S850000x64_1_0_n_n_0_1_164.siIdx (ix2 e f) c = ix2 e (0 : Fin 1) := by
  funext b; refine Fin.ext ?_
  match b with
  | ⟨0, _⟩ => rfl
  | ⟨1, _⟩ => exact Nat.lt_one_iff.1 c.isLt

theorem gather_row :
    (gather_S50000x64_S850000x1_S850000x64_1_0_n_n_0_1_164.operandIdx (ix2 e f) idx 0).val
      = min (idx (ix2 e (0 : Fin 1))).toInt.toNat 49999 := by
  show (_ + _ + _ : ℕ) = _
  rw [GatherDims.batchCoord_eq_zero _ _ _ List.not_mem_nil, GatherDims.offCoord_eq_zero _ _ _ (by decide)]
  unfold GatherDims.start
  rw [dif_pos (show (0 : Fin S50000x64.rank) ∈ gather_S50000x64_S850000x1_S850000x64_1_0_n_n_0_1_164.startIndexMap by decide),
    gather_siIdx]
  rfl

theorem gather_col :
    (gather_S50000x64_S850000x1_S850000x64_1_0_n_n_0_1_164.operandIdx (ix2 e f) idx 1).val = f.val := by
  show (_ + _ + _ : ℕ) = _
  rw [GatherDims.batchCoord_eq_zero _ _ _ List.not_mem_nil]
  unfold GatherDims.start GatherDims.offCoord
  rw [dif_neg (show ¬(1 : Fin S50000x64.rank) ∈ gather_S50000x64_S850000x1_S850000x64_1_0_n_n_0_1_164.startIndexMap by decide),
    dif_pos (show (1 : Fin S50000x64.rank) ∈ gather_S50000x64_S850000x1_S850000x64_1_0_n_n_0_1_164.sKept by decide)]
  exact Nat.zero_add _

-- The gather reads the operand's row at the start index, read signed and clamped into the rows.
theorem gather_rows_apply {α : Type} (x : S50000x64.Idx → α) :
    Host.gather gather_S50000x64_S850000x1_S850000x64_1_0_n_n_0_1_164 x idx (ix2 e f)
      = x (ix2 (⟨min (idx (ix2 e (0 : Fin 1))).toInt.toNat 49999, by omega⟩ : Fin 50000) f) := by
  unfold Host.gather
  refine congrArg x (funext fun a => Fin.ext ?_)
  match a with
  | ⟨0, _⟩ => exact gather_row idx e f
  | ⟨1, _⟩ => exact gather_col idx e f

theorem scatter_rows_siIdx (c : Fin scatter_S50000x64_S850000x1_S850000x64_1_0_0_1.scatterDimsToOperandDims.length) :
    scatter_S50000x64_S850000x1_S850000x64_1_0_0_1.siIdx (ix2 e f) c = ix2 e (0 : Fin 1) := by
  funext b; refine Fin.ext ?_
  match b with
  | ⟨0, _⟩ => rfl
  | ⟨1, _⟩ => exact Nat.lt_one_iff.1 c.isLt

theorem scatter_rows_row :
    scatter_S50000x64_S850000x1_S850000x64_1_0_0_1.start (ix2 e f) idx 0
      + (scatter_S50000x64_S850000x1_S850000x64_1_0_0_1.window (ix2 e f) 0 : ℤ) = (idx (ix2 e (0 : Fin 1))).toInt := by
  unfold ScatterDims.start ScatterDims.window
  rw [dif_pos (show (0 : Fin S50000x64.rank) ∈ scatter_S50000x64_S850000x1_S850000x64_1_0_0_1.scatterDimsToOperandDims by decide),
    dif_neg (show ¬(0 : Fin S50000x64.rank) ∈ scatter_S50000x64_S850000x1_S850000x64_1_0_0_1.sKept by decide), scatter_rows_siIdx]
  simp

theorem scatter_rows_col :
    scatter_S50000x64_S850000x1_S850000x64_1_0_0_1.start (ix2 e f) idx 1
      + (scatter_S50000x64_S850000x1_S850000x64_1_0_0_1.window (ix2 e f) 1 : ℤ) = (f.val : ℤ) := by
  unfold ScatterDims.start ScatterDims.window
  rw [dif_neg (show ¬(1 : Fin S50000x64.rank) ∈ scatter_S50000x64_S850000x1_S850000x64_1_0_0_1.scatterDimsToOperandDims by decide),
    dif_pos (show (1 : Fin S50000x64.rank) ∈ scatter_S50000x64_S850000x1_S850000x64_1_0_0_1.sKept by decide)]
  exact Int.zero_add _

theorem scatter_rows_lands_iff (n : Fin 50000) (g : Fin 64) :
    scatter_S50000x64_S850000x1_S850000x64_1_0_0_1.resultIdx? (ix2 e f) idx = some (ix2 n g)
      ↔ (idx (ix2 e (0 : Fin 1))).toInt = (n.val : ℤ) ∧ f = g := by
  have r0 := scatter_rows_row idx e f
  have r1 := scatter_rows_col idx e f
  rw [resultIdx?_eq_some]
  constructor
  · intro h
    exact ⟨r0.symm.trans (h 0), Fin.ext (by exact_mod_cast r1.symm.trans (h 1))⟩
  · rintro ⟨h0, rfl⟩ a
    match a with
    | ⟨0, _⟩ => exact r0.trans h0
    | ⟨1, _⟩ => exact r1

end Rows

-- Row n of the scatter collects the update rows whose scatter index, read signed, is n.
theorem scatter_rows_apply (x : FVec Ideal S50000x64 .f32) (idx : IVec S850000x1 32) (upd : FVec Ideal S850000x64 .f32)
    (n : Fin 50000) (g : Fin 64) :
    Host.scatterAdd (F := Ideal) scatter_S50000x64_S850000x1_S850000x64_1_0_0_1 x idx upd (ix2 n g)
      = x (ix2 n g) + ∑ e : Fin 850000, if (idx (ix2 e (0 : Fin 1))).toInt = (n.val : ℤ) then upd (ix2 e g) else 0 := by
  show Ideal.hostScatterAdd _ x idx upd _ = _
  unfold Ideal.hostScatterAdd
  refine congrArg (fun t => x (ix2 n g) + t) ?_
  rw [Finset.sum_filter, sum_idx2]
  refine Finset.sum_congr rfl fun e _ => ?_
  by_cases h : (idx (ix2 e (0 : Fin 1))).toInt = (n.val : ℤ)
  · rw [if_pos h, Finset.sum_eq_single g]
    · rw [if_pos ((scatter_rows_lands_iff idx e g n g).mpr ⟨h, rfl⟩)]
    · intro f _ hf
      rw [if_neg (fun hc => hf ((scatter_rows_lands_iff idx e f n g).mp hc).2)]
    · intro hg; exact absurd (Finset.mem_univ g) hg
  · rw [if_neg h]
    refine Finset.sum_eq_zero fun f _ => ?_
    rw [if_neg (fun hc => h ((scatter_rows_lands_iff idx e f n g).mp hc).1)]

section Deg
variable (idx : IVec S850000x1 32) (e : Fin 850000)

theorem scatter_deg_siIdx (c : Fin scatter_S50000_S850000x1_S850000_n_0_0_1.scatterDimsToOperandDims.length) :
    scatter_S50000_S850000x1_S850000_n_0_0_1.siIdx (ix1 e) c = ix2 e (0 : Fin 1) := by
  funext b; refine Fin.ext ?_
  match b with
  | ⟨0, _⟩ => rfl
  | ⟨1, _⟩ => exact Nat.lt_one_iff.1 c.isLt

theorem scatter_deg_row :
    scatter_S50000_S850000x1_S850000_n_0_0_1.start (ix1 e) idx 0
      + (scatter_S50000_S850000x1_S850000_n_0_0_1.window (ix1 e) 0 : ℤ) = (idx (ix2 e (0 : Fin 1))).toInt := by
  unfold ScatterDims.start ScatterDims.window
  rw [dif_pos (show (0 : Fin S50000.rank) ∈ scatter_S50000_S850000x1_S850000_n_0_0_1.scatterDimsToOperandDims by decide),
    dif_neg (show ¬(0 : Fin S50000.rank) ∈ scatter_S50000_S850000x1_S850000_n_0_0_1.sKept by decide), scatter_deg_siIdx]
  simp

theorem scatter_deg_lands_iff (n : Fin 50000) :
    scatter_S50000_S850000x1_S850000_n_0_0_1.resultIdx? (ix1 e) idx = some (ix1 n)
      ↔ (idx (ix2 e (0 : Fin 1))).toInt = (n.val : ℤ) := by
  have r0 := scatter_deg_row idx e
  rw [resultIdx?_eq_some]
  constructor
  · intro h
    exact r0.symm.trans (h 0)
  · intro h0 a
    match a with
    | ⟨0, _⟩ => exact r0.trans h0

end Deg

-- Element n of the counting scatter collects the updates whose scatter index, read signed, is n.
theorem scatter_deg_apply (x : FVec Ideal S50000 .f32) (idx : IVec S850000x1 32) (upd : FVec Ideal S850000 .f32)
    (n : Fin 50000) :
    Host.scatterAdd (F := Ideal) scatter_S50000_S850000x1_S850000_n_0_0_1 x idx upd (ix1 n)
      = x (ix1 n) + ∑ e : Fin 850000, if (idx (ix2 e (0 : Fin 1))).toInt = (n.val : ℤ) then upd (ix1 e) else 0 := by
  show Ideal.hostScatterAdd _ x idx upd _ = _
  unfold Ideal.hostScatterAdd
  refine congrArg (fun t => x (ix1 n) + t) ?_
  rw [Finset.sum_filter, sum_idx1]
  exact Finset.sum_congr rfl fun e _ => if_congr (scatter_deg_lands_iff idx e n) rfl rfl

theorem concat_apply {α : Type} (a : S800000.Idx → α) (b : S50000.Idx → α) (e : Fin 850000) :
    concatenate S850000 0 [⟨S800000, a⟩, ⟨S50000, b⟩] concatenates_S800000_S50000_S850000_d0 (ix1 e)
      = if h : e.val < 800000 then a (ix1 (⟨e.val, h⟩ : Fin 800000))
        else b (ix1 (⟨e.val - 800000, by have := e.isLt; omega⟩ : Fin 50000)) := by
  by_cases h : e.val < 800000
  · rw [dif_pos h]
    exact concatenate_pair_apply_left 0 a b concatenates_S800000_S50000_S850000_d0 (ix1 e) rfl _
      (fun b => by match b with | ⟨0, _⟩ => rfl)
  · rw [dif_neg h]
    refine concatenate_pair_apply_right 0 a b concatenates_S800000_S50000_S850000_d0 (ix1 e) rfl rfl _
      (fun b hb => by match b with | ⟨0, _⟩ => exact absurd rfl hb) ?_
    show e.val - 800000 + 800000 = e.val
    omega

end Cert.ReferenceIdeal.RefValue

end
-- ==== Proof.Algebra.lean ====
import proofs.«427573_j12068858102168_3_alg».proof.Proof.Spec
import Mathlib.Algebra.BigOperators.Group.Finset.Basic
import Mathlib.Algebra.BigOperators.Ring.Finset
import Mathlib.Algebra.BigOperators.Fin
import Mathlib.Data.EReal.Basic
import Mathlib.Order.MinMax
import Mathlib.Tactic.Ring
import Mathlib.Tactic.NormNum

noncomputable section

open scoped BigOperators
open Idealize.ShloMosaic

namespace Cert.Spec

theorem code_inj {a b : ℕ} (ha : a < 2 ^ 32) (hb : b < 2 ^ 32) (h : code a = code b) : a = b := by
  have h' := congrArg BitVec.toNat h
  simp only [code, BitVec.toNat_ofNat] at h'
  rwa [Nat.mod_eq_of_lt ha, Nat.mod_eq_of_lt hb] at h'

theorem ind_true {p : Prop} [Decidable p] (h : p) : ind p = 1 := by simp [ind, h]

theorem ind_false {p : Prop} [Decidable p] (h : ¬ p) : ind p = 0 := by simp [ind, h]

theorem gath_eq {ε φ : Type} {N : ℕ} (hN : N ≤ 2 ^ 32) (src : ε → BitVec 32) (z : Fin N → φ → EReal)
    (e : ε) (f : φ) (n : Fin N) (h : src e = code n.val) : gath N src z e f = z n f := by
  unfold gath
  rw [Finset.sum_eq_single n]
  · rw [ind_true h, one_mul]
  · intro m _ hm
    have : ¬ (src e = code m.val) := by
      rw [h]
      intro hh
      exact hm (Fin.ext (code_inj (lt_of_lt_of_le n.isLt hN) (lt_of_lt_of_le m.isLt hN) hh).symm)
    rw [ind_false this, zero_mul]
  · intro hn
    exact absurd (Finset.mem_univ n) hn

theorem sum_castLE {M L : ℕ} (h : M ≤ L) (t : Fin L → EReal) (hz : ∀ e : Fin L, M ≤ e.val → t e = 0) :
    ∑ e : Fin L, t e = ∑ e : Fin M, t (Fin.castLE h e) := by
  obtain ⟨K, rfl⟩ := Nat.exists_eq_add_of_le h
  rw [Fin.sum_trunc t (fun j => hz _ (by simp [Fin.natAdd]))]
  rfl

def restr {κ : Type} {N N' : ℕ} (h : N ≤ N') (zp : Fin N' → κ → EReal) : Fin N → κ → EReal :=
  fun i j => zp (Fin.castLE h i) j

theorem restr_lin {κ κ' : Type} [Fintype κ] {N N' : ℕ} (h : N ≤ N') (zp : Fin N' → κ → EReal)
    (w : κ' → κ → EReal) : restr h (lin zp w) = lin (restr h zp) w := rfl

section Pad

variable {E E' N N' : ℕ} (hE : E ≤ E') (hN : N ≤ N') (hN' : N' ≤ 2 ^ 32) (src dst : Fin E → BitVec 32)
  (srcp dstp : Fin E' → BitVec 32) (p : ℕ) (hp : p < 2 ^ 32) (hNp : N ≤ p) (hsrc : ∀ e, ∃ n : Fin N, src e = code n.val)
  (hs : ∀ e : Fin E, srcp (Fin.castLE hE e) = src e)
  (hd : ∀ e : Fin E, dstp (Fin.castLE hE e) = dst e) (hdp : ∀ e : Fin E', E ≤ e.val → dstp e = code p)

include hp hd hdp

theorem scat_pad {φ : Type} (g : Fin E → φ → EReal) (g' : Fin E' → φ → EReal) (f : φ)
    (hg : ∀ e : Fin E, g' (Fin.castLE hE e) f = g e f) (i : ℕ) (hi : i < 2 ^ 32) (hip : i ≠ p) :
    scat E' dstp g' i f = scat E dst g i f := by
  unfold scat
  rw [sum_castLE hE]
  · refine Finset.sum_congr rfl fun e _ => ?_
    rw [hd e, hg e]
  · intro e he
    rw [hdp e he, ind_false (fun hh => hip (code_inj hi hp hh)), zero_mul]

theorem deg_pad (i : ℕ) (hi : i < 2 ^ 32) (hip : i ≠ p) : deg E' dstp i = deg E dst i := by
  simpa only [deg, scat, mul_one] using
    scat_pad hE dst dstp p hp hd hdp (fun _ (_ : Unit) => 1) (fun _ _ => 1) () (fun _ => rfl) i hi hip

include hN' hNp hsrc hs

theorem restr_agg (zp : Fin N' → Fin 64 → EReal) :
    restr hN (agg E' N' srcp dstp zp) = agg E N src dst (restr hN zp) := by
  funext i f
  have hi : i.val < 2 ^ 32 := lt_of_lt_of_le i.isLt (le_trans hN hN')
  have hip : i.val ≠ p := fun hh => absurd (hh ▸ i.isLt) (not_lt.mpr hNp)
  show scat E' dstp (gath N' srcp zp) i.val f * invd (deg E' dstp i.val)
      = scat E dst (gath N src (restr hN zp)) i.val f * invd (deg E dst i.val)
  rw [deg_pad hE dst dstp p hp hd hdp i.val hi hip,
    scat_pad hE dst dstp p hp hd hdp (gath N src (restr hN zp)) (gath N' srcp zp) f ?_ i.val hi hip]
  intro e
  obtain ⟨n, hn⟩ := hsrc e
  rw [gath_eq (le_trans hN hN') src (restr hN zp) e f n hn,
    gath_eq hN' srcp zp (Fin.castLE hE e) f (Fin.castLE hN n) (by rw [hs e, hn]; rfl)]
  rfl

end Pad

def up {ι κ : Type} (Z : ι → κ → ℝ) : ι → κ → EReal := fun i j => ((Z i j : ℝ) : EReal)

theorem exists_up {ι κ : Type} (z : ι → κ → EReal) (h : ∀ i j, ∃ r : ℝ, z i j = (r : EReal)) :
    ∃ Z : ι → κ → ℝ, z = up Z := by
  choose Z hZ using h
  exact ⟨Z, funext fun i => funext fun j => hZ i j⟩

def indR (p : Prop) [Decidable p] : ℝ := if p then 1 else 0

def linR {ι κ κ' : Type} [Fintype κ] (x : ι → κ → ℝ) (w : κ' → κ → ℝ) (i : ι) (f : κ') : ℝ :=
  ∑ j, x i j * w f j

def aggR (E N : ℕ) (src dst : Fin E → BitVec 32) (z : Fin N → Fin 64 → ℝ) (n : Fin N) (f : Fin 64) : ℝ :=
  (∑ e : Fin E, indR (code n.val = dst e) * ∑ m : Fin N, indR (src e = code m.val) * z m f)
    * (1 / max (∑ e : Fin E, indR (code n.val = dst e)) 1)

theorem coe_sum {ι : Type} (s : Finset ι) (g : ι → ℝ) :
    ((∑ i ∈ s, g i : ℝ) : EReal) = ∑ i ∈ s, ((g i : ℝ) : EReal) :=
  map_sum (⟨⟨Real.toEReal, EReal.coe_zero⟩, EReal.coe_add⟩ : ℝ →+ EReal) g s

theorem ind_coe (p : Prop) [Decidable p] : ind p = ((indR p : ℝ) : EReal) := by
  unfold ind indR
  split_ifs <;> simp

theorem lin_up {ι κ κ' : Type} [Fintype κ] (Z : ι → κ → ℝ) (W : κ' → κ → ℝ) :
    lin (up Z) (up W) = up (linR Z W) := by
  funext i f
  simp only [lin, up, linR, coe_sum, EReal.coe_mul]

theorem one_coe : one = ((1 : ℝ) : EReal) := by
  simp [one, Ideal.ofBits, Ideal.ieee, -EReal.coe_mul]
  norm_num

-- A degree is a real count, and its clamped reciprocal divides by a real that is at least one.
theorem invd_deg (L : ℕ) (dst : Fin L → BitVec 32) (n : ℕ) :
    invd (deg L dst n) = ((1 / max (∑ e : Fin L, indR (code n = dst e)) 1 : ℝ) : EReal) := by
  have hne : max (∑ e : Fin L, indR (code n = dst e)) 1 ≠ 0 := ne_of_gt (lt_of_lt_of_le one_pos (le_max_right _ 1))
  unfold invd deg
  simp only [ind_coe, ← coe_sum]
  rw [one_coe, ← EReal.coe_strictMono.monotone.map_max, Ideal.div_coe hne, ← EReal.coe_mul, one_mul]

theorem agg_up (E N : ℕ) (src dst : Fin E → BitVec 32) (Z : Fin N → Fin 64 → ℝ) :
    agg E N src dst (up Z) = up (aggR E N src dst Z) := by
  funext n f
  simp only [agg, invd_deg, scat, gath, up, aggR, ind_coe, coe_sum, EReal.coe_mul]

theorem aggR_linR (E N : ℕ) (src dst : Fin E → BitVec 32) (Z : Fin N → Fin 64 → ℝ) (W : Fin 64 → Fin 64 → ℝ) :
    aggR E N src dst (linR Z W) = linR (aggR E N src dst Z) W := by
  funext n f
  simp only [aggR, linR, Finset.mul_sum, Finset.sum_mul]
  conv_rhs => rw [Finset.sum_comm]
  refine Finset.sum_congr rfl fun e _ => ?_
  conv_rhs => rw [Finset.sum_comm]
  refine Finset.sum_congr rfl fun m _ => Finset.sum_congr rfl fun j _ => ?_
  ring

theorem chain_up (E N : ℕ) (src dst : Fin E → BitVec 32) (X : Fin N → Fin 64 → ℝ) (W0 W1 W2 : Fin 64 → Fin 64 → ℝ) :
    agg E N src dst (lin (agg E N src dst (lin (agg E N src dst (lin (up X) (up W0))) (up W1))) (up W2))
      = refLayer E N src dst (refLayer E N src dst (refLayer E N src dst (up X) (up W0)) (up W1)) (up W2) := by
  simp only [refLayer, lin_up, agg_up, aggR_linR]

theorem restr_apply {κ : Type} {N N' : ℕ} (h : N ≤ N') (zp : Fin N' → κ → EReal) (i : Fin N) (j : κ) :
    restr h zp i j = zp (Fin.castLE h i) j := rfl

theorem kernel_eq_ref
    (x : Fin 50000 → Fin 64 → EReal) (w0 w1 w2 : Fin 64 → Fin 64 → EReal)
    (hx : ∀ i j, ∃ r : ℝ, x i j = (r : EReal)) (hw0 : ∀ f j, ∃ r : ℝ, w0 f j = (r : EReal))
    (hw1 : ∀ f j, ∃ r : ℝ, w1 f j = (r : EReal)) (hw2 : ∀ f j, ∃ r : ℝ, w2 f j = (r : EReal))
    (src dst : Fin 850000 → BitVec 32) (hsrc : ∀ e, ∃ n : Fin 50000, src e = code n.val)
    (xp : Fin 51200 → Fin 64 → EReal) (hxp : ∀ n j, xp n j = if h : n.val < 50000 then x ⟨n.val, h⟩ j else 0)
    (srcp dstp : Fin 851968 → BitVec 32)
    (hsrcp : ∀ e, srcp e = if h : e.val < 850000 then src ⟨e.val, h⟩ else code 51199)
    (hdstp : ∀ e, dstp e = if h : e.val < 850000 then dst ⟨e.val, h⟩ else code 51199)
    (i : Fin 50000) (f : Fin 64) :
    agg 851968 51200 srcp dstp (lin (agg 851968 51200 srcp dstp (lin (agg 851968 51200 srcp dstp (lin xp w0)) w1)) w2)
        ⟨i.val, by omega⟩ f
      = refLayer 850000 50000 src dst (refLayer 850000 50000 src dst (refLayer 850000 50000 src dst x w0) w1) w2 i f := by
  have hE : 850000 ≤ 851968 := by norm_num
  have hN : 50000 ≤ 51200 := by norm_num
  have hs : ∀ e : Fin 850000, srcp (Fin.castLE hE e) = src e := fun e => by
    rw [hsrcp, dif_pos (show (Fin.castLE hE e).val < 850000 from e.isLt)]
    rfl
  have hd : ∀ e : Fin 850000, dstp (Fin.castLE hE e) = dst e := fun e => by
    rw [hdstp, dif_pos (show (Fin.castLE hE e).val < 850000 from e.isLt)]
    rfl
  have hdp : ∀ e : Fin 851968, 850000 ≤ e.val → dstp e = code 51199 := fun e he => by
    rw [hdstp, dif_neg (not_lt.mpr he)]
  have hr : restr hN xp = x := by
    funext a j
    rw [restr_apply, hxp, dif_pos (show (Fin.castLE hN a).val < 50000 from a.isLt)]
    rfl
  have hA := restr_agg hE hN (by norm_num) src dst srcp dstp 51199 (by norm_num) (by norm_num) hsrc hs hd hdp
  obtain ⟨X, rfl⟩ := exists_up x hx
  obtain ⟨W0, rfl⟩ := exists_up w0 hw0
  obtain ⟨W1, rfl⟩ := exists_up w1 hw1
  obtain ⟨W2, rfl⟩ := exists_up w2 hw2
  have key : restr hN (agg 851968 51200 srcp dstp (lin (agg 851968 51200 srcp dstp
        (lin (agg 851968 51200 srcp dstp (lin xp (up W0))) (up W1))) (up W2)))
      = refLayer 850000 50000 src dst (refLayer 850000 50000 src dst (refLayer 850000 50000 src dst (up X) (up W0)) (up W1))
          (up W2) := by
    rw [hA, restr_lin, hA, restr_lin, hA, restr_lin, hr, chain_up]
  have key' := congrFun (congrFun key i) f
  rw [restr_apply] at key'
  exact key'

end Cert.Spec

end
-- ==== Proof.Ref.Words.lean ====
import proofs.«427573_j12068858102168_3_alg».proof.Proof.Algebra
import Idealize.ShloMosaic.Lib.StableHlo.Predicate

noncomputable section

open scoped BigOperators

namespace Cert.ReferenceIdeal.RefValue

open Idealize.ShloMosaic Cert.Spec

theorem toInt_code (n : ℕ) (hn : n < 50000) : (code n).toInt = (n : ℤ) :=
  StableHlo.Predicate.toInt_ofNat_small n (lt_trans hn (by norm_num))

theorem toInt_eq_iff (w : BitVec 32) (n : ℕ) (hn : n < 50000) : w.toInt = (n : ℤ) ↔ code n = w := by
  constructor
  · intro h
    apply BitVec.eq_of_toInt_eq
    rw [toInt_code n hn, h]
  · rintro rfl
    exact toInt_code n hn

-- The wrap of a negative index leaves a node's word alone: the word is not negative.
theorem wrap_code (w z c : BitVec 32) (hz : z = 0#32) (n : ℕ) (hn : n < 50000) (hw : w = code n) :
    Scalar.select (IntOp.cmpi .slt w z) (IntOp.addi w c) w = w := by
  subst hz hw
  have h : (code n).slt 0#32 = false := by
    rw [BitVec.slt_eq_decide, toInt_code n hn, BitVec.toInt_zero]
    exact decide_eq_false (by omega)
  show (if BitVec.ofBool ((code n).slt 0#32) = 1 then _ else _) = _
  rw [h]
  exact if_neg (by decide)

theorem sum_lands (dst : Fin 850000 → BitVec 32) (u : Fin 850000 → EReal) (n : Fin 50000) :
    (∑ e : Fin 850000, if (dst e).toInt = (n.val : ℤ) then u e else 0)
      = ∑ e : Fin 850000, ind (code n.val = dst e) * u e := by
  refine Finset.sum_congr rfl fun e _ => ?_
  unfold ind
  rw [ite_mul, one_mul, zero_mul]
  exact if_congr (toInt_eq_iff _ _ n.isLt) rfl rfl

end Cert.ReferenceIdeal.RefValue

end
-- ==== Proof.Ref.lean ====
import proofs.«427573_j12068858102168_3_alg».proof.Defs
import proofs.«427573_j12068858102168_3_alg».proof.Proof.Gen.ReferenceIdeal
import proofs.«427573_j12068858102168_3_alg».proof.Proof.Gen.ReferenceIdeal.Run
import proofs.«427573_j12068858102168_3_alg».proof.Proof.Gen.ReferenceIdeal.Read
import proofs.«427573_j12068858102168_3_alg».proof.Proof.Gen.Pre_finite_inputs
import proofs.«427573_j12068858102168_3_alg».proof.Proof.Ref.Ops
import proofs.«427573_j12068858102168_3_alg».proof.Proof.Ref.Words

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Spec

def refSrc (ei : IVec S2x800000 32) : Fin 850000 → BitVec 32 := fun e =>
  if h : e.val < 800000 then ei (ix2 (0 : Fin 2) (⟨e.val, h⟩ : Fin 800000)) else code (e.val - 800000)

def refDst (ei : IVec S2x800000 32) : Fin 850000 → BitVec 32 := fun e =>
  if h : e.val < 800000 then ei (ix2 (1 : Fin 2) (⟨e.val, h⟩ : Fin 800000)) else code (e.val - 800000)

abbrev refG (X : FVec Ideal S50000x64 .f32) (ei : IVec S2x800000 32) (Wt : FVec Ideal S3x64x64 .f32) :
    S50000x64.Idx → EReal := fun j =>
  refLayer 850000 50000 (refSrc ei) (refDst ei)
    (refLayer 850000 50000 (refSrc ei) (refDst ei)
      (refLayer 850000 50000 (refSrc ei) (refDst ei) (fun i f => X (ix2 i f)) (fun f k => Wt (ix3 (0 : Fin 3) f k)))
      (fun f k => Wt (ix3 (1 : Fin 3) f k)))
    (fun f k => Wt (ix3 (2 : Fin 3) f k)) (j 0) (j 1)

section Stages
variable (ei : IVec S2x800000 32)

-- The two rows of the edge list, each followed by the self loops.
theorem ends_eq (e : Fin 850000) :
    val_main_v3 (F := Ideal) ei (ix1 e) = refSrc ei e ∧ val_main_v6 (F := Ideal) ei (ix1 e) = refDst ei e := by
  unfold val_main_v3 val_main_v6 refSrc refDst
  rw [concat_apply, concat_apply]
  by_cases h : e.val < 800000
  · simp only [dif_pos h]
    rw [val_main_v2_apply, val_main_v1_apply, val_main_v5_apply, val_main_v4_apply]
    constructor <;> refine congrArg ei (funext fun a => Fin.ext ?_) <;> match a with
      | ⟨0, _⟩ => rfl
      | ⟨1, _⟩ => exact Nat.mod_eq_of_lt h
  · simp only [dif_neg h]
    exact ⟨rfl, rfl⟩

-- Every scatter of the reference reads the destinations' words.
theorem dest (e : Fin 850000) : val_main_v24 (F := Ideal) ei (ix2 e (0 : Fin 1)) = refDst ei e := by
  rw [val_main_v24_apply, show idx_main_v24 (ix2 e (0 : Fin 1)) = ix1 e from funext fun a => by match a with | ⟨0, _⟩ => rfl]
  exact (ends_eq ei e).2

theorem deg_eq (n : Fin 50000) : val_main_v10 (F := Ideal) ei (ix1 n) = deg 850000 (refDst ei) n.val := by
  unfold val_main_v10 deg
  rw [scatter_deg_apply, show val_main_v8 (F := Ideal) (ix1 n) = 0 from Ideal.ofBits_zero_f32, zero_add]
  refine (Finset.sum_congr rfl fun e _ => ?_).trans
    ((sum_lands (refDst ei) (fun _ => 1) n).trans (Finset.sum_congr rfl fun e _ => mul_one _))
  rw [show val_main_v9 (F := Ideal) ei = val_main_v24 (F := Ideal) ei from rfl, dest, show val_main_v7 (F := Ideal) (ix1 e) = 1 from one_coe.trans EReal.coe_one]

-- The scale at (n, k) is node n's reciprocal clamped in-degree.
theorem inv_eq (n : Fin 50000) (k : Fin 64) :
    val_main_v26 (F := Ideal) ei (ix2 n k) = invd (deg 850000 (refDst ei) n.val) := by
  rw [val_main_v26_apply, val_main_v15_apply, val_main_v14_apply, val_main_v12_apply,
    show idx_main_v15 (idx_main_v26 (ix2 n k)) = ix1 n from funext fun a => by match a with | ⟨0, _⟩ => rfl, deg_eq]
  rfl

variable (hsrc : ∀ e : Fin 800000, ∃ n : Fin 50000, ei (ix2 (0 : Fin 2) e) = code n.val)
include hsrc

theorem refSrc_node (e : Fin 850000) : ∃ n : Fin 50000, refSrc ei e = code n.val := by
  unfold refSrc
  by_cases h : e.val < 800000
  · rw [dif_pos h]; exact hsrc ⟨e.val, h⟩
  · rw [dif_neg h]; exact ⟨⟨e.val - 800000, by have := e.isLt; omega⟩, rfl⟩

-- The start indices are the sources' words: the wrap of a negative index leaves a node's word alone.
theorem start_eq (e : Fin 850000) : val_main_v21 (F := Ideal) ei (ix2 e (0 : Fin 1)) = refSrc ei e := by
  obtain ⟨n, hn⟩ := refSrc_node ei hsrc e
  rw [val_main_v21_apply,
    show idx_main_v21 (ix2 e (0 : Fin 1)) = ix1 e from funext fun a => by match a with | ⟨0, _⟩ => rfl,
    val_main_v20_apply, val_main_v17_apply, val_main_v19_apply, (ends_eq ei e).1]
  exact wrap_code _ _ _ rfl n.val n.isLt hn

-- The gather reads each edge's source row: the clamp does nothing to a node's word.
theorem gather_at (z : FVec Ideal S50000x64 .f32) (e : Fin 850000) (k : Fin 64) :
    val_main_v22 (F := Ideal) z ei (ix2 e k) = gath 50000 (refSrc ei) (fun i f => z (ix2 i f)) e k := by
  obtain ⟨m, hm⟩ := refSrc_node ei hsrc e
  unfold val_main_v22
  rw [gather_rows_apply, gath_eq (by norm_num) (refSrc ei) _ e k m hm]
  refine congrArg (fun r : Fin 50000 => z (ix2 r k)) (Fin.ext ?_)
  show min (val_main_v21 (F := Ideal) ei (ix2 e (0 : Fin 1))).toInt.toNat 49999 = m.val
  rw [start_eq ei hsrc, hm, toInt_code m.val m.isLt]
  omega

-- One layer: the product of the scaled scatter of the gathered rows with a right operand that is a transposed weight matrix.
theorem layer_sum (z : FVec Ideal S50000x64 .f32) (wt : FVec Ideal S64x64 .f32) (w : Fin 64 → Fin 64 → EReal)
    (hw : ∀ k g : Fin 64, wt (ix2 k g) = w g k) (n : Fin 50000) (g : Fin 64) :
    ∑ k : Fin 64, val_main_v27 (F := Ideal) z ei (lidx_main_v31 (ix2 n g) k) * wt (ridx_main_v31 (ix2 n g) k)
      = refLayer 850000 50000 (refSrc ei) (refDst ei) (fun i f => z (ix2 i f)) w n g := by
  unfold refLayer lin agg scat
  refine Finset.sum_congr rfl fun k _ => ?_
  rw [show lidx_main_v31 (ix2 n g) k = ix2 n k from funext fun a => by match a with | ⟨0, _⟩ => rfl | ⟨1, _⟩ => rfl,
    show ridx_main_v31 (ix2 n g) k = ix2 k g from funext fun a => by match a with | ⟨0, _⟩ => rfl | ⟨1, _⟩ => rfl,
    hw, val_main_v27_apply, Ideal.mulf_def, inv_eq]
  unfold val_main_v25
  rw [scatter_rows_apply, show val_main_v23 (F := Ideal) (ix2 n k) = 0 from Ideal.ofBits_zero_f32, zero_add]
  refine congrArg (fun t : EReal => t * invd (deg 850000 (refDst ei) n.val) * w g k)
    ((Finset.sum_congr rfl fun e _ => ?_).trans
      (sum_lands (refDst ei) (fun e => gath 50000 (refSrc ei) (fun i f => z (ix2 i f)) e k) n))
  rw [dest, gather_at ei hsrc]

end Stages

-- The right operand of layer l at (k, g) is weight matrix l's entry (g, k): the slice, the reshape and the transpose.
theorem wt_eq (Wt : FVec Ideal S3x64x64 .f32) (k g : Fin 64) :
    val_main_v30 (F := Ideal) Wt (ix2 k g) = Wt (ix3 (0 : Fin 3) g k)
      ∧ val_main_v46 (F := Ideal) Wt (ix2 k g) = Wt (ix3 (1 : Fin 3) g k)
      ∧ val_main_v62 (F := Ideal) Wt (ix2 k g) = Wt (ix3 (2 : Fin 3) g k) := by
  rw [val_main_v30_apply, val_main_v29_apply, val_main_v28_apply, val_main_v46_apply, val_main_v45_apply, val_main_v44_apply,
    val_main_v62_apply, val_main_v61_apply, val_main_v60_apply]
  have hg := g.isLt
  have hk := k.isLt
  refine ⟨?_, ?_, ?_⟩ <;> refine congrArg Wt (funext fun a => Fin.ext ?_) <;> match a with
    | ⟨0, _⟩ => rfl
    | ⟨1, _⟩ => show (g.val * 64 + k.val) / 64 % 64 = g.val; omega
    | ⟨2, _⟩ => show (g.val * 64 + k.val) % 64 = k.val; omega

-- With every source a node, the last stage is the specification's layer applied three times.
theorem ref_value (X : FVec Ideal S50000x64 .f32) (ei : IVec S2x800000 32) (Wt : FVec Ideal S3x64x64 .f32)
    (hsrc : ∀ e : Fin 800000, ∃ n : Fin 50000, ei (ix2 (0 : Fin 2) e) = code n.val) :
    val_main_v63 (F := Ideal) X ei Wt = refG X ei Wt := by
  have e1 : (fun (i : Fin 50000) (f : Fin 64) => val_main_v31 (F := Ideal) X ei Wt (ix2 i f)) = _ :=
    funext fun i => funext fun f => (val_main_v31_apply X ei Wt (ix2 i f)).trans
      (layer_sum ei hsrc X (val_main_v30 (F := Ideal) Wt) _ (fun k g => (wt_eq Wt k g).1) i f)
  have e2 : (fun (i : Fin 50000) (f : Fin 64) => val_main_v47 (F := Ideal) X ei Wt (ix2 i f)) = _ :=
    funext fun i => funext fun f => (val_main_v47_apply X ei Wt (ix2 i f)).trans
      (layer_sum ei hsrc (val_main_v31 (F := Ideal) X ei Wt) (val_main_v46 (F := Ideal) Wt) _ (fun k g => (wt_eq Wt k g).2.1) i f)
  funext j
  obtain ⟨n, g, rfl⟩ : ∃ (n : Fin 50000) (g : Fin 64), j = ix2 n g := ⟨j 0, j 1, eq_ix2 j⟩
  rw [val_main_v63_apply]
  refine (layer_sum ei hsrc (val_main_v47 (F := Ideal) X ei Wt) (val_main_v62 (F := Ideal) Wt) _ (fun k g => (wt_eq Wt k g).2.2) n g).trans ?_
  rw [e2, e1]

theorem ref_run (m : (ℓ : Loc nD τ sig) → Buf (Elt Ideal) ℓ) (ρ : Dev nD → PrngReg)
    (hsrc : ∀ (c : Dev nD) (e : Fin 800000), ∃ n : Fin 50000,
      (m ((c.tc : Thread nD τ).loc main_arg1) : IVec S2x800000 32) (ix2 (0 : Fin 2) e) = code n.val) :
    θ_run defs (onTc (τ := τ) (main (F := Ideal))) ⟨m, fun _ => 0, ρ⟩ fun r => ∀ c : Dev nD,
      r.2.mem ((c.tc : Thread nD τ).loc main_v63)
          = refG (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v63_eq m c).trans (ref_value _ _ _ (hsrc c))), (h c).2⟩)
    (Cert.ReferenceIdeal.Value.run (F := Ideal) m ρ)

theorem ref_frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.Bridge.lean ====
import proofs.«427573_j12068858102168_3_alg».proof.Proof.Val.Glue
import proofs.«427573_j12068858102168_3_alg».proof.Proof.Ref
import proofs.«427573_j12068858102168_3_alg».proof.Proof.Algebra

noncomputable section

namespace Cert.Bridge

open Cert.KernelIdeal Cert.KernelIdeal.Gen Cert.KernelIdeal.Hand Cert.KernelIdeal.Val Cert.KernelIdeal.Compose
open Idealize.ShloMosaic Idealize.ShloMosaic.TcCoe Idealize.SL.Sem
open Idealize.ShloMosaic.ValueIdx
open Cert.Spec

attribute [local irreducible] Cert.Spec.agg Cert.Spec.refLayer Cert.Spec.scat Cert.Spec.gath Cert.Spec.deg Cert.Spec.lin Cert.Spec.invd

variable (m : (ℓ : Loc nD τ sig) → Buf (Elt Ideal) ℓ) (c : Dev nD)

def kerG : S50000x64.Idx → EReal := fun j =>
  cOut m c ⟨(j 0).val, Nat.lt_of_lt_of_le (idx2_lt0 j) (by decide)⟩ (j 1)

theorem result_eq :
    (W17 m rpsI c (Proc.devRef .tc main_v23) : S50000x64.Idx → EReal) = kerG m c := by
  funext j
  obtain ⟨i, k, rfl⟩ : ∃ (i : Fin 50000) (k : Fin 64), j = ix2 i k := ⟨j 0, j 1, eq_ix2 j⟩
  exact result_apply m c i k

theorem kerG_eq_refG
    (hx : ∀ (i : Fin 50000) (j : Fin 64), ∃ r : ℝ, ((m ((c : Thread nD τ).loc main_arg0)) : S50000x64.Idx → EReal) (ix2 i j) = (r : EReal))
    (hw : ∀ (l : Fin 3) (f k : Fin 64), ∃ r : ℝ, ((m ((c : Thread nD τ).loc main_arg2)) : S3x64x64.Idx → EReal) (ix3 l f k) = (r : EReal))
    (hs : ∀ e : Fin 800000, ∃ n : Fin 50000, ((m ((c : Thread nD τ).loc main_arg1)) : S2x800000.Idx → BitVec 32) (ix2 (0 : Fin 2) e) = code n.val) :
    kerG m c = Cert.ReferenceIdeal.RefValue.refG (m ((c : Thread nD τ).loc main_arg0)) (m ((c : Thread nD τ).loc main_arg1)) (m ((c : Thread nD τ).loc main_arg2)) := by
  funext j
  obtain ⟨i, k, rfl⟩ : ∃ (i : Fin 50000) (k : Fin 64), j = ix2 i k := ⟨j 0, j 1, eq_ix2 j⟩
  have hW : ∀ l, cW m c l = fun f k => ((m ((c : Thread nD τ).loc main_arg2)) : S3x64x64.Idx → EReal) (ix3 l f k) :=
    fun l => funext fun f => funext fun k => wMat_apply l _ f k
  show cOut m c ⟨i.val, _⟩ k = _
  unfold cOut cL2 cL1 cL0
  rw [hW, hW, hW]
  refine kernel_eq_ref (fun i j => ((m ((c : Thread nD τ).loc main_arg0)) : S50000x64.Idx → EReal) (ix2 i j)) _ _ _ hx (hw 0) (hw 1) (hw 2)
    (Cert.ReferenceIdeal.RefValue.refSrc (m ((c : Thread nD τ).loc main_arg1))) (Cert.ReferenceIdeal.RefValue.refDst (m ((c : Thread nD τ).loc main_arg1))) ?_
    (cX m c) (fun n j => xPad_apply m c n j) (cSrc m c) (cDst m c) (fun e => edgePad_apply 0 _ e) (fun e => edgePad_apply 1 _ e) i k
  · intro e
    unfold Cert.ReferenceIdeal.RefValue.refSrc
    by_cases h : e.val < 800000
    · rw [dif_pos h]; exact hs ⟨e.val, h⟩
    · rw [dif_neg h]; exact ⟨⟨e.val - 800000, by have := e.isLt; omega⟩, rfl⟩

end Cert.Bridge

end
-- ==== Proof.PreFacts.lean ====
import proofs.«427573_j12068858102168_3_alg».proof.Pre_finite_inputs
import proofs.«427573_j12068858102168_3_alg».proof.Proof.Gen.Pre_finite_inputs
import proofs.«427573_j12068858102168_3_alg».proof.Proof.Spec
import Idealize.ShloMosaic.Lib.ReduceAll
import Idealize.ShloMosaic.Lib.StableHlo.Predicate
import Idealize.ShloMosaic.Lib.ValueIdx
import Idealize.ShloMosaic.Lib.ValueLayout

noncomputable section

namespace Cert.PreFacts

open Idealize.ShloMosaic Idealize.ShloMosaic.ValueIdx
open Cert.Pre_finite_inputs

instance : Subsingleton S_.Idx := ⟨fun a b => funext fun d => d.elim0⟩

theorem inf_eq_top : Ideal.ofBits .f32 0x7F800000#32 = (⊤ : EReal) := by simp [Ideal.ofBits, Ideal.ieee]

theorem real_of_abs_lt_top (x : EReal)
    (h : Ideal.cmp .olt (max x (-x)) (Ideal.ofBits .f32 0x7F800000#32) = 1#1) : ∃ r : ℝ, x = (r : EReal) := by
  rw [inf_eq_top] at h
  simp only [Ideal.cmp, StableHlo.Predicate.ofBool_eq_one_iff, decide_eq_true_eq] at h
  induction x using EReal.rec with
  | bot => simp at h
  | coe r => exact ⟨r, rfl⟩
  | top => simp at h

theorem code_of_range (w : BitVec 32) (h0 : IntOp.cmpi .sge w 0#32 = 1#1) (h1 : IntOp.cmpi .slt w 50000#32 = 1#1) :
    ∃ n : Fin 50000, w = Cert.Spec.code n.val := by
  rw [IntOp.cmpi_sge, show (0#32 : BitVec 32).toInt = 0 from by decide] at h0
  rw [IntOp.cmpi_slt, show (50000#32 : BitVec 32).toInt = 50000 from by decide] at h1
  have hN : 2 * w.toNat < 2 ^ 32 := BitVec.toInt_pos_iff.1 h0
  rw [BitVec.toInt_eq_toNat_of_lt hN] at h1
  refine ⟨⟨w.toNat, by omega⟩, ?_⟩
  apply BitVec.eq_of_toNat_eq
  show w.toNat = (BitVec.ofNat 32 w.toNat).toNat
  rw [BitVec.toNat_ofNat]
  exact (Nat.mod_eq_of_lt w.isLt).symm

theorem row0_apply (ei : IVec S2x800000 32) (e : Fin 800000) :
    shapeCast S800000 (extractStridedSlice S1x800000 ![0, 0] ei Facts.slices_S2x800000_S1x800000_0_0)
        Facts.shapeCasts_S1x800000_S800000 (ix1 e) = ei (ix2 (0 : Fin 2) e) :=
  (shapeCast_1a_a_apply _ _ e).trans (slice2_axis0_apply 0 ei _ (0 : Fin 1) e (0 : Fin 2) rfl)

theorem decode {X : FVec Ideal S50000x64 .f32} {ei : IVec S2x800000 32} {Wt : FVec Ideal S3x64x64 .f32}
    (h : Cert.Pre_finite_inputs.fn (F := Ideal) X ei Wt = fun _ => 1#1) :
      (∀ (i : Fin 50000) (j : Fin 64), ∃ r : ℝ, X (ValueIdx.ix2 i j) = (r : EReal))
    ∧ (∀ (l : Fin 3) (f k : Fin 64), ∃ r : ℝ, Wt (ValueIdx.ix3 l f k) = (r : EReal))
    ∧ (∀ e : Fin 800000, ∃ n : Fin 50000, ei (ValueIdx.ix2 (0 : Fin 2) e) = Cert.Spec.code n.val) := by
  have h0 := congrFun h ix0
  dsimp only [Cert.Pre_finite_inputs.fn, Cert.Pre_finite_inputs.fn_part1] at h0
  obtain ⟨h123, hlt⟩ := IntOp.andi_eq_one.1 h0
  obtain ⟨h12, hge⟩ := IntOp.andi_eq_one.1 h123
  obtain ⟨hx, hw⟩ := IntOp.andi_eq_one.1 h12
  refine ⟨fun i j => ?_, fun l f k => ?_, fun e => ?_⟩
  · have t := Host.reduce_andi_all _ _ _ _ ix0 hx (ix2 i j)
    rw [cmpf_apply, StableHlo.Predicate.bcast_scalar _ Facts.h_S_, constant_apply] at t
    exact real_of_abs_lt_top (X (ix2 i j)) t
  · have t := Host.reduce_andi_all _ _ _ _ ix0 hw (ix3 l f k)
    rw [cmpf_apply, StableHlo.Predicate.bcast_scalar _ Facts.h_S_, constant_apply] at t
    exact real_of_abs_lt_top (Wt (ix3 l f k)) t
  · have t0 := Host.reduce_andi_all _ _ _ _ ix0 hge (ix1 e)
    have t1 := Host.reduce_andi_all _ _ _ _ ix0 hlt (ix1 e)
    change IntOp.cmpi .sge _ _ = 1#1 at t0
    change IntOp.cmpi .slt _ _ = 1#1 at t1
    rw [row0_apply, StableHlo.Predicate.bcast_scalar _ Facts.h_S_] at t0 t1
    exact code_of_range _ t0 t1

end Cert.PreFacts

end
-- ==== Proof.lean ====
/-
  Three layers of a graph convolution with mean aggregation: a layer gathers every edge's source row, adds the rows
  up at the destinations, divides by the in-degree (self loops counted, never below one) and applies a linear map.
  The kernel program works on padded lists (51200 nodes, 851968 edges), writes each gather and each scatter as a
  product with a one-hot matrix summed over tiles, and applies a layer's linear map before that layer's aggregation;
  the reference aggregates first. An aggregation is linear in its rows, so it commutes with the linear map, and on
  real inputs whose sources name nodes the padded sums agree with the graph's on the first 50000 rows.
-/
import proofs.«427573_j12068858102168_3_alg».proof.Defs
import proofs.«427573_j12068858102168_3_alg».proof.Proof.Gen.Kernel
import proofs.«427573_j12068858102168_3_alg».proof.Proof.Gen.KernelIdeal
import proofs.«427573_j12068858102168_3_alg».proof.Proof.Gen.ReferenceIdeal
import proofs.«427573_j12068858102168_3_alg».proof.Proof.Gen.Pre_finite_inputs
import proofs.«427573_j12068858102168_3_alg».proof.Proof.K.Chain
import proofs.«427573_j12068858102168_3_alg».proof.Proof.K.R0
import proofs.«427573_j12068858102168_3_alg».proof.Proof.K.R1
import proofs.«427573_j12068858102168_3_alg».proof.Proof.K.R2
import proofs.«427573_j12068858102168_3_alg».proof.Proof.K.R3
import proofs.«427573_j12068858102168_3_alg».proof.Proof.K.R4
import proofs.«427573_j12068858102168_3_alg».proof.Proof.K.R5
import proofs.«427573_j12068858102168_3_alg».proof.Proof.K.R6
import proofs.«427573_j12068858102168_3_alg».proof.Proof.Bridge
import proofs.«427573_j12068858102168_3_alg».proof.Proof.PreFacts
import Idealize.ShloMosaic.PureOps.IdealRules
import Idealize.ShloMosaic.Adequacy
import Idealize.ShloMosaic.Init

noncomputable section

namespace Cert.Proof

open Idealize.ShloMosaic Idealize.ShloMosaic.TcCoe Idealize.SL.Sem
open Idealize.ShloMosaic.ValueIdx

theorem frame_kernel : Cert.frame_Kernel := fun m ρ _ =>
  open Cert.Kernel.Hand in frame (F := Bits) m ρ (regions rp0 rp1 rp2 rp3 rp4 rp5 rp6)

theorem frame_kernelIdeal : Cert.frame_KernelIdeal := fun m ρ _ =>
  Cert.KernelIdeal.Hand.frame m ρ Cert.KernelIdeal.Compose.rpsI

theorem preserves : Cert.preserves_Kernel_KernelIdeal :=
  IdealRules.truncf_extf.statement Cert.KernelIdeal.S2048x1024 .f32 .bf16

theorem algebraic : Cert.algebraic_KernelIdeal_ReferenceIdeal := by
  intro m ρ m' ρ' hpre hagree
  have hd := fun c : Dev Cert.KernelIdeal.nD => Cert.PreFacts.decode (hpre c)
  refine ⟨fun c => Cert.Bridge.kerG m c, ?_, ?_⟩
  · refine (θ_run Cert.KernelIdeal.defs _ _).mono (fun r h c => ⟨?_, ?_, ?_, ?_⟩)
      (Cert.KernelIdeal.Hand.run_main m ρ Cert.KernelIdeal.Compose.rpsI)
    · exact (h c _ (Cert.KernelIdeal.Hand.mem_uc Cert.KernelIdeal.main_v23 (by decide))).trans (Cert.Bridge.result_eq m c)
    · exact (h c _ (Cert.KernelIdeal.Hand.mem_uc Cert.KernelIdeal.main_arg0 (by decide))).trans (Cert.KernelIdeal.Hand.W17_kept m _ c _ (by decide))
    · exact (h c _ (Cert.KernelIdeal.Hand.mem_uc Cert.KernelIdeal.main_arg1 (by decide))).trans (Cert.KernelIdeal.Hand.W17_kept m _ c _ (by decide))
    · exact (h c _ (Cert.KernelIdeal.Hand.mem_uc Cert.KernelIdeal.main_arg2 (by decide))).trans (Cert.KernelIdeal.Hand.W17_kept m _ c _ (by decide))
  · have hsrc : ∀ (c : Dev Cert.ReferenceIdeal.nD) (e : Fin 800000), ∃ n : Fin 50000,
        (m' ((c.tc : Thread Cert.ReferenceIdeal.nD Cert.ReferenceIdeal.τ).loc Cert.ReferenceIdeal.main_arg1) : IVec Cert.ReferenceIdeal.S2x800000 32) (ix2 (0 : Fin 2) e) = Cert.Spec.code n.val :=
      fun c e => by rw [(hagree c).2.1]; exact (hd c).2.2 e
    refine (θ_run Cert.ReferenceIdeal.defs _ _).mono (fun r h c => ⟨(h c).1.trans ?_, (h c).2⟩)
      (Cert.ReferenceIdeal.RefValue.ref_run m' ρ' hsrc)
    rw [(hagree c).1, (hagree c).2.1, (hagree c).2.2]
    exact (Cert.Bridge.kerG_eq_refG m c (hd c).1 (hd c).2.1 (hd c).2.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefValue.ref_frame, preserves, algebraic⟩

end Cert.Proof

end
